-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.truncf_extf.Statement Cert.KernelIdeal.S128x4096 .f32 .bf16
  ∧ IdealRules.truncf_extf.Statement Cert.KernelIdeal.S128x4096 .f32 .bf16
  ∧ IdealRules.truncf_extf.Statement Cert.KernelIdeal.S128x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S131072x512 : Shape := ⟨2, ![131072, 512]⟩
abbrev S262144x512 : Shape := ⟨2, ![262144, 512]⟩
abbrev S131072 : Shape := ⟨1, ![131072]⟩
abbrev S262144 : Shape := ⟨1, ![262144]⟩
abbrev S1024x512 : Shape := ⟨2, ![1024, 512]⟩
abbrev S512 : Shape := ⟨1, ![512]⟩
abbrev S1024x2048 : Shape := ⟨2, ![1024, 2048]⟩
abbrev S2048 : Shape := ⟨1, ![2048]⟩
abbrev S2048x3129 : Shape := ⟨2, ![2048, 3129]⟩
abbrev S3129 : Shape := ⟨1, ![3129]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S131072x512 : S_.BroadcastsInDim S131072x512 (![] : Fin 0 → Fin S131072x512.rank)
  reducesTo_S131072x512_S_d0_1 : S131072x512.ReducesTo [0, 1] S_
  bcast_S_S262144x512 : S_.BroadcastsInDim S262144x512 (![] : Fin 0 → Fin S262144x512.rank)
  reducesTo_S262144x512_S_d0_1 : S262144x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x3129 : S_.BroadcastsInDim S2048x3129 (![] : Fin 0 → Fin S2048x3129.rank)
  reducesTo_S2048x3129_S_d0_1 : S2048x3129.ReducesTo [0, 1] S_
  bcast_S_S3129 : S_.BroadcastsInDim S3129 (![] : Fin 0 → Fin S3129.rank)
  reducesTo_S3129_S_d0 : S3129.ReducesTo [0] S_

variable [Facts]

def fn_part3 {F : FTy → Type} [FloatOps F] (main_arg15 : FVec F S2048x3129 .f32) (main_arg16 : FVec F S3129 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x3129 .f32 := Host.absf main_arg15
  let main_cst_20 : FVec F S_ .f32 := constant S_ .f32 0x7F800000#32
  let main_v55 : FVec F S2048x3129 .f32 := broadcastInDim S2048x3129 ![] bcast_S_S2048x3129 main_cst_20
  let main_v56 : IVec S2048x3129 1 := cmpf .olt main_v54 main_v55
  let main_c_21 : IVec S_ 1 := constantI S_ 1 1#1
  let main_v57 : IVec S_ 1 := (fun x v => Host.reduce IntOp.andi x v reducesTo_S2048x3129_S_d0_1 h_S_) main_v56 main_c_21
  let main_v58 : IVec S_ 1 := andi main_v53 main_v57
  let main_v59 : FVec F S3129 .f32 := Host.absf main_arg16
  let main_cst_22 : FVec F S_ .f32 := constant S_ .f32 0x7F800000#32
  let main_v60 : FVec F S3129 .f32 := broadcastInDim S3129 ![] bcast_S_S3129 main_cst_22
  let main_v61 : IVec S3129 1 := cmpf .olt main_v59 main_v60
  let main_c_23 : IVec S_ 1 := constantI S_ 1 1#1
  let main_v62 : IVec S_ 1 := (fun x v => Host.reduce IntOp.andi x v reducesTo_S3129_S_d0 h_S_) main_v61 main_c_23
  let main_v63 : IVec S_ 1 := andi main_v58 main_v62
  main_v63

def fn_part2 {F : FTy → Type} [FloatOps F] (main_arg11 : FVec F S1024x512 .f32) (main_arg12 : FVec F S512 .f32) (main_arg13 : FVec F S1024x2048 .f32) (main_arg14 : FVec F S2048 .f32) (main_arg15 : FVec F S2048x3129 .f32) (main_arg16 : FVec F S3129 .f32) (main_v33 : IVec S_ 1) : IVec S_ 1 :=
  let main_v34 : FVec F S1024x512 .f32 := Host.absf main_arg11
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg12
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x2048 .f32 := Host.absf main_arg13
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S2048 .f32 := Host.absf main_arg14
  let main_cst_18 : FVec F S_ .f32 := constant S_ .f32 0x7F800000#32
  let main_v50 : FVec F S2048 .f32 := broadcastInDim S2048 ![] bcast_S_S2048 main_cst_18
  fn_part3 (F := F) main_arg15 main_arg16 main_v48 main_v49 main_v50

def fn_part1 {F : FTy → Type} [FloatOps F] (main_arg4 : FVec F S262144x512 .f32) (main_arg9 : FVec F S1024x512 .f32) (main_arg10 : FVec F S512 .f32) (main_arg11 : FVec F S1024x512 .f32) (main_arg12 : FVec F S512 .f32) (main_arg13 : FVec F S1024x2048 .f32) (main_arg14 : FVec F S2048 .f32) (main_arg15 : FVec F S2048x3129 .f32) (main_arg16 : FVec F S3129 .f32) (main_v13 : IVec S_ 1) (main_v16 : IVec S262144x512 1) : IVec S_ 1 :=
  let main_c_5 : IVec S_ 1 := constantI S_ 1 1#1
  let main_v17 : IVec S_ 1 := (fun x v => Host.reduce IntOp.andi x v reducesTo_S262144x512_S_d0_1 h_S_) main_v16 main_c_5
  let main_v18 : IVec S_ 1 := andi main_v13 main_v17
  let main_v19 : FVec F S262144x512 .f32 := Host.absf main_arg4
  let main_cst_6 : FVec F S_ .f32 := constant S_ .f32 0x7F800000#32
  let main_v20 : FVec F S262144x512 .f32 := broadcastInDim S262144x512 ![] bcast_S_S262144x512 main_cst_6
  let main_v21 : IVec S262144x512 1 := cmpf .olt main_v19 main_v20
  let main_c_7 : IVec S_ 1 := constantI S_ 1 1#1
  let main_v22 : IVec S_ 1 := (fun x v => Host.reduce IntOp.andi x v reducesTo_S262144x512_S_d0_1 h_S_) main_v21 main_c_7
  let main_v23 : IVec S_ 1 := andi main_v18 main_v22
  let main_v24 : FVec F S1024x512 .f32 := Host.absf main_arg9
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg10
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S128x1024 .f32) (main_arg1 : FVec F S131072x512 .f32) (main_arg2 : FVec F S131072x512 .f32) (main_arg3 : FVec F S262144x512 .f32) (main_arg4 : FVec F S262144x512 .f32) (main_arg5 : IVec S131072 32) (main_arg6 : IVec S131072 32) (main_arg7 : IVec S262144 32) (main_arg8 : IVec S262144 32) (main_arg9 : FVec F S1024x512 .f32) (main_arg10 : FVec F S512 .f32) (main_arg11 : FVec F S1024x512 .f32) (main_arg12 : FVec F S512 .f32) (main_arg13 : FVec F S1024x2048 .f32) (main_arg14 : FVec F S2048 .f32) (main_arg15 : FVec F S2048x3129 .f32) (main_arg16 : FVec F S3129 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S131072x512 .f32 := Host.absf main_arg2
  let main_cst_2 : FVec F S_ .f32 := constant S_ .f32 0x7F800000#32
  let main_v10 : FVec F S131072x512 .f32 := broadcastInDim S131072x512 ![] bcast_S_S131072x512 main_cst_2
  let main_v11 : IVec S131072x512 1 := cmpf .olt main_v9 main_v10
  let main_c_3 : IVec S_ 1 := constantI S_ 1 1#1
  let main_v12 : IVec S_ 1 := (fun x v => Host.reduce IntOp.andi x v reducesTo_S131072x512_S_d0_1 h_S_) main_v11 main_c_3
  let main_v13 : IVec S_ 1 := andi main_v8 main_v12
  let main_v14 : FVec F S262144x512 .f32 := Host.absf main_arg3
  let main_cst_4 : FVec F S_ .f32 := constant S_ .f32 0x7F800000#32
  let main_v15 : FVec F S262144x512 .f32 := broadcastInDim S262144x512 ![] bcast_S_S262144x512 main_cst_4
  let main_v16 : IVec S262144x512 1 := cmpf .olt main_v14 main_v15
  fn_part1 (F := F) main_arg4 main_arg9 main_arg10 main_arg11 main_arg12 main_arg13 main_arg14 main_arg15 main_arg16 main_v13 main_v16
-- ==== Kernel.lean ====
abbrev S128x1024 : Shape := ⟨2, ![128, 1024]⟩
abbrev S131072x512 : Shape := ⟨2, ![131072, 512]⟩
abbrev S262144x512 : Shape := ⟨2, ![262144, 512]⟩
abbrev S131072 : Shape := ⟨1, ![131072]⟩
abbrev S262144 : Shape := ⟨1, ![262144]⟩
abbrev S1024x512 : Shape := ⟨2, ![1024, 512]⟩
abbrev S512 : Shape := ⟨1, ![512]⟩
abbrev S1024x2048 : Shape := ⟨2, ![1024, 2048]⟩
abbrev S2048 : Shape := ⟨1, ![2048]⟩
abbrev S2048x3129 : Shape := ⟨2, ![2048, 3129]⟩
abbrev S3129 : Shape := ⟨1, ![3129]⟩
abbrev S2x128x512 : Shape := ⟨3, ![2, 128, 512]⟩
abbrev S2x128x1 : Shape := ⟨3, ![2, 128, 1]⟩
abbrev S4096x512 : Shape := ⟨2, ![4096, 512]⟩
abbrev S4096 : Shape := ⟨1, ![4096]⟩
abbrev S1x128x512 : Shape := ⟨3, ![1, 128, 512]⟩
abbrev S1x128x1 : Shape := ⟨3, ![1, 128, 1]⟩
abbrev S128x512 : Shape := ⟨2, ![128, 512]⟩
abbrev S128x1 : Shape := ⟨2, ![128, 1]⟩
abbrev S1x4096 : Shape := ⟨2, ![1, 4096]⟩
abbrev S128x4096 : Shape := ⟨2, ![128, 4096]⟩
abbrev S128 : Shape := ⟨1, ![128]⟩
abbrev S_ : Shape := ⟨0, ![]⟩
abbrev S128x3129 : Shape := ⟨2, ![128, 3129]⟩
abbrev S1x512 : Shape := ⟨2, ![1, 512]⟩
abbrev S128x2048 : Shape := ⟨2, ![128, 2048]⟩
abbrev S1x2048 : Shape := ⟨2, ![1, 2048]⟩
abbrev S1x3129 : Shape := ⟨2, ![1, 3129]⟩

abbrev nBuf : Space → Nat
  | .hbm => 74
  | .vmem => 43
  | .smem => 0
  | _ => 0

abbrev bufTy : (tb : Table) → Fin (tcTables nBuf tb) → BufTy
  | .hbm, ⟨0, _⟩ => ⟨S128x1024, .f32⟩
  | .hbm, ⟨1, _⟩ => ⟨S131072x512, .f32⟩
  | .hbm, ⟨2, _⟩ => ⟨S131072x512, .f32⟩
  | .hbm, ⟨3, _⟩ => ⟨S262144x512, .f32⟩
  | .hbm, ⟨4, _⟩ => ⟨S262144x512, .f32⟩
  | .hbm, ⟨5, _⟩ => ⟨S131072, .i32⟩
  | .hbm, ⟨6, _⟩ => ⟨S131072, .i32⟩
  | .hbm, ⟨7, _⟩ => ⟨S262144, .i32⟩
  | .hbm, ⟨8, _⟩ => ⟨S262144, .i32⟩
  | .hbm, ⟨9, _⟩ => ⟨S1024x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S1024x2048, .f32⟩
  | .hbm, ⟨14, _⟩ => ⟨S2048, .f32⟩
  | .hbm, ⟨15, _⟩ => ⟨S2048x3129, .f32⟩
  | .hbm, ⟨16, _⟩ => ⟨S3129, .f32⟩
  | .hbm, ⟨17, _⟩ => ⟨S2x128x512, .f32⟩
  | .hbm, ⟨18, _⟩ => ⟨S2x128x1, .f32⟩
  | .hbm, ⟨19, _⟩ => ⟨S1x128x512, .f32⟩
  | .hbm, ⟨20, _⟩ => ⟨S128x512, .f32⟩
  | .hbm, ⟨21, _⟩ => ⟨S1x128x512, .f32⟩
  | .hbm, ⟨22, _⟩ => ⟨S128x512, .f32⟩
  | .hbm, ⟨23, _⟩ => ⟨S128x512, .f32⟩
  | .hbm, ⟨24, _⟩ => ⟨S1x128x1, .f32⟩
  | .hbm, ⟨25, _⟩ => ⟨S128x1, .f32⟩
  | .hbm, ⟨26, _⟩ => ⟨S1x128x1, .f32⟩
  | .hbm, ⟨27, _⟩ => ⟨S128x1, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x512, .f32⟩
  | .hbm, ⟨33, _⟩ => ⟨S128x512, .f32⟩
  | .hbm, ⟨34, _⟩ => ⟨S2x128x512, .f32⟩
  | .hbm, ⟨35, _⟩ => ⟨S2x128x1, .f32⟩
  | .hbm, ⟨36, _⟩ => ⟨S1x128x512, .f32⟩
  | .hbm, ⟨37, _⟩ => ⟨S128x512, .f32⟩
  | .hbm, ⟨38, _⟩ => ⟨S1x128x512, .f32⟩
  | .hbm, ⟨39, _⟩ => ⟨S128x512, .f32⟩
  | .hbm, ⟨40, _⟩ => ⟨S128x512, .f32⟩
  | .hbm, ⟨41, _⟩ => ⟨S1x128x1, .f32⟩
  | .hbm, ⟨42, _⟩ => ⟨S128x1, .f32⟩
  | .hbm, ⟨43, _⟩ => ⟨S1x128x1, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x512, .f32⟩
  | .hbm, ⟨50, _⟩ => ⟨S128x512, .f32⟩
  | .hbm, ⟨51, _⟩ => ⟨S2x128x512, .f32⟩
  | .hbm, ⟨52, _⟩ => ⟨S2x128x1, .f32⟩
  | .hbm, ⟨53, _⟩ => ⟨S1x128x512, .f32⟩
  | .hbm, ⟨54, _⟩ => ⟨S128x512, .f32⟩
  | .hbm, ⟨55, _⟩ => ⟨S1x128x512, .f32⟩
  | .hbm, ⟨56, _⟩ => ⟨S128x512, .f32⟩
  | .hbm, ⟨57, _⟩ => ⟨S128x512, .f32⟩
  | .hbm, ⟨58, _⟩ => ⟨S1x128x1, .f32⟩
  | .hbm, ⟨59, _⟩ => ⟨S128x1, .f32⟩
  | .hbm, ⟨60, _⟩ => ⟨S1x128x1, .f32⟩
  | .hbm, ⟨61, _⟩ => ⟨S128x1, .f32⟩
  | .hbm, ⟨62, _⟩ => ⟨S128x1, .f32⟩
  | .hbm, ⟨63, _⟩ => ⟨S_, .f32⟩
  | .hbm, ⟨64, _⟩ => ⟨S128x1, .f32⟩
  | .hbm, ⟨65, _⟩ => ⟨S128x1, .f32⟩
  | .hbm, ⟨66, _⟩ => ⟨S128x512, .f32⟩
  | .hbm, ⟨67, _⟩ => ⟨S128x512, .f32⟩
  | .hbm, ⟨68, _⟩ => ⟨S128x1024, .bf16⟩
  | .hbm, ⟨69, _⟩ => ⟨S1024x512, .bf16⟩
  | .hbm, ⟨70, _⟩ => ⟨S1024x512, .bf16⟩
  | .hbm, ⟨71, _⟩ => ⟨S1024x2048, .bf16⟩
  | .hbm, ⟨72, _⟩ => ⟨S2048x3129, .bf16⟩
  | .hbm, ⟨73, _⟩ => ⟨S128x3129, .f32⟩
  | .local _ .vmem, ⟨0, _⟩ => ⟨S4096x512, .f32⟩
  | .local _ .vmem, ⟨1, _⟩ => ⟨S4096x512, .f32⟩
  | .local _ .vmem, ⟨2, _⟩ => ⟨S4096, .i32⟩
  | .local _ .vmem, ⟨3, _⟩ => ⟨S4096, .i32⟩
  | .local _ .vmem, ⟨4, _⟩ => ⟨S1x128x512, .f32⟩
  | .local _ .vmem, ⟨5, _⟩ => ⟨S1x128x512, .f32⟩
  | .local _ .vmem, ⟨6, _⟩ => ⟨S1x128x1, .f32⟩
  | .local _ .vmem, ⟨7, _⟩ => ⟨S1x128x1, .f32⟩
  | .local _ .vmem, ⟨8, _⟩ => ⟨S128x512, .f32⟩
  | .local _ .vmem, ⟨9, _⟩ => ⟨S128x1, .f32⟩
  | .local _ .vmem, ⟨10, _⟩ => ⟨S4096x512, .f32⟩
  | .local _ .vmem, ⟨11, _⟩ => ⟨S4096x512, .f32⟩
  | .local _ .vmem, ⟨12, _⟩ => ⟨S4096, .i32⟩
  | .local _ .vmem, ⟨13, _⟩ => ⟨S4096, .i32⟩
  | .local _ .vmem, ⟨14, _⟩ => ⟨S1x128x512, .f32⟩
  | .local _ .vmem, ⟨15, _⟩ => ⟨S1x128x512, .f32⟩
  | .local _ .vmem, ⟨16, _⟩ => ⟨S1x128x1, .f32⟩
  | .local _ .vmem, ⟨17, _⟩ => ⟨S1x128x1, .f32⟩
  | .local _ .vmem, ⟨18, _⟩ => ⟨S128x512, .f32⟩
  | .local _ .vmem, ⟨19, _⟩ => ⟨S128x1, .f32⟩
  | .local _ .vmem, ⟨20, _⟩ => ⟨S4096x512, .f32⟩
  | .local _ .vmem, ⟨21, _⟩ => ⟨S4096x512, .f32⟩
  | .local _ .vmem, ⟨22, _⟩ => ⟨S4096, .i32⟩
  | .local _ .vmem, ⟨23, _⟩ => ⟨S4096, .i32⟩
  | .local _ .vmem, ⟨24, _⟩ => ⟨S1x128x512, .f32⟩
  | .local _ .vmem, ⟨25, _⟩ => ⟨S1x128x512, .f32⟩
  | .local _ .vmem, ⟨26, _⟩ => ⟨S1x128x1, .f32⟩
  | .local _ .vmem, ⟨27, _⟩ => ⟨S1x128x1, .f32⟩
  | .local _ .vmem, ⟨28, _⟩ => ⟨S128x512, .f32⟩
  | .local _ .vmem, ⟨29, _⟩ => ⟨S128x1, .f32⟩
  | .local _ .vmem, ⟨30, _⟩ => ⟨S128x1024, .bf16⟩
  | .local _ .vmem, ⟨31, _⟩ => ⟨S128x512, .f32⟩
  | .local _ .vmem, ⟨32, _⟩ => ⟨S128x512, .f32⟩
  | .local _ .vmem, ⟨33, _⟩ => ⟨S128x512, .f32⟩
  | .local _ .vmem, ⟨34, _⟩ => ⟨S1024x512, .bf16⟩
  | .local _ .vmem, ⟨35, _⟩ => ⟨S512, .f32⟩
  | .local _ .vmem, ⟨36, _⟩ => ⟨S1024x512, .bf16⟩
  | .local _ .vmem, ⟨37, _⟩ => ⟨S512, .f32⟩
  | .local _ .vmem, ⟨38, _⟩ => ⟨S1024x2048, .bf16⟩
  | .local _ .vmem, ⟨39, _⟩ => ⟨S2048, .f32⟩
  | .local _ .vmem, ⟨40, _⟩ => ⟨S2048x3129, .bf16⟩
  | .local _ .vmem, ⟨41, _⟩ => ⟨S3129, .f32⟩
  | .local _ .vmem, ⟨42, _⟩ => ⟨S128x3129, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc3_stg11_0 : Ref sig .tc := ⟨.vmem, 41, rfl⟩
abbrev cc3_stg12_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34
abbrev cc3_sem11_0 : DmaSem sig := 35
abbrev cc3_sem12_0 : DmaSem sig := 36

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_12 : BitVec 32 := 0#32
  let v29 : BitVec 1 := Scalar.cmpi .ne v28 c0_i32_12
  v29

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 32], ![false, false]⟩

def k2_cond2 (i : grid2.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_12 : BitVec 32 := 0#32
  let v29 : BitVec 1 := Scalar.cmpi .ne v28 c0_i32_12
  v29

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x128x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x2048 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S2048 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S2048x3129 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S3129 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x3129 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

class Facts₀ : Prop where
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S4096_S4096_0 : ∀ a, (![0] : Fin 1 → Nat) a + S4096.size a ≤ S4096.size a
  h_S4096 : 0 < S4096.numel
  shapeCasts_S4096_S1x4096 : S4096.ShapeCasts S1x4096
  iota_S128x4096_d0_w32 : S128x4096.Iotas .tc 32 [0]
  broadcasts_S1x4096_S128x4096 : S1x4096.Broadcasts S128x4096
  natLt_1_32 : 1 < 32
  reduces_S128x4096_S128 : S128x4096.Reduces [1] S128
  shapeCasts_S128_S128x1 : S128.ShapeCasts S128x1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  slices_S2x128x512_S1x128x512_0_0_0 : S2x128x512.Slices ![0, 0, 0] S1x128x512
  slices_S2x128x512_S1x128x512_1_0_0 : S2x128x512.Slices ![1, 0, 0] S1x128x512
  slices_S2x128x1_S1x128x1_0_0_0 : S2x128x1.Slices ![0, 0, 0] S1x128x1
  slices_S2x128x1_S1x128x1_1_0_0 : S2x128x1.Slices ![1, 0, 0] S1x128x1
  bcast_S_S128x1 : S_.BroadcastsInDim S128x1 (![] : Fin 0 → Fin S128x1.rank)
  bcast_S128x1_S128x512_0_1 : S128x1.BroadcastsInDim S128x512 (![0, 1] : Fin 2 → Fin S128x512.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  concatenates_S128x512_S128x512_S128x1024_d1 : Shape.Concatenates [S128x512, S128x512] S128x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S2048x3129_S2048x3129_0_0 : ∀ a, (![0, 0] : Fin 2 → Nat) a + S2048x3129.size a ≤ S2048x3129.size a
  h_S2048x3129 : 0 < S2048x3129.numel
  shapeCasts_S2048x3129_S2048x3129 : S2048x3129.ShapeCasts S2048x3129
  inb_S3129_S3129_0 : ∀ a, (![0] : Fin 1 → Nat) a + S3129.size a ≤ S3129.size a
  h_S3129 : 0 < S3129.numel
  shapeCasts_S3129_S1x3129 : S3129.ShapeCasts S1x3129
  broadcasts_S1x3129_S128x3129 : S1x3129.Broadcasts S128x3129
  inb_S128x3129_S128x3129_0_0 : ∀ a, (![0, 0] : Fin 2 → Nat) a + S128x3129.size a ≤ S128x3129.size a
  h_S128x3129 : 0 < S128x3129.numel
  dot_S128x4096_S4096x512_S128x512_1_0_0_1_n_n_wf : DotDims.WF S128x4096 S4096x512 S128x512 [1] [0] [0] [1] [] []
  dot_S128x1024_S1024x512_S128x512_1_0_0_1_n_n_wf : DotDims.WF S128x1024 S1024x512 S128x512 [1] [0] [0] [1] [] []
  dot_S128x1024_S1024x2048_S128x2048_1_0_0_1_n_n_wf : DotDims.WF S128x1024 S1024x2048 S128x2048 [1] [0] [0] [1] [] []
  dot_S128x2048_S2048x3129_S128x3129_1_0_0_1_n_n_wf : DotDims.WF S128x2048 S2048x3129 S128x3129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S131072.size a
  hwx0_1 : ∀ i : grid0.Coords, EltTy.bits .i32 = 32 ∨ (Rect.block (s := S131072) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S2x128x512.size a
  hwx0_2 : ∀ i : grid0.Coords, EltTy.bits .f32 = 32 ∨ (Rect.block (s := S2x128x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S131072x512.size a
  hwx1_0 : ∀ i : grid1.Coords, EltTy.bits .f32 = 32 ∨ (Rect.block (s := S131072x512) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S131072.size a
  hwx1_1 : ∀ i : grid1.Coords, EltTy.bits .i32 = 32 ∨ (Rect.block (s := S131072) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S2x128x512.size a
  hwx1_2 : ∀ i : grid1.Coords, EltTy.bits .f32 = 32 ∨ (Rect.block (s := S2x128x512) S1x128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1.size a ≤ S2x128x1.size a
  hwx1_3 : ∀ i : grid1.Coords, EltTy.bits .f32 = 32 ∨ (Rect.block (s := S2x128x1) S1x128x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S262144x512.size a
  hwx2_0 : ∀ i : grid2.Coords, EltTy.bits .f32 = 32 ∨ (Rect.block (s := S262144x512) S4096x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096.size a ≤ S262144.size a
  hwx2_1 : ∀ i : grid2.Coords, EltTy.bits .i32 = 32 ∨ (Rect.block (s := S262144) S4096.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128x512.size a ≤ S2x128x512.size a
  hwx2_2 : ∀ i : grid2.Coords, EltTy.bits .f32 = 32 ∨ (Rect.block (s := S2x128x512) S1x128x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x1.size a ≤ S2x128x1.size a
  hwx2_3 : ∀ i : grid2.Coords, EltTy.bits .f32 = 32 ∨ (Rect.block (s := S2x128x1) S1x128x1.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S128x1024.size a
  hwx3_0 : ∀ i : grid3.Coords, EltTy.bits .bf16 = 32 ∨ (Rect.block (s := S128x1024) S128x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S128x512.size a
  hwx3_1 : ∀ i : grid3.Coords, EltTy.bits .f32 = 32 ∨ (Rect.block (s := S128x512) S128x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x512.size a ≤ S128x512.size a
  hwx3_2 : ∀ i : grid3.Coords, EltTy.bits .f32 = 32 ∨ (Rect.block (s := S128x512) S128x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x512.size a ≤ S128x512.size a
  hwx3_3 : ∀ i : grid3.Coords, EltTy.bits .f32 = 32 ∨ (Rect.block (s := S128x512) S128x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S1024x512.size a
  hwx3_4 : ∀ i : grid3.Coords, EltTy.bits .bf16 = 32 ∨ (Rect.block (s := S1024x512) S1024x512.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512.size a ≤ S512.size a
  hwx3_5 : ∀ i : grid3.Coords, EltTy.bits .f32 = 32 ∨ (Rect.block (s := S512) S512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x512.size a ≤ S1024x512.size a
  hwx3_6 : ∀ i : grid3.Coords, EltTy.bits .bf16 = 32 ∨ (Rect.block (s := S1024x512) S1024x512.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512.size a ≤ S512.size a
  hwx3_7 : ∀ i : grid3.Coords, EltTy.bits .f32 = 32 ∨ (Rect.block (s := S512) S512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024x2048.size a ≤ S1024x2048.size a
  hwx3_8 : ∀ i : grid3.Coords, EltTy.bits .bf16 = 32 ∨ (Rect.block (s := S1024x2048) S1024x2048.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S2048.size a ≤ S2048.size a
  hwx3_9 : ∀ i : grid3.Coords, EltTy.bits .f32 = 32 ∨ (Rect.block (s := S2048) S2048.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S2048x3129.size a ≤ S2048x3129.size a
  hwx3_10 : ∀ i : grid3.Coords, EltTy.bits .bf16 = 32 ∨ (Rect.block (s := S2048x3129) S2048x3129.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S3129.size a ≤ S3129.size a
  hwx3_11 : ∀ i : grid3.Coords, EltTy.bits .f32 = 32 ∨ (Rect.block (s := S3129) S3129.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128x3129.size a ≤ S128x3129.size a
  hwx3_12 : ∀ i : grid3.Coords, EltTy.bits .f32 = 32 ∨ (Rect.block (s := S128x3129) S128x3129.size (cc3_transform_12 i) (hinb3_12 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x3129_S128x3129_1_0_0_1_n_n : DotDims S128x2048 S2048x3129 S128x3129 where
  lhsContracting := [1]
  rhsContracting := [0]
  lhsNonContracting := [0]
  rhsNonContracting := [1]
  lhsBatch := []
  rhsBatch := []
  wf := dot_S128x2048_S2048x3129_S128x3129_1_0_0_1_n_n_wf

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15_0) S1x128x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S1x128x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg3) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30_0) S1x128x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_1) S1x128x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v45) S128x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v14) S128x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S128x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S128x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1024x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S1024x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v48) S1024x2048.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg14) S2048.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v49) S2048x3129.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg16) S3129.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v50) S128x3129.size cc3_transform_12 reads3_12 true true 1 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S128x1024 : Shape := ⟨2, ![128, 1024]⟩
abbrev S131072x512 : Shape := ⟨2, ![131072, 512]⟩
abbrev S262144x512 : Shape := ⟨2, ![262144, 512]⟩
abbrev S131072 : Shape := ⟨1, ![131072]⟩
abbrev S262144 : Shape := ⟨1, ![262144]⟩
abbrev S1024x512 : Shape := ⟨2, ![1024, 512]⟩
abbrev S512 : Shape := ⟨1, ![512]⟩
abbrev S1024x2048 : Shape := ⟨2, ![1024, 2048]⟩
abbrev S2048 : Shape := ⟨1, ![2048]⟩
abbrev S2048x3129 : Shape := ⟨2, ![2048, 3129]⟩
abbrev S3129 : Shape := ⟨1, ![3129]⟩
abbrev S_ : Shape := ⟨0, ![]⟩
abbrev S128x512 : Shape := ⟨2, ![128, 512]⟩
abbrev S131072x1 : Shape := ⟨2, ![131072, 1]⟩
abbrev S128 : Shape := ⟨1, ![128]⟩
abbrev S128x1 : Shape := ⟨2, ![128, 1]⟩
abbrev S262144x1 : Shape := ⟨2, ![262144, 1]⟩
abbrev S1x512 : Shape := ⟨2, ![1, 512]⟩
abbrev S128x2048 : Shape := ⟨2, ![128, 2048]⟩
abbrev S1x2048 : Shape := ⟨2, ![1, 2048]⟩
abbrev S128x3129 : Shape := ⟨2, ![128, 3129]⟩
abbrev S1x3129 : Shape := ⟨2, ![1, 3129]⟩

abbrev nBuf : Space → Nat
  | .hbm => 119
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S131072x512, .f32⟩
  | .hbm, ⟨2, _⟩ => ⟨S131072x512, .f32⟩
  | .hbm, ⟨3, _⟩ => ⟨S262144x512, .f32⟩
  | .hbm, ⟨4, _⟩ => ⟨S262144x512, .f32⟩
  | .hbm, ⟨5, _⟩ => ⟨S131072, .i32⟩
  | .hbm, ⟨6, _⟩ => ⟨S131072, .i32⟩
  | .hbm, ⟨7, _⟩ => ⟨S262144, .i32⟩
  | .hbm, ⟨8, _⟩ => ⟨S262144, .i32⟩
  | .hbm, ⟨9, _⟩ => ⟨S1024x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S1024x2048, .f32⟩
  | .hbm, ⟨14, _⟩ => ⟨S2048, .f32⟩
  | .hbm, ⟨15, _⟩ => ⟨S2048x3129, .f32⟩
  | .hbm, ⟨16, _⟩ => ⟨S3129, .f32⟩
  | .hbm, ⟨17, _⟩ => ⟨S_, .f32⟩
  | .hbm, ⟨18, _⟩ => ⟨S128x512, .f32⟩
  | .hbm, ⟨19, _⟩ => ⟨S131072x1, .i32⟩
  | .hbm, ⟨20, _⟩ => ⟨S128x512, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S128, .f32⟩
  | .hbm, ⟨25, _⟩ => ⟨S131072x1, .i32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128x1, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S131072x1, .i32⟩
  | .hbm, ⟨36, _⟩ => ⟨S128x512, .f32⟩
  | .hbm, ⟨37, _⟩ => ⟨S_, .f32⟩
  | .hbm, ⟨38, _⟩ => ⟨S131072, .f32⟩
  | .hbm, ⟨39, _⟩ => ⟨S_, .f32⟩
  | .hbm, ⟨40, _⟩ => ⟨S128, .f32⟩
  | .hbm, ⟨41, _⟩ => ⟨S131072x1, .i32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x512, .f32⟩
  | .hbm, ⟨48, _⟩ => ⟨S128x512, .f32⟩
  | .hbm, ⟨49, _⟩ => ⟨S_, .f32⟩
  | .hbm, ⟨50, _⟩ => ⟨S128x512, .f32⟩
  | .hbm, ⟨51, _⟩ => ⟨S262144x1, .i32⟩
  | .hbm, ⟨52, _⟩ => ⟨S128x512, .f32⟩
  | .hbm, ⟨53, _⟩ => ⟨S_, .f32⟩
  | .hbm, ⟨54, _⟩ => ⟨S262144, .f32⟩
  | .hbm, ⟨55, _⟩ => ⟨S_, .f32⟩
  | .hbm, ⟨56, _⟩ => ⟨S128, .f32⟩
  | .hbm, ⟨57, _⟩ => ⟨S262144x1, .i32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128x1, .f32⟩
  | .hbm, ⟨63, _⟩ => ⟨S128x512, .f32⟩
  | .hbm, ⟨64, _⟩ => ⟨S128x512, .f32⟩
  | .hbm, ⟨65, _⟩ => ⟨S_, .f32⟩
  | .hbm, ⟨66, _⟩ => ⟨S128x512, .f32⟩
  | .hbm, ⟨67, _⟩ => ⟨S262144x1, .i32⟩
  | .hbm, ⟨68, _⟩ => ⟨S128x512, .f32⟩
  | .hbm, ⟨69, _⟩ => ⟨S_, .f32⟩
  | .hbm, ⟨70, _⟩ => ⟨S262144, .f32⟩
  | .hbm, ⟨71, _⟩ => ⟨S_, .f32⟩
  | .hbm, ⟨72, _⟩ => ⟨S128, .f32⟩
  | .hbm, ⟨73, _⟩ => ⟨S262144x1, .i32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128x1, .f32⟩
  | .hbm, ⟨79, _⟩ => ⟨S128x512, .f32⟩
  | .hbm, ⟨80, _⟩ => ⟨S128x512, .f32⟩
  | .hbm, ⟨81, _⟩ => ⟨S128x512, .f32⟩
  | .hbm, ⟨82, _⟩ => ⟨S1x512, .f32⟩
  | .hbm, ⟨83, _⟩ => ⟨S128x512, .f32⟩
  | .hbm, ⟨84, _⟩ => ⟨S128x512, .f32⟩
  | .hbm, ⟨85, _⟩ => ⟨S128x512, .f32⟩
  | .hbm, ⟨86, _⟩ => ⟨S1x512, .f32⟩
  | .hbm, ⟨87, _⟩ => ⟨S128x512, .f32⟩
  | .hbm, ⟨88, _⟩ => ⟨S128x512, .f32⟩
  | .hbm, ⟨89, _⟩ => ⟨S128x512, .f32⟩
  | .hbm, ⟨90, _⟩ => ⟨S128x512, .f32⟩
  | .hbm, ⟨91, _⟩ => ⟨S128x1024, .f32⟩
  | .hbm, ⟨92, _⟩ => ⟨S128x512, .f32⟩
  | .hbm, ⟨93, _⟩ => ⟨S128x512, .f32⟩
  | .hbm, ⟨94, _⟩ => ⟨S128x1024, .f32⟩
  | .hbm, ⟨95, _⟩ => ⟨S128x1024, .f32⟩
  | .hbm, ⟨96, _⟩ => ⟨S128x2048, .f32⟩
  | .hbm, ⟨97, _⟩ => ⟨S1x2048, .f32⟩
  | .hbm, ⟨98, _⟩ => ⟨S128x2048, .f32⟩
  | .hbm, ⟨99, _⟩ => ⟨S128x2048, .f32⟩
  | .hbm, ⟨100, _⟩ => ⟨S_, .f32⟩
  | .hbm, ⟨101, _⟩ => ⟨S128x2048, .f32⟩
  | .hbm, ⟨102, _⟩ => ⟨S128x2048, .i1⟩
  | .hbm, ⟨103, _⟩ => ⟨S_, .f32⟩
  | .hbm, ⟨104, _⟩ => ⟨S128x2048, .f32⟩
  | .hbm, ⟨105, _⟩ => ⟨S128x2048, .i1⟩
  | .hbm, ⟨106, _⟩ => ⟨S_, .f32⟩
  | .hbm, ⟨107, _⟩ => ⟨S_, .f32⟩
  | .hbm, ⟨108, _⟩ => ⟨S128x2048, .f32⟩
  | .hbm, ⟨109, _⟩ => ⟨S128x2048, .f32⟩
  | .hbm, ⟨110, _⟩ => ⟨S128x2048, .f32⟩
  | .hbm, ⟨111, _⟩ => ⟨S_, .f32⟩
  | .hbm, ⟨112, _⟩ => ⟨S128x2048, .f32⟩
  | .hbm, ⟨113, _⟩ => ⟨S128x2048, .f32⟩
  | .hbm, ⟨114, _⟩ => ⟨S128x2048, .f32⟩
  | .hbm, ⟨115, _⟩ => ⟨S128x3129, .f32⟩
  | .hbm, ⟨116, _⟩ => ⟨S1x3129, .f32⟩
  | .hbm, ⟨117, _⟩ => ⟨S128x3129, .f32⟩
  | .hbm, ⟨118, _⟩ => ⟨S128x3129, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_cst_5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_cst_9 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_cst_13 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_14 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call0_cst : Ref sig .tc := ⟨.hbm, 100, rfl⟩
abbrev main_call0_v0 : Ref sig .tc := ⟨.hbm, 101, rfl⟩
abbrev main_call0_v1 : Ref sig .tc := ⟨.hbm, 102, rfl⟩
abbrev main_call0_cst_0 : Ref sig .tc := ⟨.hbm, 103, rfl⟩
abbrev main_call0_v2 : Ref sig .tc := ⟨.hbm, 104, rfl⟩
abbrev main_call0_v3 : Ref sig .tc := ⟨.hbm, 105, rfl⟩
abbrev main_call0_cst_1 : Ref sig .tc := ⟨.hbm, 106, rfl⟩
abbrev main_call0_call0_v0 : Ref sig .tc := ⟨.hbm, 107, rfl⟩
abbrev main_call0_call0_v1 : Ref sig .tc := ⟨.hbm, 108, rfl⟩
abbrev main_call0_v4 : Ref sig .tc := ⟨.hbm, 109, rfl⟩
abbrev main_call0_v5 : Ref sig .tc := ⟨.hbm, 110, rfl⟩
abbrev main_call0_cst_2 : Ref sig .tc := ⟨.hbm, 111, rfl⟩
abbrev main_call0_v6 : Ref sig .tc := ⟨.hbm, 112, rfl⟩
abbrev main_call0_v7 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  bcast_S262144_S262144x1_0 : S262144.BroadcastsInDim S262144x1 (![0] : Fin 1 → Fin S262144x1.rank)
  bcast_S_S262144 : S_.BroadcastsInDim S262144 (![] : Fin 0 → Fin S262144.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  concatenates_S128x512_S128x512_S128x1024_d1 : Shape.Concatenates [S128x512, S128x512] S128x1024 1
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  bcast_S3129_S1x3129_1 : S3129.BroadcastsInDim S1x3129 (![1] : Fin 1 → Fin S1x3129.rank)
  bcast_S1x3129_S128x3129_0_1 : S1x3129.BroadcastsInDim S128x3129 (![0, 1] : Fin 2 → Fin S128x3129.rank)
  scatter_S128x512_S131072x1_S131072x512_1_0_0_1_wf : ScatterDims.WF S128x512 S131072x1 S131072x512 [1] [0] [0] 1
  scatter_S128_S131072x1_S131072_n_0_0_1_wf : ScatterDims.WF S128 S131072x1 S131072 [] [0] [0] 1
  scatter_S128x512_S262144x1_S262144x512_1_0_0_1_wf : ScatterDims.WF S128x512 S262144x1 S262144x512 [1] [0] [0] 1
  scatter_S128_S262144x1_S262144_n_0_0_1_wf : ScatterDims.WF S128 S262144x1 S262144 [] [0] [0] 1
  dot_S128x1024_S1024x512_S128x512_1_0_0_1_n_n_wf : DotDims.WF S128x1024 S1024x512 S128x512 [1] [0] [0] [1] [] []
  dot_S128x1024_S1024x2048_S128x2048_1_0_0_1_n_n_wf : DotDims.WF S128x1024 S1024x2048 S128x2048 [1] [0] [0] [1] [] []
  dot_S128x2048_S2048x3129_S128x3129_1_0_0_1_n_n_wf : DotDims.WF S128x2048 S2048x3129 S128x3129 [1] [0] [0] [1] [] []

variable [Facts₀]

def scatter_S128x512_S131072x1_S131072x512_1_0_0_1 : ScatterDims S128x512 S131072x1 S131072x512 where
  updateWindowDims := [1]
  insertedWindowDims := [0]
  scatterDimsToOperandDims := [0]
  indexVectorDim := 1
  wf := scatter_S128x512_S131072x1_S131072x512_1_0_0_1_wf
def scatter_S128_S131072x1_S131072_n_0_0_1 : ScatterDims S128 S131072x1 S131072 where
  updateWindowDims := []
  insertedWindowDims := [0]
  scatterDimsToOperandDims := [0]
  indexVectorDim := 1
  wf := scatter_S128_S131072x1_S131072_n_0_0_1_wf
def scatter_S128x512_S262144x1_S262144x512_1_0_0_1 : ScatterDims S128x512 S262144x1 S262144x512 where
  updateWindowDims := [1]
  insertedWindowDims := [0]
  scatterDimsToOperandDims := [0]
  indexVectorDim := 1
  wf := scatter_S128x512_S262144x1_S262144x512_1_0_0_1_wf
def scatter_S128_S262144x1_S262144_n_0_0_1 : ScatterDims S128 S262144x1 S262144 where
  updateWindowDims := []
  insertedWindowDims := [0]
  scatterDimsToOperandDims := [0]
  indexVectorDim := 1
  wf := scatter_S128_S262144x1_S262144_n_0_0_1_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x3129_S128x3129_1_0_0_1_n_n : DotDims S128x2048 S2048x3129 S128x3129 where
  lhsContracting := [1]
  rhsContracting := [0]
  lhsNonContracting := [0]
  rhsNonContracting := [1]
  lhsBatch := []
  rhsBatch := []
  wf := dot_S128x2048_S2048x3129_S128x3129_1_0_0_1_n_n_wf

class Facts : Prop extends Facts₀ where

variable [Facts]
-- ==== Proof.Kernel.Pool0Defs.lean ====
import proofs.«419520_j38482906972438_2_alg».proof.Proof.Gen.Kernel.Launch
import proofs.«419520_j38482906972438_2_alg».proof.Proof.Gen.Kernel.Skeleton
import proofs.«419520_j38482906972438_2_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Pool0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scSum : Memref sig .tc .vmem S128x512 .f32 := Memref.whole cc0_scratch0
abbrev scCnt : Memref sig .tc .vmem S128x1 .f32 := Memref.whole cc0_scratch1

abbrev featBlk (c : Dev nD) (t : Fin cfg0.N) : Vec F S4096x512 .f32 := iblk V c 0 t
abbrev segBlk (c : Dev nD) (t : Fin cfg0.N) : Vec F S4096 .i32 := iblk V c 1 t

/-- The sum and count accumulators after point `n`: restarted from the zero fills where n % 16 = 0, else stepped from point n − 1. -/
def accAt (c : Dev nD) : (n : ℕ) → n < cfg0.N → Vec F S128x512 .f32 × Vec F S128x1 .f32
  | 0, hn => (k0_pay4 (featBlk V c ⟨0, hn⟩) (segBlk V c ⟨0, hn⟩) k0_pay1, k0_pay5 (segBlk V c ⟨0, hn⟩) k0_pay2)
  | n + 1, hn =>
    if (n + 1) % 16 = 0 then
      (k0_pay4 (featBlk V c ⟨n + 1, hn⟩) (segBlk V c ⟨n + 1, hn⟩) k0_pay1, k0_pay5 (segBlk V c ⟨n + 1, hn⟩) k0_pay2)
    else
      (k0_pay4 (featBlk V c ⟨n + 1, hn⟩) (segBlk V c ⟨n + 1, hn⟩) (accAt c n (Nat.lt_of_succ_lt hn)).1,
        k0_pay5 (segBlk V c ⟨n + 1, hn⟩) (accAt c n (Nat.lt_of_succ_lt hn)).2)

theorem accAt_reset (c : Dev nD) (t : Fin cfg0.N) (h : t.val % 16 = 0) :
    accAt V c t.val t.isLt = (k0_pay4 (featBlk V c t) (segBlk V c t) k0_pay1, k0_pay5 (segBlk V c t) k0_pay2) := by
  obtain ⟨n, hn⟩ := t
  cases n with
  | zero => rfl
  | succ n => exact if_pos h

theorem accAt_step (c : Dev nD) (t : Fin cfg0.N) (h : ¬ t.val % 16 = 0) :
    accAt V c t.val t.isLt
      = (k0_pay4 (featBlk V c t) (segBlk V c t) (accAt V c (t.val - 1) (Nat.lt_of_le_of_lt (Nat.sub_le _ _) t.isLt)).1,
         k0_pay5 (segBlk V c t) (accAt V c (t.val - 1) (Nat.lt_of_le_of_lt (Nat.sub_le _ _) t.isLt)).2) := by
  obtain ⟨n, hn⟩ := t
  cases n with
  | zero => exact absurd (Nat.zero_mod _) h
  | succ n => exact if_neg h

/-- The invariant once the accumulators hold `a`. -/
def PhiAcc (c : Dev nD) (a : Vec F S128x512 .f32 × Vec F S128x1 .f32) : sProp 𝕄 :=
  iprop(iprop(owns (c : Thread nD τ) scSum fullShare a.1 ∗ owns (c : Thread nD τ) scCnt fullShare a.2)
      ∗ Pipeline.scopedRestBut (Ix := Unit) (Name := ℕ) (U := UR sig nD τ) (Lvl := ℕ) (Val := Elt F) spec0 c [cc0_scratch0, cc0_scratch1]
      ∗ (∃ r, prngReg c r))

/-- The invariant before position `n`: the launch's before the first point, then the accumulators at what the point before left. -/
def PhiS (c : Dev nD) : (n : ℕ) → n ≤ cfg0.N → sProp 𝕄
  | 0, _ => Pipeline.ΦA spec0 c
  | n + 1, hn => PhiAcc c (accAt V c n hn)

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = PhiAcc c (accAt V c (n - 1) (by omega)) := by
  cases n with
  | zero => exact absurd rfl hz
  | succ n => rfl

/-- The region's proof data: inputs keep their blocks, each output receives its accumulator re-laid at the last inner coordinate. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay6 (accAt V c t.val t.isLt).1 := by dsimp only [dat]
theorem after_3 (c : Dev nD) (t : Fin cfg0.N) : (dat V c).after 3 t = k0_pay7 (accAt V c t.val t.isLt).2 := by dsimp only [dat]

end Cert.Kernel.Pool0

end
-- ==== Proof.Whole.lean ====
import Idealize.ShloMosaic.Lib.Pipeline.Value
import Idealize.ShloMosaic.Lib.WholeRead

namespace Cert.Whole

open Idealize.ShloMosaic

variable {sig : RefSig} {Val : EltTy → Type} {κ : Kind} {sp : Space} {S : Shape} {e : EltTy}
  [∀ e, Nonempty (Val e)]

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

/-- A load of a whole buffer held at the contents that read `X` reads `X`. -/
theorem load_whole_unread (m : Memref sig κ sp S e) (h : m.IsWhole) {off : Fin S.rank → ℕ} (ho : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero ho inb]

/-- A load of a whole buffer after a store of the whole buffer reads what was stored. -/
theorem load_whole_stored (v : View sig κ sp S e) {off : Fin S.rank → ℕ} (ho : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero ho inb y⟩),
    View.canon_cons_unit_zero ho inb, View.ld_unit_zero ho inb]

/-- A buffer whose last store covered it whole reads what that store wrote. -/
theorem read_whole_stored (v : View sig κ sp S e) (f : v.ty.Contents Val) {off : Fin S.rank → ℕ} (ho : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero ho inb y⟩),
    View.canon_cons_unit_zero ho inb]

end Cert.Whole
-- ==== Proof.Kernel.Pool0Runs.lean ====
import proofs.«419520_j38482906972438_2_alg».proof.Proof.Kernel.Pool0Defs
import proofs.«419520_j38482906972438_2_alg».proof.Proof.Whole
import Idealize.ShloMosaic.Lib.Tactic
import Idealize.ShloMosaic.Lib.Pipeline.Value
import Idealize.ShloMosaic.Lib.WholeRead

set_option maxRecDepth 16384

noncomputable section

namespace Cert.Kernel.Pool0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole

variable {F : FTy → Type} [FloatOps F]

local notation "𝕄" => MT nD τ sig Unit (Elt F) ℕ (UR sig nD τ) ℕ

/-- The body's first test: the inner grid coordinate is 0. -/
abbrev condReset (i : grid0.Coords) : Prop :=
  (Scalar.cmpi .ne (Scalar.extui (Scalar.cmpi .eq (BitVec.ofNat 32 (i 1).val) 0#32)) 0#32) = 1#1

/-- The body's second test: the inner grid coordinate is the last. -/
abbrev condStore (i : grid0.Coords) : Prop := k0_cond2 i = 1#1

set_option maxHeartbeats 8000000 in

/-- The body on six whole buffers: each accumulator restarts from its zero fill where the inner coordinate is 0, takes the block's contribution, and is copied over its output where the inner coordinate is the last. -/
theorem run_body (c : Dev nD) (i : grid0.Coords)
    (arg2 : Memref sig .tc .vmem S4096x512 .f32) (harg2 : arg2.IsWhole) (arg3 : Memref sig .tc .vmem S4096 .i32) (harg3 : arg3.IsWhole)
    (arg4 : Memref sig .tc .vmem S1x128x512 .f32) (harg4 : arg4.IsWhole) (arg5 : Memref sig .tc .vmem S1x128x1 .f32) (harg5 : arg5.IsWhole)
    (arg6 : Memref sig .tc .vmem S128x512 .f32) (harg6 : arg6.IsWhole) (arg7 : Memref sig .tc .vmem S128x1 .f32) (harg7 : arg7.IsWhole)
    (x0 : Vec F S4096x512 .f32) (x1 : Vec F S4096 .i32) (y0 : Vec F S1x128x512 .f32) (y1 : Vec F S1x128x1 .f32)
    (xs0 : Vec F S128x512 .f32) (xs1 : Vec F S128x1 .f32) (E : Set ℕ) (K : PUnit → sProp 𝕄) :
    iprop(owns (c : Thread nD τ) arg2 fullShare x0 ∗ owns (c : Thread nD τ) arg3 fullShare x1
        ∗ owns (c : Thread nD τ) arg4 fullShare y0 ∗ owns (c : Thread nD τ) arg5 fullShare y1
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare (if condStore i then k0_pay6 (k0_pay4 x0 x1 (if condReset i then k0_pay1 else xs0)) else y0)
            ∗ owns (c : Thread nD τ) arg5 fullShare (if condStore i then k0_pay7 (k0_pay5 x1 (if condReset i then k0_pay2 else xs1)) else y1)
            ∗ owns (c : Thread nD τ) arg6 fullShare (k0_pay4 x0 x1 (if condReset i then k0_pay1 else xs0)) ∗ owns (c : Thread nD τ) arg7 fullShare (k0_pay5 x1 (if condReset i then k0_pay2 else xs1))) -∗ K ⟨⟩))
      ⊢ wp frame (wpE (defs₀ (F := F)) Variants.none c none) E (cc0__lambda_ i arg2 harg2 arg3 harg3 arg4 harg4 arg5 harg5 arg6 harg6 arg7 harg7) K := by
  simp only [cc0__lambda__eq_skeleton]; unfold cc0__lambda__skel
  unfold owns
  iintro ⟨⟨%f0, %hf0, H0⟩, ⟨%f1, %hf1, H1⟩, ⟨%g0, %hg0, HO0⟩, ⟨%g1, %hg1, HO1⟩, ⟨%fs0, %hfs0, HS0⟩, ⟨%fs1, %hfs1, HS1⟩, Hk⟩
  obtain rfl := harg2.eq_unread hf0; obtain rfl := harg3.eq_unread hf1
  obtain rfl := harg4.eq_unread hg0; obtain rfl := harg5.eq_unread hg1
  obtain rfl := harg6.eq_unread hfs0; obtain rfl := harg7.eq_unread hfs1
  by_cases hc0 : condReset i <;> by_cases hc1 : condStore i <;>
  · (first | simp only [if_neg hc0] | simp only [if_pos hc0])
    (first | simp only [if_neg hc1] | simp only [if_pos hc1])
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [HO0]
    · iexists _; iframe HO0; ipureintro; (try sl_unfold_run_names)
      first
      | exact harg4.read_unread _
      | (rw [read_whole_stored _ _ zeros3, load_whole_stored _ zeros2, load_whole_unread _ _ zeros2, load_whole_unread _ _ zeros1]; first | rw [load_whole_stored _ zeros2] | rw [load_whole_unread _ _ zeros2])
      try rfl
    isplitl [HO1]
    · iexists _; iframe HO1; ipureintro; (try sl_unfold_run_names)
      first
      | exact harg5.read_unread _
      | (rw [read_whole_stored _ _ zeros3, load_whole_stored _ zeros2, load_whole_unread _ _ zeros1]; first | rw [load_whole_stored _ zeros2] | rw [load_whole_unread _ _ zeros2])
      try rfl
    isplitl [HS0]
    · iexists _; iframe HS0; ipureintro; (try sl_unfold_run_names)
      rw [read_whole_stored _ _ zeros2, load_whole_unread _ _ zeros2, load_whole_unread _ _ zeros1]; first | rw [load_whole_stored _ zeros2] | rw [load_whole_unread _ _ zeros2]
      try rfl
    · iexists _; iframe HS1; ipureintro; (try sl_unfold_run_names)
      rw [read_whole_stored _ _ zeros2, load_whole_unread _ _ zeros1]; first | rw [load_whole_stored _ zeros2] | rw [load_whole_unread _ _ zeros2]
      try rfl

end Cert.Kernel.Pool0

end
-- ==== Proof.Kernel.Pool0Frame.lean ====
import proofs.«419520_j38482906972438_2_alg».proof.Proof.Kernel.Pool0Defs
import proofs.«419520_j38482906972438_2_alg».proof.Proof.Kernel.Pool0Runs

set_option maxRecDepth 16384

noncomputable section

namespace Cert.Kernel.Pool0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Pool0 (condReset condStore run_body)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondReset : ∀ t : Fin cfg0.N, condReset (grid0.coords t) ↔ t.val % 16 = 0 :=
  (by decide +kernel : ∀ t : Fin grid0.N, condReset (grid0.coords t) ↔ t.val % 16 = 0)

theorem hcondStore : ∀ t : Fin cfg0.N, condStore (grid0.coords t) ↔ t.val % 16 = 15 :=
  (by decide +kernel : ∀ t : Fin grid0.N, condStore (grid0.coords t) ↔ t.val % 16 = 15)

theorem live_a : ∀ t : Fin cfg0.N, cfg0.idle 0 (grid0.coords t) = false := by decide +kernel
theorem live_b : ∀ t : Fin cfg0.N, cfg0.idle 1 (grid0.coords t) = false := by decide +kernel
theorem idle_c : ∀ t : Fin cfg0.N, ¬t.val % 16 = 15 → cfg0.idle 2 (grid0.coords t) = true := by decide +kernel
theorem idle_d : ∀ t : Fin cfg0.N, ¬t.val % 16 = 15 → cfg0.idle 3 (grid0.coords t) = true := by decide +kernel
theorem live_c : ∀ t : Fin cfg0.N, t.val % 16 = 15 → cfg0.idle 2 (grid0.coords t) = false := by decide +kernel
theorem live_d : ∀ t : Fin cfg0.N, t.val % 16 = 15 → cfg0.idle 3 (grid0.coords t) = false := by decide +kernel
theorem noFlush_c : ∀ t : Fin cfg0.N, ¬t.val % 16 = 15 → (cfg0.win 2).flush t = false :=
  (by decide +kernel : ∀ t : Fin grid0.N, ¬t.val % 16 = 15 → win0_2.flush t = false)
theorem noFlush_d : ∀ t : Fin cfg0.N, ¬t.val % 16 = 15 → (cfg0.win 3).flush t = false :=
  (by decide +kernel : ∀ t : Fin grid0.N, ¬t.val % 16 = 15 → win0_3.flush t = false)

abbrev stA (t : Fin cfg0.N) : Memref sig .tc .vmem S4096x512 .f32 := win0_0.stage (cfg0.slots t 0)
abbrev hstA (t : Fin cfg0.N) : (stA t).IsWhole := hstage0_0 ((cfg0.slots t 0).cast nbuf0_0)
abbrev stB (t : Fin cfg0.N) : Memref sig .tc .vmem S4096 .i32 := win0_1.stage (cfg0.slots t 1)
abbrev hstB (t : Fin cfg0.N) : (stB t).IsWhole := hstage0_1 ((cfg0.slots t 1).cast nbuf0_1)
abbrev stC (t : Fin cfg0.N) : Memref sig .tc .vmem S1x128x512 .f32 := win0_2.stage (cfg0.slots t 2)
abbrev hstC (t : Fin cfg0.N) : (stC t).IsWhole := hstage0_2 ((cfg0.slots t 2).cast nbuf0_2)
abbrev stD (t : Fin cfg0.N) : Memref sig .tc .vmem S1x128x1 .f32 := win0_3.stage (cfg0.slots t 3)
abbrev hstD (t : Fin cfg0.N) : (stD t).IsWhole := hstage0_3 ((cfg0.slots t 3).cast nbuf0_3)

abbrev bodyPt (t : Fin cfg0.N) : Prog (TpuEff nD τ sig (Elt F) Λ₀ .tc) PUnit :=
  cc0__lambda_ (grid0.coords t) (stA t) (hstA t) (stB t) (hstB t) (stC t) (hstC t) (stD t) (hstD t)
    scSum (Memref.isWhole_whole _) scCnt (Memref.isWhole_whole _)

theorem PhiA_eq (c : Dev nD) :
    (Pipeline.ΦA spec0 c : sProp 𝕄)
      = iprop(iprop(iprop((∃ d, owns (c : Thread nD τ) scSum fullShare d) ∗ (∃ d, owns (c : Thread nD τ) scCnt fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scSum, scCnt, owns_whole]; try rfl

theorem before_a (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_b (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The invariant before any position yields what the launch handed over: named contents are forgotten. -/
theorem Phi_any (c : Dev nD) (t : Fin (cfg0.N + 1)) : (dat V c).Φ t ⊢ Pipeline.ΦA spec0 c := by
  rw [show (dat V c).Φ t = PhiS V c t.val (Nat.le_of_lt_succ t.isLt) from rfl]
  by_cases ht : t.val = 0
  · rw [PhiS_zero V c _ _ ht]
  rw [PhiS_pos V c _ _ ht, PhiA_eq]; unfold PhiAcc
  iintro ⟨⟨HS0, HS1⟩, HR, Hg⟩
  iframe HR Hg
  isplitl [HS0] <;> iexists _ <;> iassumption

def bodyPre (c : Dev nD) (t : Fin cfg0.N) : sProp 𝕄 :=
  iprop((dat V c).Φ t.castSucc ∗ (dat V c).owesAt () t.castSucc
    ∗ (∃ d, owns (c : Thread nD τ) (stA t) fullShare ((dat V c).before 0 t d))
    ∗ (∃ d, owns (c : Thread nD τ) (stB t) fullShare ((dat V c).before 1 t d))
    ∗ (∃ d, owns (c : Thread nD τ) (stC t) fullShare ((dat V c).before 2 t d))
    ∗ (∃ d, owns (c : Thread nD τ) (stD t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in

/-- The body at any point: the inner coordinate picks the run; the invariant lends the accumulators and takes them back at this point's accumulation. -/
theorem sound_body (c : Dev nD) (t : Fin cfg0.N) :
    bodyPre V c t ⊢ wp frame (wpE (defs₀ (F := F)) Variants.none c none) Set.univ (bodyPt t) (fun _ => bodyPost V c t) := by
  unfold bodyPre bodyPost bodyPt
  simp only [before_a, before_b]
  rw [show (dat V c).owesAt () t.succ = (dat V c).owesAt () t.castSucc from rfl]
  rw [show (dat V c).Φ t.succ = PhiAcc c (accAt V c t.val t.isLt) from rfl]
  rw [show (dat V c).leavesExact 0 t = owns (c : Thread nD τ) (stA t) fullShare ((dat V c).after 0 t) from by
    unfold Dat.leavesExact; rw [live_a t], after_0]
  rw [show (dat V c).leavesExact 1 t = owns (c : Thread nD τ) (stB t) fullShare ((dat V c).after 1 t) from by
    unfold Dat.leavesExact; rw [live_b t], after_1]
  by_cases h0 : t.val % 16 = 0
  · have h1 : ¬t.val % 16 = 15 := by omega
    rw [Dat.leavesExact_idle (dat V c) 2 t (idle_c t h1) (noFlush_c t h1),
      Dat.leavesExact_idle (dat V c) 3 t (idle_d t h1) (noFlush_d t h1)]
    rw [accAt_reset V c t h0]; unfold PhiAcc; dsimp only
    refine BIBase.Entails.trans (sep_mono_left (Phi_any V c t.castSucc)) ?_
    rw [PhiA_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run_body c (grid0.coords t) (stA t) (hstA t) (stB t) (hstB t) (stC t) (hstC t) (stD t) (hstD t) scSum (Memref.isWhole_whole _)
      scCnt (Memref.isWhole_whole _)
      (iblk V c 0 t) (iblk V c 1 t) _ _ s0 s1 Set.univ _)
    simp only [if_pos ((hcondReset t).mpr h0), if_neg (fun h => h1 ((hcondStore t).mp h))]
    iframe H0 H1 H2 H3 HS0 HS1
    iintro ⟨H0, H1, H2, H3, HS0, HS1⟩
    iframe HS0 HS1 HR Hg Ho H0 H1
    isplitl [H2] <;> iexists _ <;> iassumption
  · have hz : t.val ≠ 0 := by omega
    rw [PhiS_castSucc V c t, PhiS_pos V c _ _ hz, accAt_step V c t h0]; unfold PhiAcc; dsimp only
    by_cases h1 : t.val % 16 = 15
    · rw [show (dat V c).leavesExact 2 t = owns (c : Thread nD τ) (stC t) fullShare ((dat V c).after 2 t) from by
        unfold Dat.leavesExact; rw [live_c t h1], after_2]
      rw [show (dat V c).leavesExact 3 t = owns (c : Thread nD τ) (stD t) fullShare ((dat V c).after 3 t) from by
        unfold Dat.leavesExact; rw [live_d t h1], after_3]
      rw [accAt_step V c t h0]; dsimp only
      iintro ⟨⟨⟨HS0, HS1⟩, HR, Hg⟩, Ho, ⟨%d0, H0⟩, ⟨%d1, H1⟩, ⟨%d2, H2⟩, ⟨%d3, H3⟩⟩
      iapply (run_body c (grid0.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_pos ((hcondStore t).mpr h1)]
      iframe H0 H1 H2 H3 HS0 HS1
      iintro ⟨H0, H1, H2, H3, HS0, HS1⟩
      iframe
    · rw [Dat.leavesExact_idle (dat V c) 2 t (idle_c t h1) (noFlush_c t h1),
        Dat.leavesExact_idle (dat V c) 3 t (idle_d t h1) (noFlush_d t h1)]
      iintro ⟨⟨⟨HS0, HS1⟩, HR, Hg⟩, Ho, ⟨%d0, H0⟩, ⟨%d1, H1⟩, ⟨%d2, H2⟩, ⟨%d3, H3⟩⟩
      iapply (run_body c (grid0.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_neg (fun h => h1 ((hcondStore t).mp h))]
      iframe H0 H1 H2 H3 HS0 HS1
      iintro ⟨H0, H1, H2, H3, HS0, HS1⟩
      iframe HS0 HS1 HR Hg Ho H0 H1
      isplitl [H2] <;> iexists _ <;> iassumption

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]

theorem hout (c : Dev nD) : (dat V c).Φ (Fin.last cfg0.N) ⊢ Pipeline.ΦA spec0 c := Phi_any V c _

end Cert.Kernel.Pool0

end
-- ==== Proof.Kernel.Pool1Defs.lean ====
import proofs.«419520_j38482906972438_2_alg».proof.Proof.Gen.Kernel.Launch
import proofs.«419520_j38482906972438_2_alg».proof.Proof.Gen.Kernel.Skeleton
import proofs.«419520_j38482906972438_2_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Pool1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scSum : Memref sig .tc .vmem S128x512 .f32 := Memref.whole cc1_scratch0
abbrev scCnt : Memref sig .tc .vmem S128x1 .f32 := Memref.whole cc1_scratch1

abbrev featBlk (c : Dev nD) (t : Fin cfg1.N) : Vec F S4096x512 .f32 := iblk V c 0 t
abbrev segBlk (c : Dev nD) (t : Fin cfg1.N) : Vec F S4096 .i32 := iblk V c 1 t

/-- The sum and count accumulators after point `n`: restarted from the zero fills where n % 16 = 0, else stepped from point n − 1. -/
def accAt (c : Dev nD) : (n : ℕ) → n < cfg1.N → Vec F S128x512 .f32 × Vec F S128x1 .f32
  | 0, hn => (k0_pay4 (featBlk V c ⟨0, hn⟩) (segBlk V c ⟨0, hn⟩) k0_pay1, k0_pay5 (segBlk V c ⟨0, hn⟩) k0_pay2)
  | n + 1, hn =>
    if (n + 1) % 16 = 0 then
      (k0_pay4 (featBlk V c ⟨n + 1, hn⟩) (segBlk V c ⟨n + 1, hn⟩) k0_pay1, k0_pay5 (segBlk V c ⟨n + 1, hn⟩) k0_pay2)
    else
      (k0_pay4 (featBlk V c ⟨n + 1, hn⟩) (segBlk V c ⟨n + 1, hn⟩) (accAt c n (Nat.lt_of_succ_lt hn)).1,
        k0_pay5 (segBlk V c ⟨n + 1, hn⟩) (accAt c n (Nat.lt_of_succ_lt hn)).2)

theorem accAt_reset (c : Dev nD) (t : Fin cfg1.N) (h : t.val % 16 = 0) :
    accAt V c t.val t.isLt = (k0_pay4 (featBlk V c t) (segBlk V c t) k0_pay1, k0_pay5 (segBlk V c t) k0_pay2) := by
  obtain ⟨n, hn⟩ := t
  cases n with
  | zero => rfl
  | succ n => exact if_pos h

theorem accAt_step (c : Dev nD) (t : Fin cfg1.N) (h : ¬ t.val % 16 = 0) :
    accAt V c t.val t.isLt
      = (k0_pay4 (featBlk V c t) (segBlk V c t) (accAt V c (t.val - 1) (Nat.lt_of_le_of_lt (Nat.sub_le _ _) t.isLt)).1,
         k0_pay5 (segBlk V c t) (accAt V c (t.val - 1) (Nat.lt_of_le_of_lt (Nat.sub_le _ _) t.isLt)).2) := by
  obtain ⟨n, hn⟩ := t
  cases n with
  | zero => exact absurd (Nat.zero_mod _) h
  | succ n => exact if_neg h

/-- The invariant once the accumulators hold `a`. -/
def PhiAcc (c : Dev nD) (a : Vec F S128x512 .f32 × Vec F S128x1 .f32) : sProp 𝕄 :=
  iprop(iprop(owns (c : Thread nD τ) scSum fullShare a.1 ∗ owns (c : Thread nD τ) scCnt fullShare a.2)
      ∗ Pipeline.scopedRestBut (Ix := Unit) (Name := ℕ) (U := UR sig nD τ) (Lvl := ℕ) (Val := Elt F) spec1 c [cc1_scratch0, cc1_scratch1]
      ∗ (∃ r, prngReg c r))

/-- The invariant before position `n`: the launch's before the first point, then the accumulators at what the point before left. -/
def PhiS (c : Dev nD) : (n : ℕ) → n ≤ cfg1.N → sProp 𝕄
  | 0, _ => Pipeline.ΦA spec1 c
  | n + 1, hn => PhiAcc c (accAt V c n hn)

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = PhiAcc c (accAt V c (n - 1) (by omega)) := by
  cases n with
  | zero => exact absurd rfl hz
  | succ n => rfl

/-- The region's proof data: inputs keep their blocks, each output receives its accumulator re-laid at the last inner coordinate. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k0_pay6 (accAt V c t.val t.isLt).1 := by dsimp only [dat]
theorem after_3 (c : Dev nD) (t : Fin cfg1.N) : (dat V c).after 3 t = k0_pay7 (accAt V c t.val t.isLt).2 := by dsimp only [dat]

end Cert.Kernel.Pool1

end
-- ==== Proof.Kernel.Pool1Frame.lean ====
import proofs.«419520_j38482906972438_2_alg».proof.Proof.Kernel.Pool1Defs
import proofs.«419520_j38482906972438_2_alg».proof.Proof.Kernel.Pool0Runs

set_option maxRecDepth 16384

noncomputable section

namespace Cert.Kernel.Pool1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Pool0 (condReset condStore run_body)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondReset : ∀ t : Fin cfg1.N, condReset (grid1.coords t) ↔ t.val % 16 = 0 :=
  (by decide +kernel : ∀ t : Fin grid1.N, condReset (grid1.coords t) ↔ t.val % 16 = 0)

theorem hcondStore : ∀ t : Fin cfg1.N, condStore (grid1.coords t) ↔ t.val % 16 = 15 :=
  (by decide +kernel : ∀ t : Fin grid1.N, condStore (grid1.coords t) ↔ t.val % 16 = 15)

theorem live_a : ∀ t : Fin cfg1.N, cfg1.idle 0 (grid1.coords t) = false := by decide +kernel
theorem live_b : ∀ t : Fin cfg1.N, cfg1.idle 1 (grid1.coords t) = false := by decide +kernel
theorem idle_c : ∀ t : Fin cfg1.N, ¬t.val % 16 = 15 → cfg1.idle 2 (grid1.coords t) = true := by decide +kernel
theorem idle_d : ∀ t : Fin cfg1.N, ¬t.val % 16 = 15 → cfg1.idle 3 (grid1.coords t) = true := by decide +kernel
theorem live_c : ∀ t : Fin cfg1.N, t.val % 16 = 15 → cfg1.idle 2 (grid1.coords t) = false := by decide +kernel
theorem live_d : ∀ t : Fin cfg1.N, t.val % 16 = 15 → cfg1.idle 3 (grid1.coords t) = false := by decide +kernel
theorem noFlush_c : ∀ t : Fin cfg1.N, ¬t.val % 16 = 15 → (cfg1.win 2).flush t = false :=
  (by decide +kernel : ∀ t : Fin grid1.N, ¬t.val % 16 = 15 → win1_2.flush t = false)
theorem noFlush_d : ∀ t : Fin cfg1.N, ¬t.val % 16 = 15 → (cfg1.win 3).flush t = false :=
  (by decide +kernel : ∀ t : Fin grid1.N, ¬t.val % 16 = 15 → win1_3.flush t = false)

abbrev stA (t : Fin cfg1.N) : Memref sig .tc .vmem S4096x512 .f32 := win1_0.stage (cfg1.slots t 0)
abbrev hstA (t : Fin cfg1.N) : (stA t).IsWhole := hstage1_0 ((cfg1.slots t 0).cast nbuf1_0)
abbrev stB (t : Fin cfg1.N) : Memref sig .tc .vmem S4096 .i32 := win1_1.stage (cfg1.slots t 1)
abbrev hstB (t : Fin cfg1.N) : (stB t).IsWhole := hstage1_1 ((cfg1.slots t 1).cast nbuf1_1)
abbrev stC (t : Fin cfg1.N) : Memref sig .tc .vmem S1x128x512 .f32 := win1_2.stage (cfg1.slots t 2)
abbrev hstC (t : Fin cfg1.N) : (stC t).IsWhole := hstage1_2 ((cfg1.slots t 2).cast nbuf1_2)
abbrev stD (t : Fin cfg1.N) : Memref sig .tc .vmem S1x128x1 .f32 := win1_3.stage (cfg1.slots t 3)
abbrev hstD (t : Fin cfg1.N) : (stD t).IsWhole := hstage1_3 ((cfg1.slots t 3).cast nbuf1_3)

abbrev bodyPt (t : Fin cfg1.N) : Prog (TpuEff nD τ sig (Elt F) Λ₀ .tc) PUnit :=
  cc1__lambda_ (grid1.coords t) (stA t) (hstA t) (stB t) (hstB t) (stC t) (hstC t) (stD t) (hstD t)
    scSum (Memref.isWhole_whole _) scCnt (Memref.isWhole_whole _)

theorem PhiA_eq (c : Dev nD) :
    (Pipeline.ΦA spec1 c : sProp 𝕄)
      = iprop(iprop(iprop((∃ d, owns (c : Thread nD τ) scSum fullShare d) ∗ (∃ d, owns (c : Thread nD τ) scCnt fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scSum, scCnt, owns_whole]; try rfl

theorem before_a (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_b (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The invariant before any position yields what the launch handed over: named contents are forgotten. -/
theorem Phi_any (c : Dev nD) (t : Fin (cfg1.N + 1)) : (dat V c).Φ t ⊢ Pipeline.ΦA spec1 c := by
  rw [show (dat V c).Φ t = PhiS V c t.val (Nat.le_of_lt_succ t.isLt) from rfl]
  by_cases ht : t.val = 0
  · rw [PhiS_zero V c _ _ ht]
  rw [PhiS_pos V c _ _ ht, PhiA_eq]; unfold PhiAcc
  iintro ⟨⟨HS0, HS1⟩, HR, Hg⟩
  iframe HR Hg
  isplitl [HS0] <;> iexists _ <;> iassumption

def bodyPre (c : Dev nD) (t : Fin cfg1.N) : sProp 𝕄 :=
  iprop((dat V c).Φ t.castSucc ∗ (dat V c).owesAt () t.castSucc
    ∗ (∃ d, owns (c : Thread nD τ) (stA t) fullShare ((dat V c).before 0 t d))
    ∗ (∃ d, owns (c : Thread nD τ) (stB t) fullShare ((dat V c).before 1 t d))
    ∗ (∃ d, owns (c : Thread nD τ) (stC t) fullShare ((dat V c).before 2 t d))
    ∗ (∃ d, owns (c : Thread nD τ) (stD t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in

/-- The body at any point: the inner coordinate picks the run; the invariant lends the accumulators and takes them back at this point's accumulation. -/
theorem sound_body (c : Dev nD) (t : Fin cfg1.N) :
    bodyPre V c t ⊢ wp frame (wpE (defs₀ (F := F)) Variants.none c none) Set.univ (bodyPt t) (fun _ => bodyPost V c t) := by
  unfold bodyPre bodyPost bodyPt
  simp only [before_a, before_b]
  rw [show (dat V c).owesAt () t.succ = (dat V c).owesAt () t.castSucc from rfl]
  rw [show (dat V c).Φ t.succ = PhiAcc c (accAt V c t.val t.isLt) from rfl]
  rw [show (dat V c).leavesExact 0 t = owns (c : Thread nD τ) (stA t) fullShare ((dat V c).after 0 t) from by
    unfold Dat.leavesExact; rw [live_a t], after_0]
  rw [show (dat V c).leavesExact 1 t = owns (c : Thread nD τ) (stB t) fullShare ((dat V c).after 1 t) from by
    unfold Dat.leavesExact; rw [live_b t], after_1]
  by_cases h0 : t.val % 16 = 0
  · have h1 : ¬t.val % 16 = 15 := by omega
    rw [Dat.leavesExact_idle (dat V c) 2 t (idle_c t h1) (noFlush_c t h1),
      Dat.leavesExact_idle (dat V c) 3 t (idle_d t h1) (noFlush_d t h1)]
    rw [accAt_reset V c t h0]; unfold PhiAcc; dsimp only
    refine BIBase.Entails.trans (sep_mono_left (Phi_any V c t.castSucc)) ?_
    rw [PhiA_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run_body c (grid1.coords t) (stA t) (hstA t) (stB t) (hstB t) (stC t) (hstC t) (stD t) (hstD t) scSum (Memref.isWhole_whole _)
      scCnt (Memref.isWhole_whole _)
      (iblk V c 0 t) (iblk V c 1 t) _ _ s0 s1 Set.univ _)
    simp only [if_pos ((hcondReset t).mpr h0), if_neg (fun h => h1 ((hcondStore t).mp h))]
    iframe H0 H1 H2 H3 HS0 HS1
    iintro ⟨H0, H1, H2, H3, HS0, HS1⟩
    iframe HS0 HS1 HR Hg Ho H0 H1
    isplitl [H2] <;> iexists _ <;> iassumption
  · have hz : t.val ≠ 0 := by omega
    rw [PhiS_castSucc V c t, PhiS_pos V c _ _ hz, accAt_step V c t h0]; unfold PhiAcc; dsimp only
    by_cases h1 : t.val % 16 = 15
    · rw [show (dat V c).leavesExact 2 t = owns (c : Thread nD τ) (stC t) fullShare ((dat V c).after 2 t) from by
        unfold Dat.leavesExact; rw [live_c t h1], after_2]
      rw [show (dat V c).leavesExact 3 t = owns (c : Thread nD τ) (stD t) fullShare ((dat V c).after 3 t) from by
        unfold Dat.leavesExact; rw [live_d t h1], after_3]
      rw [accAt_step V c t h0]; dsimp only
      iintro ⟨⟨⟨HS0, HS1⟩, HR, Hg⟩, Ho, ⟨%d0, H0⟩, ⟨%d1, H1⟩, ⟨%d2, H2⟩, ⟨%d3, H3⟩⟩
      iapply (run_body c (grid1.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_pos ((hcondStore t).mpr h1)]
      iframe H0 H1 H2 H3 HS0 HS1
      iintro ⟨H0, H1, H2, H3, HS0, HS1⟩
      iframe
    · rw [Dat.leavesExact_idle (dat V c) 2 t (idle_c t h1) (noFlush_c t h1),
        Dat.leavesExact_idle (dat V c) 3 t (idle_d t h1) (noFlush_d t h1)]
      iintro ⟨⟨⟨HS0, HS1⟩, HR, Hg⟩, Ho, ⟨%d0, H0⟩, ⟨%d1, H1⟩, ⟨%d2, H2⟩, ⟨%d3, H3⟩⟩
      iapply (run_body c (grid1.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_neg (fun h => h1 ((hcondStore t).mp h))]
      iframe H0 H1 H2 H3 HS0 HS1
      iintro ⟨H0, H1, H2, H3, HS0, HS1⟩
      iframe HS0 HS1 HR Hg Ho H0 H1
      isplitl [H2] <;> iexists _ <;> iassumption

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]

theorem hout (c : Dev nD) : (dat V c).Φ (Fin.last cfg1.N) ⊢ Pipeline.ΦA spec1 c := Phi_any V c _

end Cert.Kernel.Pool1

end
-- ==== Proof.Kernel.Pool2Defs.lean ====
import proofs.«419520_j38482906972438_2_alg».proof.Proof.Gen.Kernel.Launch
import proofs.«419520_j38482906972438_2_alg».proof.Proof.Gen.Kernel.Skeleton
import proofs.«419520_j38482906972438_2_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Pool2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scSum : Memref sig .tc .vmem S128x512 .f32 := Memref.whole cc2_scratch0
abbrev scCnt : Memref sig .tc .vmem S128x1 .f32 := Memref.whole cc2_scratch1

abbrev featBlk (c : Dev nD) (t : Fin cfg2.N) : Vec F S4096x512 .f32 := iblk V c 0 t
abbrev segBlk (c : Dev nD) (t : Fin cfg2.N) : Vec F S4096 .i32 := iblk V c 1 t

/-- The sum and count accumulators after point `n`: restarted from the zero fills where n % 32 = 0, else stepped from point n − 1. -/
def accAt (c : Dev nD) : (n : ℕ) → n < cfg2.N → Vec F S128x512 .f32 × Vec F S128x1 .f32
  | 0, hn => (k0_pay4 (featBlk V c ⟨0, hn⟩) (segBlk V c ⟨0, hn⟩) k0_pay1, k0_pay5 (segBlk V c ⟨0, hn⟩) k0_pay2)
  | n + 1, hn =>
    if (n + 1) % 32 = 0 then
      (k0_pay4 (featBlk V c ⟨n + 1, hn⟩) (segBlk V c ⟨n + 1, hn⟩) k0_pay1, k0_pay5 (segBlk V c ⟨n + 1, hn⟩) k0_pay2)
    else
      (k0_pay4 (featBlk V c ⟨n + 1, hn⟩) (segBlk V c ⟨n + 1, hn⟩) (accAt c n (Nat.lt_of_succ_lt hn)).1,
        k0_pay5 (segBlk V c ⟨n + 1, hn⟩) (accAt c n (Nat.lt_of_succ_lt hn)).2)

theorem accAt_reset (c : Dev nD) (t : Fin cfg2.N) (h : t.val % 32 = 0) :
    accAt V c t.val t.isLt = (k0_pay4 (featBlk V c t) (segBlk V c t) k0_pay1, k0_pay5 (segBlk V c t) k0_pay2) := by
  obtain ⟨n, hn⟩ := t
  cases n with
  | zero => rfl
  | succ n => exact if_pos h

theorem accAt_step (c : Dev nD) (t : Fin cfg2.N) (h : ¬ t.val % 32 = 0) :
    accAt V c t.val t.isLt
      = (k0_pay4 (featBlk V c t) (segBlk V c t) (accAt V c (t.val - 1) (Nat.lt_of_le_of_lt (Nat.sub_le _ _) t.isLt)).1,
         k0_pay5 (segBlk V c t) (accAt V c (t.val - 1) (Nat.lt_of_le_of_lt (Nat.sub_le _ _) t.isLt)).2) := by
  obtain ⟨n, hn⟩ := t
  cases n with
  | zero => exact absurd (Nat.zero_mod _) h
  | succ n => exact if_neg h

/-- The invariant once the accumulators hold `a`. -/
def PhiAcc (c : Dev nD) (a : Vec F S128x512 .f32 × Vec F S128x1 .f32) : sProp 𝕄 :=
  iprop(iprop(owns (c : Thread nD τ) scSum fullShare a.1 ∗ owns (c : Thread nD τ) scCnt fullShare a.2)
      ∗ Pipeline.scopedRestBut (Ix := Unit) (Name := ℕ) (U := UR sig nD τ) (Lvl := ℕ) (Val := Elt F) spec2 c [cc2_scratch0, cc2_scratch1]
      ∗ (∃ r, prngReg c r))

/-- The invariant before position `n`: the launch's before the first point, then the accumulators at what the point before left. -/
def PhiS (c : Dev nD) : (n : ℕ) → n ≤ cfg2.N → sProp 𝕄
  | 0, _ => Pipeline.ΦA spec2 c
  | n + 1, hn => PhiAcc c (accAt V c n hn)

theorem PhiS_zero (c : Dev nD) (n : ℕ) (h : n ≤ cfg2.N) (hz : n = 0) : PhiS V c n h = Pipeline.ΦA spec2 c := by
  subst hz; rfl

theorem PhiS_pos (c : Dev nD) (n : ℕ) (h : n ≤ cfg2.N) (hz : n ≠ 0) :
    PhiS V c n h = PhiAcc c (accAt V c (n - 1) (by omega)) := by
  cases n with
  | zero => exact absurd rfl hz
  | succ n => rfl

/-- The region's proof data: inputs keep their blocks, each output receives its accumulator re-laid at the last inner coordinate. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k0_pay6 (accAt V c t.val t.isLt).1 := by dsimp only [dat]
theorem after_3 (c : Dev nD) (t : Fin cfg2.N) : (dat V c).after 3 t = k0_pay7 (accAt V c t.val t.isLt).2 := by dsimp only [dat]

end Cert.Kernel.Pool2

end
-- ==== Proof.Kernel.Pool2Runs.lean ====
import proofs.«419520_j38482906972438_2_alg».proof.Proof.Kernel.Pool2Defs
import proofs.«419520_j38482906972438_2_alg».proof.Proof.Whole
import Idealize.ShloMosaic.Lib.Tactic
import Idealize.ShloMosaic.Lib.Pipeline.Value
import Idealize.ShloMosaic.Lib.WholeRead

set_option maxRecDepth 16384

noncomputable section

namespace Cert.Kernel.Pool2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole

variable {F : FTy → Type} [FloatOps F]

local notation "𝕄" => MT nD τ sig Unit (Elt F) ℕ (UR sig nD τ) ℕ

/-- The body's first test: the inner grid coordinate is 0. -/
abbrev condReset (i : grid2.Coords) : Prop :=
  (Scalar.cmpi .ne (Scalar.extui (Scalar.cmpi .eq (BitVec.ofNat 32 (i 1).val) 0#32)) 0#32) = 1#1

/-- The body's second test: the inner grid coordinate is the last. -/
abbrev condStore (i : grid2.Coords) : Prop := k2_cond2 i = 1#1

set_option maxHeartbeats 8000000 in

/-- The body on six whole buffers: each accumulator restarts from its zero fill where the inner coordinate is 0, takes the block's contribution, and is copied over its output where the inner coordinate is the last. -/
theorem run_body (c : Dev nD) (i : grid2.Coords)
    (arg2 : Memref sig .tc .vmem S4096x512 .f32) (harg2 : arg2.IsWhole) (arg3 : Memref sig .tc .vmem S4096 .i32) (harg3 : arg3.IsWhole)
    (arg4 : Memref sig .tc .vmem S1x128x512 .f32) (harg4 : arg4.IsWhole) (arg5 : Memref sig .tc .vmem S1x128x1 .f32) (harg5 : arg5.IsWhole)
    (arg6 : Memref sig .tc .vmem S128x512 .f32) (harg6 : arg6.IsWhole) (arg7 : Memref sig .tc .vmem S128x1 .f32) (harg7 : arg7.IsWhole)
    (x0 : Vec F S4096x512 .f32) (x1 : Vec F S4096 .i32) (y0 : Vec F S1x128x512 .f32) (y1 : Vec F S1x128x1 .f32)
    (xs0 : Vec F S128x512 .f32) (xs1 : Vec F S128x1 .f32) (E : Set ℕ) (K : PUnit → sProp 𝕄) :
    iprop(owns (c : Thread nD τ) arg2 fullShare x0 ∗ owns (c : Thread nD τ) arg3 fullShare x1
        ∗ owns (c : Thread nD τ) arg4 fullShare y0 ∗ owns (c : Thread nD τ) arg5 fullShare y1
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare (if condStore i then k0_pay6 (k0_pay4 x0 x1 (if condReset i then k0_pay1 else xs0)) else y0)
            ∗ owns (c : Thread nD τ) arg5 fullShare (if condStore i then k0_pay7 (k0_pay5 x1 (if condReset i then k0_pay2 else xs1)) else y1)
            ∗ owns (c : Thread nD τ) arg6 fullShare (k0_pay4 x0 x1 (if condReset i then k0_pay1 else xs0)) ∗ owns (c : Thread nD τ) arg7 fullShare (k0_pay5 x1 (if condReset i then k0_pay2 else xs1))) -∗ K ⟨⟩))
      ⊢ wp frame (wpE (defs₀ (F := F)) Variants.none c none) E (cc2__lambda_ i arg2 harg2 arg3 harg3 arg4 harg4 arg5 harg5 arg6 harg6 arg7 harg7) K := by
  simp only [cc2__lambda__eq_skeleton]; unfold cc2__lambda__skel
  unfold owns
  iintro ⟨⟨%f0, %hf0, H0⟩, ⟨%f1, %hf1, H1⟩, ⟨%g0, %hg0, HO0⟩, ⟨%g1, %hg1, HO1⟩, ⟨%fs0, %hfs0, HS0⟩, ⟨%fs1, %hfs1, HS1⟩, Hk⟩
  obtain rfl := harg2.eq_unread hf0; obtain rfl := harg3.eq_unread hf1
  obtain rfl := harg4.eq_unread hg0; obtain rfl := harg5.eq_unread hg1
  obtain rfl := harg6.eq_unread hfs0; obtain rfl := harg7.eq_unread hfs1
  by_cases hc0 : condReset i <;> by_cases hc1 : condStore i <;>
  · (first | simp only [if_neg hc0] | simp only [if_pos hc0])
    (first | simp only [if_neg hc1] | simp only [if_pos hc1])
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [HO0]
    · iexists _; iframe HO0; ipureintro; (try sl_unfold_run_names)
      first
      | exact harg4.read_unread _
      | (rw [read_whole_stored _ _ zeros3, load_whole_stored _ zeros2, load_whole_unread _ _ zeros2, load_whole_unread _ _ zeros1]; first | rw [load_whole_stored _ zeros2] | rw [load_whole_unread _ _ zeros2])
      try rfl
    isplitl [HO1]
    · iexists _; iframe HO1; ipureintro; (try sl_unfold_run_names)
      first
      | exact harg5.read_unread _
      | (rw [read_whole_stored _ _ zeros3, load_whole_stored _ zeros2, load_whole_unread _ _ zeros1]; first | rw [load_whole_stored _ zeros2] | rw [load_whole_unread _ _ zeros2])
      try rfl
    isplitl [HS0]
    · iexists _; iframe HS0; ipureintro; (try sl_unfold_run_names)
      rw [read_whole_stored _ _ zeros2, load_whole_unread _ _ zeros2, load_whole_unread _ _ zeros1]; first | rw [load_whole_stored _ zeros2] | rw [load_whole_unread _ _ zeros2]
      try rfl
    · iexists _; iframe HS1; ipureintro; (try sl_unfold_run_names)
      rw [read_whole_stored _ _ zeros2, load_whole_unread _ _ zeros1]; first | rw [load_whole_stored _ zeros2] | rw [load_whole_unread _ _ zeros2]
      try rfl

end Cert.Kernel.Pool2

end
-- ==== Proof.Kernel.Pool2Frame.lean ====
import proofs.«419520_j38482906972438_2_alg».proof.Proof.Kernel.Pool2Defs
import proofs.«419520_j38482906972438_2_alg».proof.Proof.Kernel.Pool2Runs

set_option maxRecDepth 16384

noncomputable section

namespace Cert.Kernel.Pool2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Pool2 (condReset condStore run_body)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondReset : ∀ t : Fin cfg2.N, condReset (grid2.coords t) ↔ t.val % 32 = 0 :=
  (by decide +kernel : ∀ t : Fin grid2.N, condReset (grid2.coords t) ↔ t.val % 32 = 0)

theorem hcondStore : ∀ t : Fin cfg2.N, condStore (grid2.coords t) ↔ t.val % 32 = 31 :=
  (by decide +kernel : ∀ t : Fin grid2.N, condStore (grid2.coords t) ↔ t.val % 32 = 31)

theorem live_a : ∀ t : Fin cfg2.N, cfg2.idle 0 (grid2.coords t) = false := by decide +kernel
theorem live_b : ∀ t : Fin cfg2.N, cfg2.idle 1 (grid2.coords t) = false := by decide +kernel
theorem idle_c : ∀ t : Fin cfg2.N, ¬t.val % 32 = 31 → cfg2.idle 2 (grid2.coords t) = true := by decide +kernel
theorem idle_d : ∀ t : Fin cfg2.N, ¬t.val % 32 = 31 → cfg2.idle 3 (grid2.coords t) = true := by decide +kernel
theorem live_c : ∀ t : Fin cfg2.N, t.val % 32 = 31 → cfg2.idle 2 (grid2.coords t) = false := by decide +kernel
theorem live_d : ∀ t : Fin cfg2.N, t.val % 32 = 31 → cfg2.idle 3 (grid2.coords t) = false := by decide +kernel
theorem noFlush_c : ∀ t : Fin cfg2.N, ¬t.val % 32 = 31 → (cfg2.win 2).flush t = false :=
  (by decide +kernel : ∀ t : Fin grid2.N, ¬t.val % 32 = 31 → win2_2.flush t = false)
theorem noFlush_d : ∀ t : Fin cfg2.N, ¬t.val % 32 = 31 → (cfg2.win 3).flush t = false :=
  (by decide +kernel : ∀ t : Fin grid2.N, ¬t.val % 32 = 31 → win2_3.flush t = false)

abbrev stA (t : Fin cfg2.N) : Memref sig .tc .vmem S4096x512 .f32 := win2_0.stage (cfg2.slots t 0)
abbrev hstA (t : Fin cfg2.N) : (stA t).IsWhole := hstage2_0 ((cfg2.slots t 0).cast nbuf2_0)
abbrev stB (t : Fin cfg2.N) : Memref sig .tc .vmem S4096 .i32 := win2_1.stage (cfg2.slots t 1)
abbrev hstB (t : Fin cfg2.N) : (stB t).IsWhole := hstage2_1 ((cfg2.slots t 1).cast nbuf2_1)
abbrev stC (t : Fin cfg2.N) : Memref sig .tc .vmem S1x128x512 .f32 := win2_2.stage (cfg2.slots t 2)
abbrev hstC (t : Fin cfg2.N) : (stC t).IsWhole := hstage2_2 ((cfg2.slots t 2).cast nbuf2_2)
abbrev stD (t : Fin cfg2.N) : Memref sig .tc .vmem S1x128x1 .f32 := win2_3.stage (cfg2.slots t 3)
abbrev hstD (t : Fin cfg2.N) : (stD t).IsWhole := hstage2_3 ((cfg2.slots t 3).cast nbuf2_3)

abbrev bodyPt (t : Fin cfg2.N) : Prog (TpuEff nD τ sig (Elt F) Λ₀ .tc) PUnit :=
  cc2__lambda_ (grid2.coords t) (stA t) (hstA t) (stB t) (hstB t) (stC t) (hstC t) (stD t) (hstD t)
    scSum (Memref.isWhole_whole _) scCnt (Memref.isWhole_whole _)

theorem PhiA_eq (c : Dev nD) :
    (Pipeline.ΦA spec2 c : sProp 𝕄)
      = iprop(iprop(iprop((∃ d, owns (c : Thread nD τ) scSum fullShare d) ∗ (∃ d, owns (c : Thread nD τ) scCnt fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scSum, scCnt, owns_whole]; try rfl

theorem before_a (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_b (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The invariant before any position yields what the launch handed over: named contents are forgotten. -/
theorem Phi_any (c : Dev nD) (t : Fin (cfg2.N + 1)) : (dat V c).Φ t ⊢ Pipeline.ΦA spec2 c := by
  rw [show (dat V c).Φ t = PhiS V c t.val (Nat.le_of_lt_succ t.isLt) from rfl]
  by_cases ht : t.val = 0
  · rw [PhiS_zero V c _ _ ht]
  rw [PhiS_pos V c _ _ ht, PhiA_eq]; unfold PhiAcc
  iintro ⟨⟨HS0, HS1⟩, HR, Hg⟩
  iframe HR Hg
  isplitl [HS0] <;> iexists _ <;> iassumption

def bodyPre (c : Dev nD) (t : Fin cfg2.N) : sProp 𝕄 :=
  iprop((dat V c).Φ t.castSucc ∗ (dat V c).owesAt () t.castSucc
    ∗ (∃ d, owns (c : Thread nD τ) (stA t) fullShare ((dat V c).before 0 t d))
    ∗ (∃ d, owns (c : Thread nD τ) (stB t) fullShare ((dat V c).before 1 t d))
    ∗ (∃ d, owns (c : Thread nD τ) (stC t) fullShare ((dat V c).before 2 t d))
    ∗ (∃ d, owns (c : Thread nD τ) (stD t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in

/-- The body at any point: the inner coordinate picks the run; the invariant lends the accumulators and takes them back at this point's accumulation. -/
theorem sound_body (c : Dev nD) (t : Fin cfg2.N) :
    bodyPre V c t ⊢ wp frame (wpE (defs₀ (F := F)) Variants.none c none) Set.univ (bodyPt t) (fun _ => bodyPost V c t) := by
  unfold bodyPre bodyPost bodyPt
  simp only [before_a, before_b]
  rw [show (dat V c).owesAt () t.succ = (dat V c).owesAt () t.castSucc from rfl]
  rw [show (dat V c).Φ t.succ = PhiAcc c (accAt V c t.val t.isLt) from rfl]
  rw [show (dat V c).leavesExact 0 t = owns (c : Thread nD τ) (stA t) fullShare ((dat V c).after 0 t) from by
    unfold Dat.leavesExact; rw [live_a t], after_0]
  rw [show (dat V c).leavesExact 1 t = owns (c : Thread nD τ) (stB t) fullShare ((dat V c).after 1 t) from by
    unfold Dat.leavesExact; rw [live_b t], after_1]
  by_cases h0 : t.val % 32 = 0
  · have h1 : ¬t.val % 32 = 31 := by omega
    rw [Dat.leavesExact_idle (dat V c) 2 t (idle_c t h1) (noFlush_c t h1),
      Dat.leavesExact_idle (dat V c) 3 t (idle_d t h1) (noFlush_d t h1)]
    rw [accAt_reset V c t h0]; unfold PhiAcc; dsimp only
    refine BIBase.Entails.trans (sep_mono_left (Phi_any V c t.castSucc)) ?_
    rw [PhiA_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run_body c (grid2.coords t) (stA t) (hstA t) (stB t) (hstB t) (stC t) (hstC t) (stD t) (hstD t) scSum (Memref.isWhole_whole _)
      scCnt (Memref.isWhole_whole _)
      (iblk V c 0 t) (iblk V c 1 t) _ _ s0 s1 Set.univ _)
    simp only [if_pos ((hcondReset t).mpr h0), if_neg (fun h => h1 ((hcondStore t).mp h))]
    iframe H0 H1 H2 H3 HS0 HS1
    iintro ⟨H0, H1, H2, H3, HS0, HS1⟩
    iframe HS0 HS1 HR Hg Ho H0 H1
    isplitl [H2] <;> iexists _ <;> iassumption
  · have hz : t.val ≠ 0 := by omega
    rw [PhiS_castSucc V c t, PhiS_pos V c _ _ hz, accAt_step V c t h0]; unfold PhiAcc; dsimp only
    by_cases h1 : t.val % 32 = 31
    · rw [show (dat V c).leavesExact 2 t = owns (c : Thread nD τ) (stC t) fullShare ((dat V c).after 2 t) from by
        unfold Dat.leavesExact; rw [live_c t h1], after_2]
      rw [show (dat V c).leavesExact 3 t = owns (c : Thread nD τ) (stD t) fullShare ((dat V c).after 3 t) from by
        unfold Dat.leavesExact; rw [live_d t h1], after_3]
      rw [accAt_step V c t h0]; dsimp only
      iintro ⟨⟨⟨HS0, HS1⟩, HR, Hg⟩, Ho, ⟨%d0, H0⟩, ⟨%d1, H1⟩, ⟨%d2, H2⟩, ⟨%d3, H3⟩⟩
      iapply (run_body c (grid2.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_pos ((hcondStore t).mpr h1)]
      iframe H0 H1 H2 H3 HS0 HS1
      iintro ⟨H0, H1, H2, H3, HS0, HS1⟩
      iframe
    · rw [Dat.leavesExact_idle (dat V c) 2 t (idle_c t h1) (noFlush_c t h1),
        Dat.leavesExact_idle (dat V c) 3 t (idle_d t h1) (noFlush_d t h1)]
      iintro ⟨⟨⟨HS0, HS1⟩, HR, Hg⟩, Ho, ⟨%d0, H0⟩, ⟨%d1, H1⟩, ⟨%d2, H2⟩, ⟨%d3, H3⟩⟩
      iapply (run_body c (grid2.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_neg (fun h => h1 ((hcondStore t).mp h))]
      iframe H0 H1 H2 H3 HS0 HS1
      iintro ⟨H0, H1, H2, H3, HS0, HS1⟩
      iframe HS0 HS1 HR Hg Ho H0 H1
      isplitl [H2] <;> iexists _ <;> iassumption

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]

theorem hout (c : Dev nD) : (dat V c).Φ (Fin.last cfg2.N) ⊢ Pipeline.ΦA spec2 c := Phi_any V c _

end Cert.Kernel.Pool2

end
-- ==== Proof.Kernel.HeadDefs.lean ====
import proofs.«419520_j38482906972438_2_alg».proof.Proof.Gen.Kernel.Launch
import proofs.«419520_j38482906972438_2_alg».proof.Proof.Gen.Kernel.Skeleton
import proofs.«419520_j38482906972438_2_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev qBlk (c : Dev nD) (t : Fin cfg3.N) : Vec F S128x1024 .bf16 := iblk V c 0 t
abbrev imgNodeBlk (c : Dev nD) (t : Fin cfg3.N) : Vec F S128x512 .f32 := iblk V c 1 t
abbrev kgNodeBlk (c : Dev nD) (t : Fin cfg3.N) : Vec F S128x512 .f32 := iblk V c 2 t
abbrev imgEdgeBlk (c : Dev nD) (t : Fin cfg3.N) : Vec F S128x512 .f32 := iblk V c 3 t
abbrev wqe (c : Dev nD) (t : Fin cfg3.N) : Vec F S1024x512 .bf16 := iblk V c 4 t
abbrev bqe (c : Dev nD) (t : Fin cfg3.N) : Vec F S512 .f32 := iblk V c 5 t
abbrev wqn (c : Dev nD) (t : Fin cfg3.N) : Vec F S1024x512 .bf16 := iblk V c 6 t
abbrev bqn (c : Dev nD) (t : Fin cfg3.N) : Vec F S512 .f32 := iblk V c 7 t
abbrev w1 (c : Dev nD) (t : Fin cfg3.N) : Vec F S1024x2048 .bf16 := iblk V c 8 t
abbrev b1 (c : Dev nD) (t : Fin cfg3.N) : Vec F S2048 .f32 := iblk V c 9 t
abbrev w2 (c : Dev nD) (t : Fin cfg3.N) : Vec F S2048x3129 .bf16 := iblk V c 10 t
abbrev b2 (c : Dev nD) (t : Fin cfg3.N) : Vec F S3129 .f32 := iblk V c 11 t

/-- The value the head's body stores: its two payloads applied to the twelve input blocks. -/
def outBlk (c : Dev nD) (t : Fin cfg3.N) : Vec F S128x3129 .f32 :=
  k3_pay1
    (k3_pay2 (qBlk V c t) (wqe V c t) (bqe V c t) (wqn V c t) (bqn V c t) (imgEdgeBlk V c t) (imgNodeBlk V c t)
      (kgNodeBlk V c t) (w1 V c t) (b1 V c t))
    k3_pay3 (w2 V c t) (b2 V c t)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outBlk V c t
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = iblk V c 11 t := by dsimp only [dat]
theorem after_12 (c : Dev nD) (t : Fin cfg3.N) : (dat V c).after 12 t = outBlk V c t := by dsimp only [dat]

end Cert.Kernel.Head

end
-- ==== Proof.Kernel.HeadFrame.lean ====
import proofs.«419520_j38482906972438_2_alg».proof.Proof.Kernel.HeadDefs
import Idealize.ShloMosaic.Lib.Pipeline.FrameBody
import Idealize.ShloMosaic.Lib.Pipeline.Value
import Idealize.ShloMosaic.Lib.Tactic

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before_0 (c : Dev nD) (t : Fin cfg3.N) (d) : (dat V c).before 0 t d = iblk V c 0 t := by
  rw [(dat V c).before_fetched 0 t (fetch3_0 t) d]; unfold Dat.fetched Dat.blockOf iblk; rw [A_eq]; rfl
theorem before_1 (c : Dev nD) (t : Fin cfg3.N) (d) : (dat V c).before 1 t d = iblk V c 1 t := by
  rw [(dat V c).before_fetched 1 t (fetch3_1 t) d]; unfold Dat.fetched Dat.blockOf iblk; rw [A_eq]; rfl
theorem before_2 (c : Dev nD) (t : Fin cfg3.N) (d) : (dat V c).before 2 t d = iblk V c 2 t := by
  rw [(dat V c).before_fetched 2 t (fetch3_2 t) d]; unfold Dat.fetched Dat.blockOf iblk; rw [A_eq]; rfl
theorem before_3 (c : Dev nD) (t : Fin cfg3.N) (d) : (dat V c).before 3 t d = iblk V c 3 t := by
  rw [(dat V c).before_fetched 3 t (fetch3_3 t) d]; unfold Dat.fetched Dat.blockOf iblk; rw [A_eq]; rfl
theorem before_4 (c : Dev nD) (t : Fin cfg3.N) (d) : (dat V c).before 4 t d = iblk V c 4 t := by
  rw [(dat V c).before_fetched 4 t (fetch3_4 t) d]; unfold Dat.fetched Dat.blockOf iblk; rw [A_eq]; rfl
theorem before_5 (c : Dev nD) (t : Fin cfg3.N) (d) : (dat V c).before 5 t d = iblk V c 5 t := by
  rw [(dat V c).before_fetched 5 t (fetch3_5 t) d]; unfold Dat.fetched Dat.blockOf iblk; rw [A_eq]; rfl
theorem before_6 (c : Dev nD) (t : Fin cfg3.N) (d) : (dat V c).before 6 t d = iblk V c 6 t := by
  rw [(dat V c).before_fetched 6 t (fetch3_6 t) d]; unfold Dat.fetched Dat.blockOf iblk; rw [A_eq]; rfl
theorem before_7 (c : Dev nD) (t : Fin cfg3.N) (d) : (dat V c).before 7 t d = iblk V c 7 t := by
  rw [(dat V c).before_fetched 7 t (fetch3_7 t) d]; unfold Dat.fetched Dat.blockOf iblk; rw [A_eq]; rfl
theorem before_8 (c : Dev nD) (t : Fin cfg3.N) (d) : (dat V c).before 8 t d = iblk V c 8 t := by
  rw [(dat V c).before_fetched 8 t (fetch3_8 t) d]; unfold Dat.fetched Dat.blockOf iblk; rw [A_eq]; rfl
theorem before_9 (c : Dev nD) (t : Fin cfg3.N) (d) : (dat V c).before 9 t d = iblk V c 9 t := by
  rw [(dat V c).before_fetched 9 t (fetch3_9 t) d]; unfold Dat.fetched Dat.blockOf iblk; rw [A_eq]; rfl
theorem before_10 (c : Dev nD) (t : Fin cfg3.N) (d) : (dat V c).before 10 t d = iblk V c 10 t := by
  rw [(dat V c).before_fetched 10 t (fetch3_10 t) d]; unfold Dat.fetched Dat.blockOf iblk; rw [A_eq]; rfl
theorem before_11 (c : Dev nD) (t : Fin cfg3.N) (d) : (dat V c).before 11 t d = iblk V c 11 t := by
  rw [(dat V c).before_fetched 11 t (fetch3_11 t) d]; unfold Dat.fetched Dat.blockOf iblk; rw [A_eq]; rfl

theorem off1 : (![0] : Fin 1 → Nat) = fun _ => 0 := funext fun a => by fin_cases a <;> rfl
theorem off2 : (![0, 0] : Fin 2 → Nat) = fun _ => 0 := funext fun a => by fin_cases a <;> rfl

theorem readAt_all {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem read_write_all {κ : Kind} {sp : Space} {S : Shape} {e : EltTy} (v : View sig κ sp S e) {off : Fin S.rank → Nat}
    (h : off = fun _ => 0) (inb : ∀ a, off a + S.size a ≤ S.size a) (f : v.ty.Contents (Elt F)) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

def headOut (x0 : Vec F S128x1024 .bf16) (x1 : Vec F S128x512 .f32) (x2 : Vec F S128x512 .f32) (x3 : Vec F S128x512 .f32) (x4 : Vec F S1024x512 .bf16) (x5 : Vec F S512 .f32) (x6 : Vec F S1024x512 .bf16) (x7 : Vec F S512 .f32) (x8 : Vec F S1024x2048 .bf16) (x9 : Vec F S2048 .f32) (x10 : Vec F S2048x3129 .bf16) (x11 : Vec F S3129 .f32) : Vec F S128x3129 .f32 :=
  k3_pay1 (k3_pay2 x0 x4 x5 x6 x7 x3 x1 x2 x8 x9) k3_pay3 x10 x11

set_option maxHeartbeats 1000000 in

/-- The head's body on thirteen whole buffers leaves the inputs as found and the output at `headOut` of them. -/
theorem sound_kernel (c : Dev nD) (E : Set ℕ) (i : grid3.Coords) (arg1 : Memref sig .tc .vmem S128x1024 .bf16) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x2048 .bf16) (harg9 : arg9.IsWhole) (arg10 : Memref sig .tc .vmem S2048 .f32) (harg10 : arg10.IsWhole) (arg11 : Memref sig .tc .vmem S2048x3129 .bf16) (harg11 : arg11.IsWhole) (arg12 : Memref sig .tc .vmem S3129 .f32) (harg12 : arg12.IsWhole) (arg13 : Memref sig .tc .vmem S128x3129 .f32) (harg13 : arg13.IsWhole)
    (x0 : Vec F S128x1024 .bf16) (x1 : Vec F S128x512 .f32) (x2 : Vec F S128x512 .f32) (x3 : Vec F S128x512 .f32) (x4 : Vec F S1024x512 .bf16) (x5 : Vec F S512 .f32) (x6 : Vec F S1024x512 .bf16) (x7 : Vec F S512 .f32) (x8 : Vec F S1024x2048 .bf16) (x9 : Vec F S2048 .f32) (x10 : Vec F S2048x3129 .bf16) (x11 : Vec F S3129 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (headOut x0 x1 x2 x3 x4 x5 x6 x7 x8 x9 x10 x11)) -∗ K ⟨⟩))
      ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  isplitl [H10]; · iexists f10; iframe H10; ipureintro; rfl
  isplitl [H11]; · iexists f11; iframe H11; ipureintro; rfl
  iexists _; isplitr
  swap; · iexact H12
  ipureintro
  refine (read_write_all (S := S128x3129) arg13.view off2 inb_S128x3129_S128x3129_0_0 f12 _).trans ?_
  unfold headOut sound_kernel.sl.r
  rw [readAt_all (S := S128x1024) _ off2, readAt_all (S := S1024x512) _ off2, readAt_all (S := S512) _ off1,
    readAt_all (S := S1024x512) _ off2, readAt_all (S := S512) _ off1, readAt_all (S := S128x512) _ off2,
    readAt_all (S := S128x512) _ off2, readAt_all (S := S128x512) _ off2, readAt_all (S := S1024x2048) _ off2,
    readAt_all (S := S2048) _ off1, readAt_all (S := S2048x3129) _ off2, readAt_all (S := S3129) _ off1]

theorem outBlk_eq (c : Dev nD) (t : Fin cfg3.N) :
    outBlk V c t = headOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := rfl

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, outBlk_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  iframe H0 H1 H2 H3 H4 H5 H6 H7 H8 H9 H10 H11
  isplitl [H12]; · iexists _; iexact H12
  iintro ⟨H0, H1, H2, H3, H4, H5, H6, H7, H8, H9, H10, H11, H12⟩
  iframe

theorem body_obligation (c : Dev nD) : BodyObligation (dat (F := F) V c) (defs₀ (F := F)) Variants.none () Set.univ := fun t => by
  rw [bigSep_W3, bigSep_W3]
  exact sound_body V c t

end Cert.Kernel.Head

end
-- ==== Proof.Kernel.Run.lean ====
import proofs.«419520_j38482906972438_2_alg».proof.Proof.Kernel.Pool0Frame
import proofs.«419520_j38482906972438_2_alg».proof.Proof.Kernel.Pool1Frame
import proofs.«419520_j38482906972438_2_alg».proof.Proof.Kernel.Pool2Frame
import proofs.«419520_j38482906972438_2_alg».proof.Proof.Kernel.HeadFrame
import proofs.«419520_j38482906972438_2_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev U0 (c : Dev nD) : Valuation τ sig (Elt F) := fun b => m (c, b)

abbrev V0 : (c : Dev nD) → (b : Ref sig .tc) → Buf (Elt F) ((c : Thread nD τ).loc b) := fun c b => U0 m c (Proc.devRef .tc b)

def U1 (c : Dev nD) : Valuation τ sig (Elt F) :=
  Pipeline.withArrays spec0 c (U0 m c) fun w => (Pool0.dat (V0 m) c).arrAt w cfg0.N

abbrev U2 (c : Dev nD) : Valuation τ sig (Elt F) := StableHlo.after hostOps1 (U1 m c)

abbrev V2 : (c : Dev nD) → (b : Ref sig .tc) → Buf (Elt F) ((c : Thread nD τ).loc b) := fun c b => U2 m c (Proc.devRef .tc b)

def U3 (c : Dev nD) : Valuation τ sig (Elt F) :=
  Pipeline.withArrays spec1 c (U2 m c) fun w => (Pool1.dat (V2 m) c).arrAt w cfg1.N

abbrev U4 (c : Dev nD) : Valuation τ sig (Elt F) := StableHlo.after hostOps2 (U3 m c)

abbrev V4 : (c : Dev nD) → (b : Ref sig .tc) → Buf (Elt F) ((c : Thread nD τ).loc b) := fun c b => U4 m c (Proc.devRef .tc b)

def U5 (c : Dev nD) : Valuation τ sig (Elt F) :=
  Pipeline.withArrays spec2 c (U4 m c) fun w => (Pool2.dat (V4 m) c).arrAt w cfg2.N

abbrev U6 (c : Dev nD) : Valuation τ sig (Elt F) := StableHlo.after hostOps3 (U5 m c)

abbrev V6 : (c : Dev nD) → (b : Ref sig .tc) → Buf (Elt F) ((c : Thread nD τ).loc b) := fun c b => U6 m c (Proc.devRef .tc b)

def U7 (c : Dev nD) : Valuation τ sig (Elt F) :=
  Pipeline.withArrays spec3 c (U6 m c) fun w => (Head.dat (V6 m) c).arrAt w cfg3.N

theorem U1_arr (c : Dev nD) (w : Fin cfg0.W) :
    U1 m c (Proc.devRef .tc (Pipeline.arrRef spec0 w)) = (Pool0.dat (V0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
theorem U1_keep (c : Dev nD) (b : Ref sig .tc) (hb : ∀ w, (cfg0.win w).isOut = true → Pipeline.arrRef spec0 w ≠ b) :
    U1 m c (Proc.devRef .tc b) = U0 m c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (U1_arr m c w).trans (((Pool0.dat (V0 m) c).arrAt_in w hin _).trans (Pool0.A_eq (V0 m) c w))
  · exact U1_of_ne m c b fun w e => h ⟨w, e⟩

theorem U3_arr (c : Dev nD) (w : Fin cfg1.W) :
    U3 m c (Proc.devRef .tc (Pipeline.arrRef spec1 w)) = (Pool1.dat (V2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
theorem U3_keep (c : Dev nD) (b : Ref sig .tc) (hb : ∀ w, (cfg1.win w).isOut = true → Pipeline.arrRef spec1 w ≠ b) :
    U3 m c (Proc.devRef .tc b) = U2 m c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (U3_arr m c w).trans (((Pool1.dat (V2 m) c).arrAt_in w hin _).trans (Pool1.A_eq (V2 m) c w))
  · exact U3_of_ne m c b fun w e => h ⟨w, e⟩

theorem U5_arr (c : Dev nD) (w : Fin cfg2.W) :
    U5 m c (Proc.devRef .tc (Pipeline.arrRef spec2 w)) = (Pool2.dat (V4 m) c).arrAt w cfg2.N := by
  unfold U5; exact Pipeline.withArrays_arr spec2 launch2.win.arr_inj c _ _ w
theorem U5_of_ne (c : Dev nD) (b : Ref sig .tc) (hb : ∀ w, Pipeline.arrRef spec2 w ≠ b) :
    U5 m c (Proc.devRef .tc b) = U4 m c (Proc.devRef .tc b) := by
  unfold U5; exact Pipeline.withArrays_of_ne spec2 c _ _ b hb
theorem U5_keep (c : Dev nD) (b : Ref sig .tc) (hb : ∀ w, (cfg2.win w).isOut = true → Pipeline.arrRef spec2 w ≠ b) :
    U5 m c (Proc.devRef .tc b) = U4 m c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (U5_arr m c w).trans (((Pool2.dat (V4 m) c).arrAt_in w hin _).trans (Pool2.A_eq (V4 m) c w))
  · exact U5_of_ne m c b fun w e => h ⟨w, e⟩

theorem U7_arr (c : Dev nD) (w : Fin cfg3.W) :
    U7 m c (Proc.devRef .tc (Pipeline.arrRef spec3 w)) = (Head.dat (V6 m) c).arrAt w cfg3.N := by
  unfold U7; exact Pipeline.withArrays_arr spec3 launch3.win.arr_inj c _ _ w
theorem U7_of_ne (c : Dev nD) (b : Ref sig .tc) (hb : ∀ w, Pipeline.arrRef spec3 w ≠ b) :
    U7 m c (Proc.devRef .tc b) = U6 m c (Proc.devRef .tc b) := by
  unfold U7; exact Pipeline.withArrays_of_ne spec3 c _ _ b hb
theorem U7_keep (c : Dev nD) (b : Ref sig .tc) (hb : ∀ w, (cfg3.win w).isOut = true → Pipeline.arrRef spec3 w ≠ b) :
    U7 m c (Proc.devRef .tc b) = U6 m c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (U7_arr m c w).trans (((Head.dat (V6 m) c).arrAt_in w hin _).trans (Head.A_eq (V6 m) c w))
  · exact U7_of_ne m c b fun w e => h ⟨w, e⟩

theorem U2_of (c : Dev nD) (r : Ref sig .tc) (h : r ∉ hostOps1_W) : U2 m c (Proc.devRef .tc r) = U1 m c (Proc.devRef .tc r) :=
  StableHlo.after_of_writes_sub hostOps1 _ hostOps1_writes h
theorem U4_of (c : Dev nD) (r : Ref sig .tc) (h : r ∉ hostOps2_W) : U4 m c (Proc.devRef .tc r) = U3 m c (Proc.devRef .tc r) :=
  StableHlo.after_of_writes_sub hostOps2 _ hostOps2_writes h
theorem U6_of (c : Dev nD) (r : Ref sig .tc) (h : r ∉ hostOps3_W) : U6 m c (Proc.devRef .tc r) = U5 m c (Proc.devRef .tc r) :=
  StableHlo.after_of_writes_sub hostOps3 _ hostOps3_writes h

theorem U1_main_v0_0 (c : Dev nD) : U1 m c (Proc.devRef .tc main_v0_0) = (Pool0.dat (V0 m) c).arrAt 2 cfg0.N := U1_arr m c 2
theorem U1_main_v0_1 (c : Dev nD) : U1 m c (Proc.devRef .tc main_v0_1) = (Pool0.dat (V0 m) c).arrAt 3 cfg0.N := U1_arr m c 3
theorem U3_main_v15_0 (c : Dev nD) : U3 m c (Proc.devRef .tc main_v15_0) = (Pool1.dat (V2 m) c).arrAt 2 cfg1.N := U3_arr m c 2
theorem U3_main_v15_1 (c : Dev nD) : U3 m c (Proc.devRef .tc main_v15_1) = (Pool1.dat (V2 m) c).arrAt 3 cfg1.N := U3_arr m c 3
theorem U5_main_v30_0 (c : Dev nD) : U5 m c (Proc.devRef .tc main_v30_0) = (Pool2.dat (V4 m) c).arrAt 2 cfg2.N := U5_arr m c 2
theorem U5_main_v30_1 (c : Dev nD) : U5 m c (Proc.devRef .tc main_v30_1) = (Pool2.dat (V4 m) c).arrAt 3 cfg2.N := U5_arr m c 3
theorem U7_result (c : Dev nD) : U7 m c (Proc.devRef .tc main_v50) = (Head.dat (V6 m) c).arrAt 12 cfg3.N := U7_arr m c 12

/-- A buffer no host stretch writes and no region outputs holds at the end what the launch memory held. -/
theorem U7_launch (c : Dev nD) (b : Ref sig .tc)
    (h0 : ∀ w, (cfg0.win w).isOut = true → Pipeline.arrRef spec0 w ≠ b := by decide) (h1 : b ∉ hostOps1_W := by decide)
    (h2 : ∀ w, (cfg1.win w).isOut = true → Pipeline.arrRef spec1 w ≠ b := by decide) (h3 : b ∉ hostOps2_W := by decide)
    (h4 : ∀ w, (cfg2.win w).isOut = true → Pipeline.arrRef spec2 w ≠ b := by decide) (h5 : b ∉ hostOps3_W := by decide)
    (h6 : ∀ w, (cfg3.win w).isOut = true → Pipeline.arrRef spec3 w ≠ b := by decide) :
    U7 m c (Proc.devRef .tc b) = m ((c : Thread nD τ).loc b) :=
  calc U7 m c (Proc.devRef .tc b)
    _ = U6 m c (Proc.devRef .tc b) := U7_keep m c b h6
    _ = U5 m c (Proc.devRef .tc b) := U6_of m c b h5
    _ = U4 m c (Proc.devRef .tc b) := U5_keep m c b h4
    _ = U3 m c (Proc.devRef .tc b) := U4_of m c b h3
    _ = U2 m c (Proc.devRef .tc b) := U3_keep m c b h2
    _ = U1 m c (Proc.devRef .tc b) := U2_of m c b h1
    _ = U0 m c (Proc.devRef .tc b) := U1_keep m c b h0
    _ = m ((c : Thread nD τ).loc b) := rfl

/-- Every region's proof data, each at the contents its region is entered with. -/
def pdats : (p : Fin 4) → (c : Dev nD) → Dat τ (Elt F) Unit ℕ (UR sig nD τ) ℕ (cfgs p) c
  | ⟨0, _⟩ => fun c => Pool0.dat (V0 m) c
  | ⟨1, _⟩ => fun c => Pool1.dat (V2 m) c
  | ⟨2, _⟩ => fun c => Pool2.dat (V4 m) c
  | ⟨3, _⟩ => fun c => Head.dat (V6 m) c

abbrev 𝒱₀ : Variants := Variants.none

abbrev L : GSem nD τ sig → Finset Unit := fun _ => ∅
abbrev lv : GSem nD τ sig → Unit → ℕ := fun _ _ => 0

abbrev Free (c : Dev nD) : sProp 𝕄 := iprop(∃ W, owes (c : Thread nD τ) (0 : CellTallies nD τ sig Unit) W)

abbrev R (c : Dev nD) : sProp 𝕄 := iprop((∃ r, prngReg c r) ∗ Free (F := F) c)

abbrev At (W : Dev nD → Valuation τ sig (Elt F)) (c : Dev nD) : sProp 𝕄 :=
  iprop(StableHlo.held (c : Thread nD τ) (Pipeline.ucRefs τ sig) (W c) ∗ R (F := F) c)

section Owes

variable {cfg : Cfg sig Λ₀} {c : Dev nD} (d : Dat τ (Elt F) Unit ℕ (UR sig nD τ) ℕ cfg c)

theorem owesAt_of_free (t : Fin (cfg.N + 1)) (ho : d.owed t = 0) (hr : d.recorded t = Set.univ) :
    Free (F := F) c ⊢ d.owesAt () t := by
  unfold Pipeline.Dat.owesAt Pipeline.owesWithin
  rw [ho]
  iintro ⟨%W, H⟩
  iexists W
  isplitr
  · ipureintro
    intro x _
    exact Or.inl (by rw [hr]; trivial)
  iexact H

theorem free_of_owesAt (t : Fin (cfg.N + 1)) (ho : d.owed t = 0) : d.owesAt () t ⊢ Free (F := F) c := by
  unfold Pipeline.Dat.owesAt Pipeline.owesWithin
  rw [ho]
  iintro ⟨%W, -, H⟩
  iexists W
  iexact H

end Owes

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

set_option backward.isDefEq.respectTransparency.types false in

def reg0 :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool0.body_obligation (V0 m) c).loose
  hwaits := Pipeline.hwaits_of_owed_zero _ _ _ _ L lv 0 fun _ _ => rfl
  pre := At (U0 m)
  post := At (U1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by

    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit

    have hnotab : (BI.emp : sProp 𝕄) ⊢ Pipeline.prefHeld (pcfgs (F := F) 0).pre c (fun _ => fullShare) (adm 0).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 0 c) 0 rfl rfl); iexact Hfree
    isplitl [Hreg]; · iexact Hreg
    iexact Hrest
  hin c := by
    refine BIBase.Entails.trans ?_ (Pool0.hin (V0 m) c)
    unfold Pipeline.ΦA
    iintro ⟨Hreg, -, Hsc⟩
    isplitl [Hsc]; · iexact Hsc
    iexact Hreg
  hout c := by
    rw [Pipeline.ownSems0_none]
    refine BIBase.Entails.trans (Pool0.hout (V0 m) c) ?_
    unfold Pipeline.ΦA
    iintro ⟨Hsc, Hreg⟩
    isplitl [Hreg]; · iexact Hreg
    isplitr; · iempintro
    iexact Hsc
  hexit c := by

    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => U1 m c (Proc.devRef .tc b)) ((pdats m 0 c).arrAt · cfg0.N) (fun w => (U1_arr m c w).symm)
      (fun b hb => U1_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 0 c) (Fin.last _) rfl); iexact Howes

set_option backward.isDefEq.respectTransparency.types false in

def reg1 :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool1.body_obligation (V2 m) c).loose
  hwaits := Pipeline.hwaits_of_owed_zero _ _ _ _ L lv 1 fun _ _ => rfl
  pre := At (U2 m)
  post := At (U3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by

    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit

    have hnotab : (BI.emp : sProp 𝕄) ⊢ Pipeline.prefHeld (pcfgs (F := F) 1).pre c (fun _ => fullShare) (adm 1).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 1 c) 0 rfl rfl); iexact Hfree
    isplitl [Hreg]; · iexact Hreg
    iexact Hrest
  hin c := by
    refine BIBase.Entails.trans ?_ (Pool1.hin (V2 m) c)
    unfold Pipeline.ΦA
    iintro ⟨Hreg, -, Hsc⟩
    isplitl [Hsc]; · iexact Hsc
    iexact Hreg
  hout c := by
    rw [Pipeline.ownSems0_none]
    refine BIBase.Entails.trans (Pool1.hout (V2 m) c) ?_
    unfold Pipeline.ΦA
    iintro ⟨Hsc, Hreg⟩
    isplitl [Hreg]; · iexact Hreg
    isplitr; · iempintro
    iexact Hsc
  hexit c := by

    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (fun b => U3 m c (Proc.devRef .tc b)) ((pdats m 1 c).arrAt · cfg1.N) (fun w => (U3_arr m c w).symm)
      (fun b hb => U3_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 1 c) (Fin.last _) rfl); iexact Howes

set_option backward.isDefEq.respectTransparency.types false in

def reg2 :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool2.body_obligation (V4 m) c).loose
  hwaits := Pipeline.hwaits_of_owed_zero _ _ _ _ L lv 2 fun _ _ => rfl
  pre := At (U4 m)
  post := At (U5 m)
  X c := iprop(∃ r, prngReg c r)
  Y c := iprop(∃ r, prngReg c r)
  Z c := Pipeline.unscopedRest (Ix := Unit) (Name := ℕ) (U := UR sig nD τ) (Lvl := ℕ) spec2 c (V4 m c)
  hentry c := by

    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit

    have hnotab : (BI.emp : sProp 𝕄) ⊢ Pipeline.prefHeld (pcfgs (F := F) 2).pre c (fun _ => fullShare) (adm 2).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 2 c) 0 rfl rfl); iexact Hfree
    isplitl [Hreg]; · iexact Hreg
    iexact Hrest
  hin c := by
    refine BIBase.Entails.trans ?_ (Pool2.hin (V4 m) c)
    unfold Pipeline.ΦA
    iintro ⟨Hreg, -, Hsc⟩
    isplitl [Hsc]; · iexact Hsc
    iexact Hreg
  hout c := by
    rw [Pipeline.ownSems0_none]
    refine BIBase.Entails.trans (Pool2.hout (V4 m) c) ?_
    unfold Pipeline.ΦA
    iintro ⟨Hsc, Hreg⟩
    isplitl [Hreg]; · iexact Hreg
    isplitr; · iempintro
    iexact Hsc
  hexit c := by

    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (fun b => U5 m c (Proc.devRef .tc b)) ((pdats m 2 c).arrAt · cfg2.N) (fun w => (U5_arr m c w).symm)
      (fun b hb => U5_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 2 c) (Fin.last _) rfl); iexact Howes

set_option backward.isDefEq.respectTransparency.types false in

def reg3 :
    Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Head.body_obligation (V6 m) c).loose
  hwaits := Pipeline.hwaits_of_owed_zero _ _ _ _ L lv 3 fun _ _ => rfl
  pre := At (U6 m)
  post := At (U7 m)
  X c := iprop(∃ r, prngReg c r)
  Y c := iprop(∃ r, prngReg c r)
  Z c := Pipeline.unscopedRest (Ix := Unit) (Name := ℕ) (U := UR sig nD τ) (Lvl := ℕ) spec3 c (V6 m c)
  hentry c := by

    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit

    have hnotab : (BI.emp : sProp 𝕄) ⊢ Pipeline.prefHeld (pcfgs (F := F) 3).pre c (fun _ => fullShare) (adm 3).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 3 c) 0 rfl rfl); iexact Hfree
    isplitl [Hreg]; · iexact Hreg
    iexact Hrest
  hin c := by
    rw [show (pdats m 3 c).Φ 0 = Pipeline.ΦA spec3 c from rfl]
    unfold Pipeline.ΦA
    iintro ⟨Hreg, -, Hsc⟩
    isplitl [Hsc]; · iexact Hsc
    iexact Hreg
  hout c := by
    rw [Pipeline.ownSems0_none]
    rw [show (pdats m 3 c).Φ (Fin.last _) = Pipeline.ΦA spec3 c from rfl]
    unfold Pipeline.ΦA
    iintro ⟨Hsc, Hreg⟩
    isplitl [Hreg]; · iexact Hreg
    isplitr; · iempintro
    iexact Hsc
  hexit c := by

    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (fun b => U7 m c (Proc.devRef .tc b)) ((pdats m 3 c).arrAt · cfg3.N) (fun w => (U7_arr m c w).symm)
      (fun b hb => U7_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 3 c) (Fin.last _) rfl); iexact Howes

abbrev segs :
    List (Pipeline.Seg (pcfgs (F := F)) adm (pdats m) () defs₀ 𝒱₀ L lv) :=
  [ .region (reg0 m),
    .host (hseg hostOps1 hostOps1_sub hostOps1_fresh (U1 m)),
    .region (reg1 m),
    .host (hseg hostOps2 hostOps2_sub hostOps2_fresh (U3 m)),
    .region (reg2 m),
    .host (hseg hostOps3 hostOps3_sub hostOps3_fresh (U5 m)),
    .region (reg3 m) ]

abbrev u₀ : UR sig nD τ := initOf (Pipeline.cells cfgs cellOf_inj) (Pipeline.launchToks cfgs cellOf_inj)

theorem ghost_init :
    (ownU (u₀ : UR sig nD τ) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (u₀ : UR sig nD τ) : sProp 𝕄) ⊢ BI.own ((emb₁ : Emb (UR sig nD τ) 𝕄) u₀) from .rfl)
    iexact Hu
  iempintro

theorem rest_init (ρ : Dev nD → PrngReg) :
    iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄))) ∗ levAts L lv)
      ⊢ (|={Set.univ}=> bigSep Finset.univ (R (F := F)) : sProp 𝕄) := by
  refine Pipeline.initEach L lv fun c => ?_
  iintro ⟨⟨-, Howes, -, Hreg, -⟩, -⟩
  imodintro
  isplitl [Hreg]
  · iexists (ρ c); iexact Hreg
  iexists ∅; iexact Howes

theorem rest_free (c : Dev nD) : R (F := F) c ⊢ (iprop(∃ W, owes (c : Thread nD τ) (0 : CellTallies nD τ sig Unit) W) : sProp 𝕄) := by
  iintro ⟨-, H⟩; iexact H

end Cert.Kernel.Run

end
-- ==== Proof.Kernel.RunLaunch.lean ====
import proofs.«419520_j38482906972438_2_alg».proof.Proof.Kernel.Run
import Idealize.ShloMosaic.Lib.Pipeline.Frame
import Idealize.ShloMosaic.Lib.Pipeline.Regions

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.Kernel Cert.Kernel.Gen

variable {F : FTy → Type} [FloatOps F]

local notation "𝕄" => MT nD τ sig Unit (Elt F) ℕ (UR sig nD τ) ℕ

set_option backward.isDefEq.respectTransparency.types false in

/-- Every weakly fair execution of @main terminates with each unscoped buffer at the last boundary's contents. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U7 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) (O₀ := 0) (hL := fun _ _ => rfl)
    (G := fun _ => (BI.emp : sProp 𝕄)) (u₀ := u₀) (hu₀ := ghost_init)
    (T₀ := fun c => iprop(StableHlo.held (c : Thread nD τ) (Pipeline.ucRefs τ sig) (U0 m c) ∗ R (F := F) c))
    (Tₙ := fun c => StableHlo.held (c : Thread nD τ) (Pipeline.ucRefs τ sig) (U7 m c))
    (hch := fun c => ⟨.rfl, .rfl, .rfl, .rfl, .rfl, .rfl, .rfl, sep_mono .rfl (rest_free c)⟩)
    (hinit := ?_) (QY := fun c s => ∀ b ∈ Pipeline.ucRefs τ sig, s.mem ((c : Thread nD τ).1, b) = U7 m c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (U0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (U0 m c)]; exact BI.Entails.refl _
    iintro ⟨H, Hla⟩
    ihave H' := hsplit $$ H
    icases H' with ⟨Hh, Hr⟩
    imod (rest_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (U0 m c)) (R (F := F))]
    isplitl [Hh]; · iexact Hh
    iexact HE
  ·
    unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact h
    · iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The same run, naming the result array and each argument array at its launch contents. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v50) = U7 m c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v50 (by decide)),
      (h c _ (mem_uc main_arg0 (by decide))).trans (U7_launch m c main_arg0),
      (h c _ (mem_uc main_arg1 (by decide))).trans (U7_launch m c main_arg1),
      (h c _ (mem_uc main_arg2 (by decide))).trans (U7_launch m c main_arg2),
      (h c _ (mem_uc main_arg3 (by decide))).trans (U7_launch m c main_arg3),
      (h c _ (mem_uc main_arg4 (by decide))).trans (U7_launch m c main_arg4),
      (h c _ (mem_uc main_arg5 (by decide))).trans (U7_launch m c main_arg5),
      (h c _ (mem_uc main_arg6 (by decide))).trans (U7_launch m c main_arg6),
      (h c _ (mem_uc main_arg7 (by decide))).trans (U7_launch m c main_arg7),
      (h c _ (mem_uc main_arg8 (by decide))).trans (U7_launch m c main_arg8),
      (h c _ (mem_uc main_arg9 (by decide))).trans (U7_launch m c main_arg9),
      (h c _ (mem_uc main_arg10 (by decide))).trans (U7_launch m c main_arg10),
      (h c _ (mem_uc main_arg11 (by decide))).trans (U7_launch m c main_arg11),
      (h c _ (mem_uc main_arg12 (by decide))).trans (U7_launch m c main_arg12),
      (h c _ (mem_uc main_arg13 (by decide))).trans (U7_launch m c main_arg13),
      (h c _ (mem_uc main_arg14 (by decide))).trans (U7_launch m c main_arg14),
      (h c _ (mem_uc main_arg15 (by decide))).trans (U7_launch m c main_arg15),
      (h c _ (mem_uc main_arg16 (by decide))).trans (U7_launch m c main_arg16)⟩)
    (run_all m ρ)

end Cert.Kernel.Run

end
-- ==== Proof.KernelIdeal.Pool0Defs.lean ====
import proofs.«419520_j38482906972438_2_alg».proof.Proof.Gen.KernelIdeal.Launch
import proofs.«419520_j38482906972438_2_alg».proof.Proof.Gen.KernelIdeal.Skeleton
import proofs.«419520_j38482906972438_2_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Pool0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scSum : Memref sig .tc .vmem S128x512 .f32 := Memref.whole cc0_scratch0
abbrev scCnt : Memref sig .tc .vmem S128x1 .f32 := Memref.whole cc0_scratch1

abbrev featBlk (c : Dev nD) (t : Fin cfg0.N) : Vec F S4096x512 .f32 := iblk V c 0 t
abbrev segBlk (c : Dev nD) (t : Fin cfg0.N) : Vec F S4096 .i32 := iblk V c 1 t

/-- The sum and count accumulators after point `n`: restarted from the zero fills where n % 16 = 0, else stepped from point n − 1. -/
def accAt (c : Dev nD) : (n : ℕ) → n < cfg0.N → Vec F S128x512 .f32 × Vec F S128x1 .f32
  | 0, hn => (k0_pay4 (featBlk V c ⟨0, hn⟩) (segBlk V c ⟨0, hn⟩) k0_pay1, k0_pay5 (segBlk V c ⟨0, hn⟩) k0_pay2)
  | n + 1, hn =>
    if (n + 1) % 16 = 0 then
      (k0_pay4 (featBlk V c ⟨n + 1, hn⟩) (segBlk V c ⟨n + 1, hn⟩) k0_pay1, k0_pay5 (segBlk V c ⟨n + 1, hn⟩) k0_pay2)
    else
      (k0_pay4 (featBlk V c ⟨n + 1, hn⟩) (segBlk V c ⟨n + 1, hn⟩) (accAt c n (Nat.lt_of_succ_lt hn)).1,
        k0_pay5 (segBlk V c ⟨n + 1, hn⟩) (accAt c n (Nat.lt_of_succ_lt hn)).2)

theorem accAt_reset (c : Dev nD) (t : Fin cfg0.N) (h : t.val % 16 = 0) :
    accAt V c t.val t.isLt = (k0_pay4 (featBlk V c t) (segBlk V c t) k0_pay1, k0_pay5 (segBlk V c t) k0_pay2) := by
  obtain ⟨n, hn⟩ := t
  cases n with
  | zero => rfl
  | succ n => exact if_pos h

theorem accAt_step (c : Dev nD) (t : Fin cfg0.N) (h : ¬ t.val % 16 = 0) :
    accAt V c t.val t.isLt
      = (k0_pay4 (featBlk V c t) (segBlk V c t) (accAt V c (t.val - 1) (Nat.lt_of_le_of_lt (Nat.sub_le _ _) t.isLt)).1,
         k0_pay5 (segBlk V c t) (accAt V c (t.val - 1) (Nat.lt_of_le_of_lt (Nat.sub_le _ _) t.isLt)).2) := by
  obtain ⟨n, hn⟩ := t
  cases n with
  | zero => exact absurd (Nat.zero_mod _) h
  | succ n => exact if_neg h

/-- The invariant once the accumulators hold `a`. -/
def PhiAcc (c : Dev nD) (a : Vec F S128x512 .f32 × Vec F S128x1 .f32) : sProp 𝕄 :=
  iprop(iprop(owns (c : Thread nD τ) scSum fullShare a.1 ∗ owns (c : Thread nD τ) scCnt fullShare a.2)
      ∗ Pipeline.scopedRestBut (Ix := Unit) (Name := ℕ) (U := UR sig nD τ) (Lvl := ℕ) (Val := Elt F) spec0 c [cc0_scratch0, cc0_scratch1]
      ∗ (∃ r, prngReg c r))

/-- The invariant before position `n`: the launch's before the first point, then the accumulators at what the point before left. -/
def PhiS (c : Dev nD) : (n : ℕ) → n ≤ cfg0.N → sProp 𝕄
  | 0, _ => Pipeline.ΦA spec0 c
  | n + 1, hn => PhiAcc c (accAt V c n hn)

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = PhiAcc c (accAt V c (n - 1) (by omega)) := by
  cases n with
  | zero => exact absurd rfl hz
  | succ n => rfl

/-- The region's proof data: inputs keep their blocks, each output receives its accumulator re-laid at the last inner coordinate. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay6 (accAt V c t.val t.isLt).1 := by dsimp only [dat]
theorem after_3 (c : Dev nD) (t : Fin cfg0.N) : (dat V c).after 3 t = k0_pay7 (accAt V c t.val t.isLt).2 := by dsimp only [dat]

end Cert.KernelIdeal.Pool0

end
-- ==== Proof.KernelIdeal.Pool0Runs.lean ====
import proofs.«419520_j38482906972438_2_alg».proof.Proof.KernelIdeal.Pool0Defs
import proofs.«419520_j38482906972438_2_alg».proof.Proof.Whole
import Idealize.ShloMosaic.Lib.Tactic
import Idealize.ShloMosaic.Lib.Pipeline.Value
import Idealize.ShloMosaic.Lib.WholeRead

set_option maxRecDepth 16384

noncomputable section

namespace Cert.KernelIdeal.Pool0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole

variable {F : FTy → Type} [FloatOps F]

local notation "𝕄" => MT nD τ sig Unit (Elt F) ℕ (UR sig nD τ) ℕ

/-- The body's first test: the inner grid coordinate is 0. -/
abbrev condReset (i : grid0.Coords) : Prop :=
  (Scalar.cmpi .ne (Scalar.extui (Scalar.cmpi .eq (BitVec.ofNat 32 (i 1).val) 0#32)) 0#32) = 1#1

/-- The body's second test: the inner grid coordinate is the last. -/
abbrev condStore (i : grid0.Coords) : Prop := k0_cond2 i = 1#1

set_option maxHeartbeats 8000000 in

/-- The body on six whole buffers: each accumulator restarts from its zero fill where the inner coordinate is 0, takes the block's contribution, and is copied over its output where the inner coordinate is the last. -/
theorem run_body (c : Dev nD) (i : grid0.Coords)
    (arg2 : Memref sig .tc .vmem S4096x512 .f32) (harg2 : arg2.IsWhole) (arg3 : Memref sig .tc .vmem S4096 .i32) (harg3 : arg3.IsWhole)
    (arg4 : Memref sig .tc .vmem S1x128x512 .f32) (harg4 : arg4.IsWhole) (arg5 : Memref sig .tc .vmem S1x128x1 .f32) (harg5 : arg5.IsWhole)
    (arg6 : Memref sig .tc .vmem S128x512 .f32) (harg6 : arg6.IsWhole) (arg7 : Memref sig .tc .vmem S128x1 .f32) (harg7 : arg7.IsWhole)
    (x0 : Vec F S4096x512 .f32) (x1 : Vec F S4096 .i32) (y0 : Vec F S1x128x512 .f32) (y1 : Vec F S1x128x1 .f32)
    (xs0 : Vec F S128x512 .f32) (xs1 : Vec F S128x1 .f32) (E : Set ℕ) (K : PUnit → sProp 𝕄) :
    iprop(owns (c : Thread nD τ) arg2 fullShare x0 ∗ owns (c : Thread nD τ) arg3 fullShare x1
        ∗ owns (c : Thread nD τ) arg4 fullShare y0 ∗ owns (c : Thread nD τ) arg5 fullShare y1
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare (if condStore i then k0_pay6 (k0_pay4 x0 x1 (if condReset i then k0_pay1 else xs0)) else y0)
            ∗ owns (c : Thread nD τ) arg5 fullShare (if condStore i then k0_pay7 (k0_pay5 x1 (if condReset i then k0_pay2 else xs1)) else y1)
            ∗ owns (c : Thread nD τ) arg6 fullShare (k0_pay4 x0 x1 (if condReset i then k0_pay1 else xs0)) ∗ owns (c : Thread nD τ) arg7 fullShare (k0_pay5 x1 (if condReset i then k0_pay2 else xs1))) -∗ K ⟨⟩))
      ⊢ wp frame (wpE (defs₀ (F := F)) Variants.none c none) E (cc0__lambda_ i arg2 harg2 arg3 harg3 arg4 harg4 arg5 harg5 arg6 harg6 arg7 harg7) K := by
  simp only [cc0__lambda__eq_skeleton]; unfold cc0__lambda__skel
  unfold owns
  iintro ⟨⟨%f0, %hf0, H0⟩, ⟨%f1, %hf1, H1⟩, ⟨%g0, %hg0, HO0⟩, ⟨%g1, %hg1, HO1⟩, ⟨%fs0, %hfs0, HS0⟩, ⟨%fs1, %hfs1, HS1⟩, Hk⟩
  obtain rfl := harg2.eq_unread hf0; obtain rfl := harg3.eq_unread hf1
  obtain rfl := harg4.eq_unread hg0; obtain rfl := harg5.eq_unread hg1
  obtain rfl := harg6.eq_unread hfs0; obtain rfl := harg7.eq_unread hfs1
  by_cases hc0 : condReset i <;> by_cases hc1 : condStore i <;>
  · (first | simp only [if_neg hc0] | simp only [if_pos hc0])
    (first | simp only [if_neg hc1] | simp only [if_pos hc1])
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [HO0]
    · iexists _; iframe HO0; ipureintro; (try sl_unfold_run_names)
      first
      | exact harg4.read_unread _
      | (rw [read_whole_stored _ _ zeros3, load_whole_stored _ zeros2, load_whole_unread _ _ zeros2, load_whole_unread _ _ zeros1]; first | rw [load_whole_stored _ zeros2] | rw [load_whole_unread _ _ zeros2])
      try rfl
    isplitl [HO1]
    · iexists _; iframe HO1; ipureintro; (try sl_unfold_run_names)
      first
      | exact harg5.read_unread _
      | (rw [read_whole_stored _ _ zeros3, load_whole_stored _ zeros2, load_whole_unread _ _ zeros1]; first | rw [load_whole_stored _ zeros2] | rw [load_whole_unread _ _ zeros2])
      try rfl
    isplitl [HS0]
    · iexists _; iframe HS0; ipureintro; (try sl_unfold_run_names)
      rw [read_whole_stored _ _ zeros2, load_whole_unread _ _ zeros2, load_whole_unread _ _ zeros1]; first | rw [load_whole_stored _ zeros2] | rw [load_whole_unread _ _ zeros2]
      try rfl
    · iexists _; iframe HS1; ipureintro; (try sl_unfold_run_names)
      rw [read_whole_stored _ _ zeros2, load_whole_unread _ _ zeros1]; first | rw [load_whole_stored _ zeros2] | rw [load_whole_unread _ _ zeros2]
      try rfl

end Cert.KernelIdeal.Pool0

end
-- ==== Proof.KernelIdeal.Pool0Frame.lean ====
import proofs.«419520_j38482906972438_2_alg».proof.Proof.KernelIdeal.Pool0Defs
import proofs.«419520_j38482906972438_2_alg».proof.Proof.KernelIdeal.Pool0Runs

set_option maxRecDepth 16384

noncomputable section

namespace Cert.KernelIdeal.Pool0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Pool0 (condReset condStore run_body)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondReset : ∀ t : Fin cfg0.N, condReset (grid0.coords t) ↔ t.val % 16 = 0 :=
  (by decide +kernel : ∀ t : Fin grid0.N, condReset (grid0.coords t) ↔ t.val % 16 = 0)

theorem hcondStore : ∀ t : Fin cfg0.N, condStore (grid0.coords t) ↔ t.val % 16 = 15 :=
  (by decide +kernel : ∀ t : Fin grid0.N, condStore (grid0.coords t) ↔ t.val % 16 = 15)

theorem live_a : ∀ t : Fin cfg0.N, cfg0.idle 0 (grid0.coords t) = false := by decide +kernel
theorem live_b : ∀ t : Fin cfg0.N, cfg0.idle 1 (grid0.coords t) = false := by decide +kernel
theorem idle_c : ∀ t : Fin cfg0.N, ¬t.val % 16 = 15 → cfg0.idle 2 (grid0.coords t) = true := by decide +kernel
theorem idle_d : ∀ t : Fin cfg0.N, ¬t.val % 16 = 15 → cfg0.idle 3 (grid0.coords t) = true := by decide +kernel
theorem live_c : ∀ t : Fin cfg0.N, t.val % 16 = 15 → cfg0.idle 2 (grid0.coords t) = false := by decide +kernel
theorem live_d : ∀ t : Fin cfg0.N, t.val % 16 = 15 → cfg0.idle 3 (grid0.coords t) = false := by decide +kernel
theorem noFlush_c : ∀ t : Fin cfg0.N, ¬t.val % 16 = 15 → (cfg0.win 2).flush t = false :=
  (by decide +kernel : ∀ t : Fin grid0.N, ¬t.val % 16 = 15 → win0_2.flush t = false)
theorem noFlush_d : ∀ t : Fin cfg0.N, ¬t.val % 16 = 15 → (cfg0.win 3).flush t = false :=
  (by decide +kernel : ∀ t : Fin grid0.N, ¬t.val % 16 = 15 → win0_3.flush t = false)

abbrev stA (t : Fin cfg0.N) : Memref sig .tc .vmem S4096x512 .f32 := win0_0.stage (cfg0.slots t 0)
abbrev hstA (t : Fin cfg0.N) : (stA t).IsWhole := hstage0_0 ((cfg0.slots t 0).cast nbuf0_0)
abbrev stB (t : Fin cfg0.N) : Memref sig .tc .vmem S4096 .i32 := win0_1.stage (cfg0.slots t 1)
abbrev hstB (t : Fin cfg0.N) : (stB t).IsWhole := hstage0_1 ((cfg0.slots t 1).cast nbuf0_1)
abbrev stC (t : Fin cfg0.N) : Memref sig .tc .vmem S1x128x512 .f32 := win0_2.stage (cfg0.slots t 2)
abbrev hstC (t : Fin cfg0.N) : (stC t).IsWhole := hstage0_2 ((cfg0.slots t 2).cast nbuf0_2)
abbrev stD (t : Fin cfg0.N) : Memref sig .tc .vmem S1x128x1 .f32 := win0_3.stage (cfg0.slots t 3)
abbrev hstD (t : Fin cfg0.N) : (stD t).IsWhole := hstage0_3 ((cfg0.slots t 3).cast nbuf0_3)

abbrev bodyPt (t : Fin cfg0.N) : Prog (TpuEff nD τ sig (Elt F) Λ₀ .tc) PUnit :=
  cc0__lambda_ (grid0.coords t) (stA t) (hstA t) (stB t) (hstB t) (stC t) (hstC t) (stD t) (hstD t)
    scSum (Memref.isWhole_whole _) scCnt (Memref.isWhole_whole _)

theorem PhiA_eq (c : Dev nD) :
    (Pipeline.ΦA spec0 c : sProp 𝕄)
      = iprop(iprop(iprop((∃ d, owns (c : Thread nD τ) scSum fullShare d) ∗ (∃ d, owns (c : Thread nD τ) scCnt fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scSum, scCnt, owns_whole]; try rfl

theorem before_a (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_b (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The invariant before any position yields what the launch handed over: named contents are forgotten. -/
theorem Phi_any (c : Dev nD) (t : Fin (cfg0.N + 1)) : (dat V c).Φ t ⊢ Pipeline.ΦA spec0 c := by
  rw [show (dat V c).Φ t = PhiS V c t.val (Nat.le_of_lt_succ t.isLt) from rfl]
  by_cases ht : t.val = 0
  · rw [PhiS_zero V c _ _ ht]
  rw [PhiS_pos V c _ _ ht, PhiA_eq]; unfold PhiAcc
  iintro ⟨⟨HS0, HS1⟩, HR, Hg⟩
  iframe HR Hg
  isplitl [HS0] <;> iexists _ <;> iassumption

def bodyPre (c : Dev nD) (t : Fin cfg0.N) : sProp 𝕄 :=
  iprop((dat V c).Φ t.castSucc ∗ (dat V c).owesAt () t.castSucc
    ∗ (∃ d, owns (c : Thread nD τ) (stA t) fullShare ((dat V c).before 0 t d))
    ∗ (∃ d, owns (c : Thread nD τ) (stB t) fullShare ((dat V c).before 1 t d))
    ∗ (∃ d, owns (c : Thread nD τ) (stC t) fullShare ((dat V c).before 2 t d))
    ∗ (∃ d, owns (c : Thread nD τ) (stD t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in

/-- The body at any point: the inner coordinate picks the run; the invariant lends the accumulators and takes them back at this point's accumulation. -/
theorem sound_body (c : Dev nD) (t : Fin cfg0.N) :
    bodyPre V c t ⊢ wp frame (wpE (defs₀ (F := F)) Variants.none c none) Set.univ (bodyPt t) (fun _ => bodyPost V c t) := by
  unfold bodyPre bodyPost bodyPt
  simp only [before_a, before_b]
  rw [show (dat V c).owesAt () t.succ = (dat V c).owesAt () t.castSucc from rfl]
  rw [show (dat V c).Φ t.succ = PhiAcc c (accAt V c t.val t.isLt) from rfl]
  rw [show (dat V c).leavesExact 0 t = owns (c : Thread nD τ) (stA t) fullShare ((dat V c).after 0 t) from by
    unfold Dat.leavesExact; rw [live_a t], after_0]
  rw [show (dat V c).leavesExact 1 t = owns (c : Thread nD τ) (stB t) fullShare ((dat V c).after 1 t) from by
    unfold Dat.leavesExact; rw [live_b t], after_1]
  by_cases h0 : t.val % 16 = 0
  · have h1 : ¬t.val % 16 = 15 := by omega
    rw [Dat.leavesExact_idle (dat V c) 2 t (idle_c t h1) (noFlush_c t h1),
      Dat.leavesExact_idle (dat V c) 3 t (idle_d t h1) (noFlush_d t h1)]
    rw [accAt_reset V c t h0]; unfold PhiAcc; dsimp only
    refine BIBase.Entails.trans (sep_mono_left (Phi_any V c t.castSucc)) ?_
    rw [PhiA_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run_body c (grid0.coords t) (stA t) (hstA t) (stB t) (hstB t) (stC t) (hstC t) (stD t) (hstD t) scSum (Memref.isWhole_whole _)
      scCnt (Memref.isWhole_whole _)
      (iblk V c 0 t) (iblk V c 1 t) _ _ s0 s1 Set.univ _)
    simp only [if_pos ((hcondReset t).mpr h0), if_neg (fun h => h1 ((hcondStore t).mp h))]
    iframe H0 H1 H2 H3 HS0 HS1
    iintro ⟨H0, H1, H2, H3, HS0, HS1⟩
    iframe HS0 HS1 HR Hg Ho H0 H1
    isplitl [H2] <;> iexists _ <;> iassumption
  · have hz : t.val ≠ 0 := by omega
    rw [PhiS_castSucc V c t, PhiS_pos V c _ _ hz, accAt_step V c t h0]; unfold PhiAcc; dsimp only
    by_cases h1 : t.val % 16 = 15
    · rw [show (dat V c).leavesExact 2 t = owns (c : Thread nD τ) (stC t) fullShare ((dat V c).after 2 t) from by
        unfold Dat.leavesExact; rw [live_c t h1], after_2]
      rw [show (dat V c).leavesExact 3 t = owns (c : Thread nD τ) (stD t) fullShare ((dat V c).after 3 t) from by
        unfold Dat.leavesExact; rw [live_d t h1], after_3]
      rw [accAt_step V c t h0]; dsimp only
      iintro ⟨⟨⟨HS0, HS1⟩, HR, Hg⟩, Ho, ⟨%d0, H0⟩, ⟨%d1, H1⟩, ⟨%d2, H2⟩, ⟨%d3, H3⟩⟩
      iapply (run_body c (grid0.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_pos ((hcondStore t).mpr h1)]
      iframe H0 H1 H2 H3 HS0 HS1
      iintro ⟨H0, H1, H2, H3, HS0, HS1⟩
      iframe
    · rw [Dat.leavesExact_idle (dat V c) 2 t (idle_c t h1) (noFlush_c t h1),
        Dat.leavesExact_idle (dat V c) 3 t (idle_d t h1) (noFlush_d t h1)]
      iintro ⟨⟨⟨HS0, HS1⟩, HR, Hg⟩, Ho, ⟨%d0, H0⟩, ⟨%d1, H1⟩, ⟨%d2, H2⟩, ⟨%d3, H3⟩⟩
      iapply (run_body c (grid0.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_neg (fun h => h1 ((hcondStore t).mp h))]
      iframe H0 H1 H2 H3 HS0 HS1
      iintro ⟨H0, H1, H2, H3, HS0, HS1⟩
      iframe HS0 HS1 HR Hg Ho H0 H1
      isplitl [H2] <;> iexists _ <;> iassumption

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]

theorem hout (c : Dev nD) : (dat V c).Φ (Fin.last cfg0.N) ⊢ Pipeline.ΦA spec0 c := Phi_any V c _

end Cert.KernelIdeal.Pool0

end
-- ==== Proof.KernelIdeal.Pool1Defs.lean ====
import proofs.«419520_j38482906972438_2_alg».proof.Proof.Gen.KernelIdeal.Launch
import proofs.«419520_j38482906972438_2_alg».proof.Proof.Gen.KernelIdeal.Skeleton
import proofs.«419520_j38482906972438_2_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Pool1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scSum : Memref sig .tc .vmem S128x512 .f32 := Memref.whole cc1_scratch0
abbrev scCnt : Memref sig .tc .vmem S128x1 .f32 := Memref.whole cc1_scratch1

abbrev featBlk (c : Dev nD) (t : Fin cfg1.N) : Vec F S4096x512 .f32 := iblk V c 0 t
abbrev segBlk (c : Dev nD) (t : Fin cfg1.N) : Vec F S4096 .i32 := iblk V c 1 t

/-- The sum and count accumulators after point `n`: restarted from the zero fills where n % 16 = 0, else stepped from point n − 1. -/
def accAt (c : Dev nD) : (n : ℕ) → n < cfg1.N → Vec F S128x512 .f32 × Vec F S128x1 .f32
  | 0, hn => (k0_pay4 (featBlk V c ⟨0, hn⟩) (segBlk V c ⟨0, hn⟩) k0_pay1, k0_pay5 (segBlk V c ⟨0, hn⟩) k0_pay2)
  | n + 1, hn =>
    if (n + 1) % 16 = 0 then
      (k0_pay4 (featBlk V c ⟨n + 1, hn⟩) (segBlk V c ⟨n + 1, hn⟩) k0_pay1, k0_pay5 (segBlk V c ⟨n + 1, hn⟩) k0_pay2)
    else
      (k0_pay4 (featBlk V c ⟨n + 1, hn⟩) (segBlk V c ⟨n + 1, hn⟩) (accAt c n (Nat.lt_of_succ_lt hn)).1,
        k0_pay5 (segBlk V c ⟨n + 1, hn⟩) (accAt c n (Nat.lt_of_succ_lt hn)).2)

theorem accAt_reset (c : Dev nD) (t : Fin cfg1.N) (h : t.val % 16 = 0) :
    accAt V c t.val t.isLt = (k0_pay4 (featBlk V c t) (segBlk V c t) k0_pay1, k0_pay5 (segBlk V c t) k0_pay2) := by
  obtain ⟨n, hn⟩ := t
  cases n with
  | zero => rfl
  | succ n => exact if_pos h

theorem accAt_step (c : Dev nD) (t : Fin cfg1.N) (h : ¬ t.val % 16 = 0) :
    accAt V c t.val t.isLt
      = (k0_pay4 (featBlk V c t) (segBlk V c t) (accAt V c (t.val - 1) (Nat.lt_of_le_of_lt (Nat.sub_le _ _) t.isLt)).1,
         k0_pay5 (segBlk V c t) (accAt V c (t.val - 1) (Nat.lt_of_le_of_lt (Nat.sub_le _ _) t.isLt)).2) := by
  obtain ⟨n, hn⟩ := t
  cases n with
  | zero => exact absurd (Nat.zero_mod _) h
  | succ n => exact if_neg h

/-- The invariant once the accumulators hold `a`. -/
def PhiAcc (c : Dev nD) (a : Vec F S128x512 .f32 × Vec F S128x1 .f32) : sProp 𝕄 :=
  iprop(iprop(owns (c : Thread nD τ) scSum fullShare a.1 ∗ owns (c : Thread nD τ) scCnt fullShare a.2)
      ∗ Pipeline.scopedRestBut (Ix := Unit) (Name := ℕ) (U := UR sig nD τ) (Lvl := ℕ) (Val := Elt F) spec1 c [cc1_scratch0, cc1_scratch1]
      ∗ (∃ r, prngReg c r))

/-- The invariant before position `n`: the launch's before the first point, then the accumulators at what the point before left. -/
def PhiS (c : Dev nD) : (n : ℕ) → n ≤ cfg1.N → sProp 𝕄
  | 0, _ => Pipeline.ΦA spec1 c
  | n + 1, hn => PhiAcc c (accAt V c n hn)

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = PhiAcc c (accAt V c (n - 1) (by omega)) := by
  cases n with
  | zero => exact absurd rfl hz
  | succ n => rfl

/-- The region's proof data: inputs keep their blocks, each output receives its accumulator re-laid at the last inner coordinate. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k0_pay6 (accAt V c t.val t.isLt).1 := by dsimp only [dat]
theorem after_3 (c : Dev nD) (t : Fin cfg1.N) : (dat V c).after 3 t = k0_pay7 (accAt V c t.val t.isLt).2 := by dsimp only [dat]

end Cert.KernelIdeal.Pool1

end
-- ==== Proof.KernelIdeal.Pool1Frame.lean ====
import proofs.«419520_j38482906972438_2_alg».proof.Proof.KernelIdeal.Pool1Defs
import proofs.«419520_j38482906972438_2_alg».proof.Proof.KernelIdeal.Pool0Runs

set_option maxRecDepth 16384

noncomputable section

namespace Cert.KernelIdeal.Pool1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Pool0 (condReset condStore run_body)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondReset : ∀ t : Fin cfg1.N, condReset (grid1.coords t) ↔ t.val % 16 = 0 :=
  (by decide +kernel : ∀ t : Fin grid1.N, condReset (grid1.coords t) ↔ t.val % 16 = 0)

theorem hcondStore : ∀ t : Fin cfg1.N, condStore (grid1.coords t) ↔ t.val % 16 = 15 :=
  (by decide +kernel : ∀ t : Fin grid1.N, condStore (grid1.coords t) ↔ t.val % 16 = 15)

theorem live_a : ∀ t : Fin cfg1.N, cfg1.idle 0 (grid1.coords t) = false := by decide +kernel
theorem live_b : ∀ t : Fin cfg1.N, cfg1.idle 1 (grid1.coords t) = false := by decide +kernel
theorem idle_c : ∀ t : Fin cfg1.N, ¬t.val % 16 = 15 → cfg1.idle 2 (grid1.coords t) = true := by decide +kernel
theorem idle_d : ∀ t : Fin cfg1.N, ¬t.val % 16 = 15 → cfg1.idle 3 (grid1.coords t) = true := by decide +kernel
theorem live_c : ∀ t : Fin cfg1.N, t.val % 16 = 15 → cfg1.idle 2 (grid1.coords t) = false := by decide +kernel
theorem live_d : ∀ t : Fin cfg1.N, t.val % 16 = 15 → cfg1.idle 3 (grid1.coords t) = false := by decide +kernel
theorem noFlush_c : ∀ t : Fin cfg1.N, ¬t.val % 16 = 15 → (cfg1.win 2).flush t = false :=
  (by decide +kernel : ∀ t : Fin grid1.N, ¬t.val % 16 = 15 → win1_2.flush t = false)
theorem noFlush_d : ∀ t : Fin cfg1.N, ¬t.val % 16 = 15 → (cfg1.win 3).flush t = false :=
  (by decide +kernel : ∀ t : Fin grid1.N, ¬t.val % 16 = 15 → win1_3.flush t = false)

abbrev stA (t : Fin cfg1.N) : Memref sig .tc .vmem S4096x512 .f32 := win1_0.stage (cfg1.slots t 0)
abbrev hstA (t : Fin cfg1.N) : (stA t).IsWhole := hstage1_0 ((cfg1.slots t 0).cast nbuf1_0)
abbrev stB (t : Fin cfg1.N) : Memref sig .tc .vmem S4096 .i32 := win1_1.stage (cfg1.slots t 1)
abbrev hstB (t : Fin cfg1.N) : (stB t).IsWhole := hstage1_1 ((cfg1.slots t 1).cast nbuf1_1)
abbrev stC (t : Fin cfg1.N) : Memref sig .tc .vmem S1x128x512 .f32 := win1_2.stage (cfg1.slots t 2)
abbrev hstC (t : Fin cfg1.N) : (stC t).IsWhole := hstage1_2 ((cfg1.slots t 2).cast nbuf1_2)
abbrev stD (t : Fin cfg1.N) : Memref sig .tc .vmem S1x128x1 .f32 := win1_3.stage (cfg1.slots t 3)
abbrev hstD (t : Fin cfg1.N) : (stD t).IsWhole := hstage1_3 ((cfg1.slots t 3).cast nbuf1_3)

abbrev bodyPt (t : Fin cfg1.N) : Prog (TpuEff nD τ sig (Elt F) Λ₀ .tc) PUnit :=
  cc1__lambda_ (grid1.coords t) (stA t) (hstA t) (stB t) (hstB t) (stC t) (hstC t) (stD t) (hstD t)
    scSum (Memref.isWhole_whole _) scCnt (Memref.isWhole_whole _)

theorem PhiA_eq (c : Dev nD) :
    (Pipeline.ΦA spec1 c : sProp 𝕄)
      = iprop(iprop(iprop((∃ d, owns (c : Thread nD τ) scSum fullShare d) ∗ (∃ d, owns (c : Thread nD τ) scCnt fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scSum, scCnt, owns_whole]; try rfl

theorem before_a (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_b (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The invariant before any position yields what the launch handed over: named contents are forgotten. -/
theorem Phi_any (c : Dev nD) (t : Fin (cfg1.N + 1)) : (dat V c).Φ t ⊢ Pipeline.ΦA spec1 c := by
  rw [show (dat V c).Φ t = PhiS V c t.val (Nat.le_of_lt_succ t.isLt) from rfl]
  by_cases ht : t.val = 0
  · rw [PhiS_zero V c _ _ ht]
  rw [PhiS_pos V c _ _ ht, PhiA_eq]; unfold PhiAcc
  iintro ⟨⟨HS0, HS1⟩, HR, Hg⟩
  iframe HR Hg
  isplitl [HS0] <;> iexists _ <;> iassumption

def bodyPre (c : Dev nD) (t : Fin cfg1.N) : sProp 𝕄 :=
  iprop((dat V c).Φ t.castSucc ∗ (dat V c).owesAt () t.castSucc
    ∗ (∃ d, owns (c : Thread nD τ) (stA t) fullShare ((dat V c).before 0 t d))
    ∗ (∃ d, owns (c : Thread nD τ) (stB t) fullShare ((dat V c).before 1 t d))
    ∗ (∃ d, owns (c : Thread nD τ) (stC t) fullShare ((dat V c).before 2 t d))
    ∗ (∃ d, owns (c : Thread nD τ) (stD t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in

/-- The body at any point: the inner coordinate picks the run; the invariant lends the accumulators and takes them back at this point's accumulation. -/
theorem sound_body (c : Dev nD) (t : Fin cfg1.N) :
    bodyPre V c t ⊢ wp frame (wpE (defs₀ (F := F)) Variants.none c none) Set.univ (bodyPt t) (fun _ => bodyPost V c t) := by
  unfold bodyPre bodyPost bodyPt
  simp only [before_a, before_b]
  rw [show (dat V c).owesAt () t.succ = (dat V c).owesAt () t.castSucc from rfl]
  rw [show (dat V c).Φ t.succ = PhiAcc c (accAt V c t.val t.isLt) from rfl]
  rw [show (dat V c).leavesExact 0 t = owns (c : Thread nD τ) (stA t) fullShare ((dat V c).after 0 t) from by
    unfold Dat.leavesExact; rw [live_a t], after_0]
  rw [show (dat V c).leavesExact 1 t = owns (c : Thread nD τ) (stB t) fullShare ((dat V c).after 1 t) from by
    unfold Dat.leavesExact; rw [live_b t], after_1]
  by_cases h0 : t.val % 16 = 0
  · have h1 : ¬t.val % 16 = 15 := by omega
    rw [Dat.leavesExact_idle (dat V c) 2 t (idle_c t h1) (noFlush_c t h1),
      Dat.leavesExact_idle (dat V c) 3 t (idle_d t h1) (noFlush_d t h1)]
    rw [accAt_reset V c t h0]; unfold PhiAcc; dsimp only
    refine BIBase.Entails.trans (sep_mono_left (Phi_any V c t.castSucc)) ?_
    rw [PhiA_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run_body c (grid1.coords t) (stA t) (hstA t) (stB t) (hstB t) (stC t) (hstC t) (stD t) (hstD t) scSum (Memref.isWhole_whole _)
      scCnt (Memref.isWhole_whole _)
      (iblk V c 0 t) (iblk V c 1 t) _ _ s0 s1 Set.univ _)
    simp only [if_pos ((hcondReset t).mpr h0), if_neg (fun h => h1 ((hcondStore t).mp h))]
    iframe H0 H1 H2 H3 HS0 HS1
    iintro ⟨H0, H1, H2, H3, HS0, HS1⟩
    iframe HS0 HS1 HR Hg Ho H0 H1
    isplitl [H2] <;> iexists _ <;> iassumption
  · have hz : t.val ≠ 0 := by omega
    rw [PhiS_castSucc V c t, PhiS_pos V c _ _ hz, accAt_step V c t h0]; unfold PhiAcc; dsimp only
    by_cases h1 : t.val % 16 = 15
    · rw [show (dat V c).leavesExact 2 t = owns (c : Thread nD τ) (stC t) fullShare ((dat V c).after 2 t) from by
        unfold Dat.leavesExact; rw [live_c t h1], after_2]
      rw [show (dat V c).leavesExact 3 t = owns (c : Thread nD τ) (stD t) fullShare ((dat V c).after 3 t) from by
        unfold Dat.leavesExact; rw [live_d t h1], after_3]
      rw [accAt_step V c t h0]; dsimp only
      iintro ⟨⟨⟨HS0, HS1⟩, HR, Hg⟩, Ho, ⟨%d0, H0⟩, ⟨%d1, H1⟩, ⟨%d2, H2⟩, ⟨%d3, H3⟩⟩
      iapply (run_body c (grid1.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_pos ((hcondStore t).mpr h1)]
      iframe H0 H1 H2 H3 HS0 HS1
      iintro ⟨H0, H1, H2, H3, HS0, HS1⟩
      iframe
    · rw [Dat.leavesExact_idle (dat V c) 2 t (idle_c t h1) (noFlush_c t h1),
        Dat.leavesExact_idle (dat V c) 3 t (idle_d t h1) (noFlush_d t h1)]
      iintro ⟨⟨⟨HS0, HS1⟩, HR, Hg⟩, Ho, ⟨%d0, H0⟩, ⟨%d1, H1⟩, ⟨%d2, H2⟩, ⟨%d3, H3⟩⟩
      iapply (run_body c (grid1.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_neg (fun h => h1 ((hcondStore t).mp h))]
      iframe H0 H1 H2 H3 HS0 HS1
      iintro ⟨H0, H1, H2, H3, HS0, HS1⟩
      iframe HS0 HS1 HR Hg Ho H0 H1
      isplitl [H2] <;> iexists _ <;> iassumption

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]

theorem hout (c : Dev nD) : (dat V c).Φ (Fin.last cfg1.N) ⊢ Pipeline.ΦA spec1 c := Phi_any V c _

end Cert.KernelIdeal.Pool1

end
-- ==== Proof.KernelIdeal.Pool2Defs.lean ====
import proofs.«419520_j38482906972438_2_alg».proof.Proof.Gen.KernelIdeal.Launch
import proofs.«419520_j38482906972438_2_alg».proof.Proof.Gen.KernelIdeal.Skeleton
import proofs.«419520_j38482906972438_2_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Pool2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scSum : Memref sig .tc .vmem S128x512 .f32 := Memref.whole cc2_scratch0
abbrev scCnt : Memref sig .tc .vmem S128x1 .f32 := Memref.whole cc2_scratch1

abbrev featBlk (c : Dev nD) (t : Fin cfg2.N) : Vec F S4096x512 .f32 := iblk V c 0 t
abbrev segBlk (c : Dev nD) (t : Fin cfg2.N) : Vec F S4096 .i32 := iblk V c 1 t

/-- The sum and count accumulators after point `n`: restarted from the zero fills where n % 32 = 0, else stepped from point n − 1. -/
def accAt (c : Dev nD) : (n : ℕ) → n < cfg2.N → Vec F S128x512 .f32 × Vec F S128x1 .f32
  | 0, hn => (k0_pay4 (featBlk V c ⟨0, hn⟩) (segBlk V c ⟨0, hn⟩) k0_pay1, k0_pay5 (segBlk V c ⟨0, hn⟩) k0_pay2)
  | n + 1, hn =>
    if (n + 1) % 32 = 0 then
      (k0_pay4 (featBlk V c ⟨n + 1, hn⟩) (segBlk V c ⟨n + 1, hn⟩) k0_pay1, k0_pay5 (segBlk V c ⟨n + 1, hn⟩) k0_pay2)
    else
      (k0_pay4 (featBlk V c ⟨n + 1, hn⟩) (segBlk V c ⟨n + 1, hn⟩) (accAt c n (Nat.lt_of_succ_lt hn)).1,
        k0_pay5 (segBlk V c ⟨n + 1, hn⟩) (accAt c n (Nat.lt_of_succ_lt hn)).2)

theorem accAt_reset (c : Dev nD) (t : Fin cfg2.N) (h : t.val % 32 = 0) :
    accAt V c t.val t.isLt = (k0_pay4 (featBlk V c t) (segBlk V c t) k0_pay1, k0_pay5 (segBlk V c t) k0_pay2) := by
  obtain ⟨n, hn⟩ := t
  cases n with
  | zero => rfl
  | succ n => exact if_pos h

theorem accAt_step (c : Dev nD) (t : Fin cfg2.N) (h : ¬ t.val % 32 = 0) :
    accAt V c t.val t.isLt
      = (k0_pay4 (featBlk V c t) (segBlk V c t) (accAt V c (t.val - 1) (Nat.lt_of_le_of_lt (Nat.sub_le _ _) t.isLt)).1,
         k0_pay5 (segBlk V c t) (accAt V c (t.val - 1) (Nat.lt_of_le_of_lt (Nat.sub_le _ _) t.isLt)).2) := by
  obtain ⟨n, hn⟩ := t
  cases n with
  | zero => exact absurd (Nat.zero_mod _) h
  | succ n => exact if_neg h

/-- The invariant once the accumulators hold `a`. -/
def PhiAcc (c : Dev nD) (a : Vec F S128x512 .f32 × Vec F S128x1 .f32) : sProp 𝕄 :=
  iprop(iprop(owns (c : Thread nD τ) scSum fullShare a.1 ∗ owns (c : Thread nD τ) scCnt fullShare a.2)
      ∗ Pipeline.scopedRestBut (Ix := Unit) (Name := ℕ) (U := UR sig nD τ) (Lvl := ℕ) (Val := Elt F) spec2 c [cc2_scratch0, cc2_scratch1]
      ∗ (∃ r, prngReg c r))

/-- The invariant before position `n`: the launch's before the first point, then the accumulators at what the point before left. -/
def PhiS (c : Dev nD) : (n : ℕ) → n ≤ cfg2.N → sProp 𝕄
  | 0, _ => Pipeline.ΦA spec2 c
  | n + 1, hn => PhiAcc c (accAt V c n hn)

theorem PhiS_zero (c : Dev nD) (n : ℕ) (h : n ≤ cfg2.N) (hz : n = 0) : PhiS V c n h = Pipeline.ΦA spec2 c := by
  subst hz; rfl

theorem PhiS_pos (c : Dev nD) (n : ℕ) (h : n ≤ cfg2.N) (hz : n ≠ 0) :
    PhiS V c n h = PhiAcc c (accAt V c (n - 1) (by omega)) := by
  cases n with
  | zero => exact absurd rfl hz
  | succ n => rfl

/-- The region's proof data: inputs keep their blocks, each output receives its accumulator re-laid at the last inner coordinate. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = k0_pay6 (accAt V c t.val t.isLt).1 := by dsimp only [dat]
theorem after_3 (c : Dev nD) (t : Fin cfg2.N) : (dat V c).after 3 t = k0_pay7 (accAt V c t.val t.isLt).2 := by dsimp only [dat]

end Cert.KernelIdeal.Pool2

end
-- ==== Proof.KernelIdeal.Pool2Runs.lean ====
import proofs.«419520_j38482906972438_2_alg».proof.Proof.KernelIdeal.Pool2Defs
import proofs.«419520_j38482906972438_2_alg».proof.Proof.Whole
import Idealize.ShloMosaic.Lib.Tactic
import Idealize.ShloMosaic.Lib.Pipeline.Value
import Idealize.ShloMosaic.Lib.WholeRead

set_option maxRecDepth 16384

noncomputable section

namespace Cert.KernelIdeal.Pool2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole

variable {F : FTy → Type} [FloatOps F]

local notation "𝕄" => MT nD τ sig Unit (Elt F) ℕ (UR sig nD τ) ℕ

/-- The body's first test: the inner grid coordinate is 0. -/
abbrev condReset (i : grid2.Coords) : Prop :=
  (Scalar.cmpi .ne (Scalar.extui (Scalar.cmpi .eq (BitVec.ofNat 32 (i 1).val) 0#32)) 0#32) = 1#1

/-- The body's second test: the inner grid coordinate is the last. -/
abbrev condStore (i : grid2.Coords) : Prop := k2_cond2 i = 1#1

set_option maxHeartbeats 8000000 in

/-- The body on six whole buffers: each accumulator restarts from its zero fill where the inner coordinate is 0, takes the block's contribution, and is copied over its output where the inner coordinate is the last. -/
theorem run_body (c : Dev nD) (i : grid2.Coords)
    (arg2 : Memref sig .tc .vmem S4096x512 .f32) (harg2 : arg2.IsWhole) (arg3 : Memref sig .tc .vmem S4096 .i32) (harg3 : arg3.IsWhole)
    (arg4 : Memref sig .tc .vmem S1x128x512 .f32) (harg4 : arg4.IsWhole) (arg5 : Memref sig .tc .vmem S1x128x1 .f32) (harg5 : arg5.IsWhole)
    (arg6 : Memref sig .tc .vmem S128x512 .f32) (harg6 : arg6.IsWhole) (arg7 : Memref sig .tc .vmem S128x1 .f32) (harg7 : arg7.IsWhole)
    (x0 : Vec F S4096x512 .f32) (x1 : Vec F S4096 .i32) (y0 : Vec F S1x128x512 .f32) (y1 : Vec F S1x128x1 .f32)
    (xs0 : Vec F S128x512 .f32) (xs1 : Vec F S128x1 .f32) (E : Set ℕ) (K : PUnit → sProp 𝕄) :
    iprop(owns (c : Thread nD τ) arg2 fullShare x0 ∗ owns (c : Thread nD τ) arg3 fullShare x1
        ∗ owns (c : Thread nD τ) arg4 fullShare y0 ∗ owns (c : Thread nD τ) arg5 fullShare y1
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare (if condStore i then k0_pay6 (k0_pay4 x0 x1 (if condReset i then k0_pay1 else xs0)) else y0)
            ∗ owns (c : Thread nD τ) arg5 fullShare (if condStore i then k0_pay7 (k0_pay5 x1 (if condReset i then k0_pay2 else xs1)) else y1)
            ∗ owns (c : Thread nD τ) arg6 fullShare (k0_pay4 x0 x1 (if condReset i then k0_pay1 else xs0)) ∗ owns (c : Thread nD τ) arg7 fullShare (k0_pay5 x1 (if condReset i then k0_pay2 else xs1))) -∗ K ⟨⟩))
      ⊢ wp frame (wpE (defs₀ (F := F)) Variants.none c none) E (cc2__lambda_ i arg2 harg2 arg3 harg3 arg4 harg4 arg5 harg5 arg6 harg6 arg7 harg7) K := by
  simp only [cc2__lambda__eq_skeleton]; unfold cc2__lambda__skel
  unfold owns
  iintro ⟨⟨%f0, %hf0, H0⟩, ⟨%f1, %hf1, H1⟩, ⟨%g0, %hg0, HO0⟩, ⟨%g1, %hg1, HO1⟩, ⟨%fs0, %hfs0, HS0⟩, ⟨%fs1, %hfs1, HS1⟩, Hk⟩
  obtain rfl := harg2.eq_unread hf0; obtain rfl := harg3.eq_unread hf1
  obtain rfl := harg4.eq_unread hg0; obtain rfl := harg5.eq_unread hg1
  obtain rfl := harg6.eq_unread hfs0; obtain rfl := harg7.eq_unread hfs1
  by_cases hc0 : condReset i <;> by_cases hc1 : condStore i <;>
  · (first | simp only [if_neg hc0] | simp only [if_pos hc0])
    (first | simp only [if_neg hc1] | simp only [if_pos hc1])
    sl_exec (disch := first | exact hc0 | exact hc1)
    sl_step
    iapply Hk
    isplitl [H0]; · iexists _; iframe H0; ipureintro; exact harg2.read_unread _
    isplitl [H1]; · iexists _; iframe H1; ipureintro; exact harg3.read_unread _
    isplitl [HO0]
    · iexists _; iframe HO0; ipureintro; (try sl_unfold_run_names)
      first
      | exact harg4.read_unread _
      | (rw [read_whole_stored _ _ zeros3, load_whole_stored _ zeros2, load_whole_unread _ _ zeros2, load_whole_unread _ _ zeros1]; first | rw [load_whole_stored _ zeros2] | rw [load_whole_unread _ _ zeros2])
      try rfl
    isplitl [HO1]
    · iexists _; iframe HO1; ipureintro; (try sl_unfold_run_names)
      first
      | exact harg5.read_unread _
      | (rw [read_whole_stored _ _ zeros3, load_whole_stored _ zeros2, load_whole_unread _ _ zeros1]; first | rw [load_whole_stored _ zeros2] | rw [load_whole_unread _ _ zeros2])
      try rfl
    isplitl [HS0]
    · iexists _; iframe HS0; ipureintro; (try sl_unfold_run_names)
      rw [read_whole_stored _ _ zeros2, load_whole_unread _ _ zeros2, load_whole_unread _ _ zeros1]; first | rw [load_whole_stored _ zeros2] | rw [load_whole_unread _ _ zeros2]
      try rfl
    · iexists _; iframe HS1; ipureintro; (try sl_unfold_run_names)
      rw [read_whole_stored _ _ zeros2, load_whole_unread _ _ zeros1]; first | rw [load_whole_stored _ zeros2] | rw [load_whole_unread _ _ zeros2]
      try rfl

end Cert.KernelIdeal.Pool2

end
-- ==== Proof.KernelIdeal.Pool2Frame.lean ====
import proofs.«419520_j38482906972438_2_alg».proof.Proof.KernelIdeal.Pool2Defs
import proofs.«419520_j38482906972438_2_alg».proof.Proof.KernelIdeal.Pool2Runs

set_option maxRecDepth 16384

noncomputable section

namespace Cert.KernelIdeal.Pool2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Pool2 (condReset condStore run_body)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondReset : ∀ t : Fin cfg2.N, condReset (grid2.coords t) ↔ t.val % 32 = 0 :=
  (by decide +kernel : ∀ t : Fin grid2.N, condReset (grid2.coords t) ↔ t.val % 32 = 0)

theorem hcondStore : ∀ t : Fin cfg2.N, condStore (grid2.coords t) ↔ t.val % 32 = 31 :=
  (by decide +kernel : ∀ t : Fin grid2.N, condStore (grid2.coords t) ↔ t.val % 32 = 31)

theorem live_a : ∀ t : Fin cfg2.N, cfg2.idle 0 (grid2.coords t) = false := by decide +kernel
theorem live_b : ∀ t : Fin cfg2.N, cfg2.idle 1 (grid2.coords t) = false := by decide +kernel
theorem idle_c : ∀ t : Fin cfg2.N, ¬t.val % 32 = 31 → cfg2.idle 2 (grid2.coords t) = true := by decide +kernel
theorem idle_d : ∀ t : Fin cfg2.N, ¬t.val % 32 = 31 → cfg2.idle 3 (grid2.coords t) = true := by decide +kernel
theorem live_c : ∀ t : Fin cfg2.N, t.val % 32 = 31 → cfg2.idle 2 (grid2.coords t) = false := by decide +kernel
theorem live_d : ∀ t : Fin cfg2.N, t.val % 32 = 31 → cfg2.idle 3 (grid2.coords t) = false := by decide +kernel
theorem noFlush_c : ∀ t : Fin cfg2.N, ¬t.val % 32 = 31 → (cfg2.win 2).flush t = false :=
  (by decide +kernel : ∀ t : Fin grid2.N, ¬t.val % 32 = 31 → win2_2.flush t = false)
theorem noFlush_d : ∀ t : Fin cfg2.N, ¬t.val % 32 = 31 → (cfg2.win 3).flush t = false :=
  (by decide +kernel : ∀ t : Fin grid2.N, ¬t.val % 32 = 31 → win2_3.flush t = false)

abbrev stA (t : Fin cfg2.N) : Memref sig .tc .vmem S4096x512 .f32 := win2_0.stage (cfg2.slots t 0)
abbrev hstA (t : Fin cfg2.N) : (stA t).IsWhole := hstage2_0 ((cfg2.slots t 0).cast nbuf2_0)
abbrev stB (t : Fin cfg2.N) : Memref sig .tc .vmem S4096 .i32 := win2_1.stage (cfg2.slots t 1)
abbrev hstB (t : Fin cfg2.N) : (stB t).IsWhole := hstage2_1 ((cfg2.slots t 1).cast nbuf2_1)
abbrev stC (t : Fin cfg2.N) : Memref sig .tc .vmem S1x128x512 .f32 := win2_2.stage (cfg2.slots t 2)
abbrev hstC (t : Fin cfg2.N) : (stC t).IsWhole := hstage2_2 ((cfg2.slots t 2).cast nbuf2_2)
abbrev stD (t : Fin cfg2.N) : Memref sig .tc .vmem S1x128x1 .f32 := win2_3.stage (cfg2.slots t 3)
abbrev hstD (t : Fin cfg2.N) : (stD t).IsWhole := hstage2_3 ((cfg2.slots t 3).cast nbuf2_3)

abbrev bodyPt (t : Fin cfg2.N) : Prog (TpuEff nD τ sig (Elt F) Λ₀ .tc) PUnit :=
  cc2__lambda_ (grid2.coords t) (stA t) (hstA t) (stB t) (hstB t) (stC t) (hstC t) (stD t) (hstD t)
    scSum (Memref.isWhole_whole _) scCnt (Memref.isWhole_whole _)

theorem PhiA_eq (c : Dev nD) :
    (Pipeline.ΦA spec2 c : sProp 𝕄)
      = iprop(iprop(iprop((∃ d, owns (c : Thread nD τ) scSum fullShare d) ∗ (∃ d, owns (c : Thread nD τ) scCnt fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scSum, scCnt, owns_whole]; try rfl

theorem before_a (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_b (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The invariant before any position yields what the launch handed over: named contents are forgotten. -/
theorem Phi_any (c : Dev nD) (t : Fin (cfg2.N + 1)) : (dat V c).Φ t ⊢ Pipeline.ΦA spec2 c := by
  rw [show (dat V c).Φ t = PhiS V c t.val (Nat.le_of_lt_succ t.isLt) from rfl]
  by_cases ht : t.val = 0
  · rw [PhiS_zero V c _ _ ht]
  rw [PhiS_pos V c _ _ ht, PhiA_eq]; unfold PhiAcc
  iintro ⟨⟨HS0, HS1⟩, HR, Hg⟩
  iframe HR Hg
  isplitl [HS0] <;> iexists _ <;> iassumption

def bodyPre (c : Dev nD) (t : Fin cfg2.N) : sProp 𝕄 :=
  iprop((dat V c).Φ t.castSucc ∗ (dat V c).owesAt () t.castSucc
    ∗ (∃ d, owns (c : Thread nD τ) (stA t) fullShare ((dat V c).before 0 t d))
    ∗ (∃ d, owns (c : Thread nD τ) (stB t) fullShare ((dat V c).before 1 t d))
    ∗ (∃ d, owns (c : Thread nD τ) (stC t) fullShare ((dat V c).before 2 t d))
    ∗ (∃ d, owns (c : Thread nD τ) (stD t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in

/-- The body at any point: the inner coordinate picks the run; the invariant lends the accumulators and takes them back at this point's accumulation. -/
theorem sound_body (c : Dev nD) (t : Fin cfg2.N) :
    bodyPre V c t ⊢ wp frame (wpE (defs₀ (F := F)) Variants.none c none) Set.univ (bodyPt t) (fun _ => bodyPost V c t) := by
  unfold bodyPre bodyPost bodyPt
  simp only [before_a, before_b]
  rw [show (dat V c).owesAt () t.succ = (dat V c).owesAt () t.castSucc from rfl]
  rw [show (dat V c).Φ t.succ = PhiAcc c (accAt V c t.val t.isLt) from rfl]
  rw [show (dat V c).leavesExact 0 t = owns (c : Thread nD τ) (stA t) fullShare ((dat V c).after 0 t) from by
    unfold Dat.leavesExact; rw [live_a t], after_0]
  rw [show (dat V c).leavesExact 1 t = owns (c : Thread nD τ) (stB t) fullShare ((dat V c).after 1 t) from by
    unfold Dat.leavesExact; rw [live_b t], after_1]
  by_cases h0 : t.val % 32 = 0
  · have h1 : ¬t.val % 32 = 31 := by omega
    rw [Dat.leavesExact_idle (dat V c) 2 t (idle_c t h1) (noFlush_c t h1),
      Dat.leavesExact_idle (dat V c) 3 t (idle_d t h1) (noFlush_d t h1)]
    rw [accAt_reset V c t h0]; unfold PhiAcc; dsimp only
    refine BIBase.Entails.trans (sep_mono_left (Phi_any V c t.castSucc)) ?_
    rw [PhiA_eq]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run_body c (grid2.coords t) (stA t) (hstA t) (stB t) (hstB t) (stC t) (hstC t) (stD t) (hstD t) scSum (Memref.isWhole_whole _)
      scCnt (Memref.isWhole_whole _)
      (iblk V c 0 t) (iblk V c 1 t) _ _ s0 s1 Set.univ _)
    simp only [if_pos ((hcondReset t).mpr h0), if_neg (fun h => h1 ((hcondStore t).mp h))]
    iframe H0 H1 H2 H3 HS0 HS1
    iintro ⟨H0, H1, H2, H3, HS0, HS1⟩
    iframe HS0 HS1 HR Hg Ho H0 H1
    isplitl [H2] <;> iexists _ <;> iassumption
  · have hz : t.val ≠ 0 := by omega
    rw [PhiS_castSucc V c t, PhiS_pos V c _ _ hz, accAt_step V c t h0]; unfold PhiAcc; dsimp only
    by_cases h1 : t.val % 32 = 31
    · rw [show (dat V c).leavesExact 2 t = owns (c : Thread nD τ) (stC t) fullShare ((dat V c).after 2 t) from by
        unfold Dat.leavesExact; rw [live_c t h1], after_2]
      rw [show (dat V c).leavesExact 3 t = owns (c : Thread nD τ) (stD t) fullShare ((dat V c).after 3 t) from by
        unfold Dat.leavesExact; rw [live_d t h1], after_3]
      rw [accAt_step V c t h0]; dsimp only
      iintro ⟨⟨⟨HS0, HS1⟩, HR, Hg⟩, Ho, ⟨%d0, H0⟩, ⟨%d1, H1⟩, ⟨%d2, H2⟩, ⟨%d3, H3⟩⟩
      iapply (run_body c (grid2.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_pos ((hcondStore t).mpr h1)]
      iframe H0 H1 H2 H3 HS0 HS1
      iintro ⟨H0, H1, H2, H3, HS0, HS1⟩
      iframe
    · rw [Dat.leavesExact_idle (dat V c) 2 t (idle_c t h1) (noFlush_c t h1),
        Dat.leavesExact_idle (dat V c) 3 t (idle_d t h1) (noFlush_d t h1)]
      iintro ⟨⟨⟨HS0, HS1⟩, HR, Hg⟩, Ho, ⟨%d0, H0⟩, ⟨%d1, H1⟩, ⟨%d2, H2⟩, ⟨%d3, H3⟩⟩
      iapply (run_body c (grid2.coords t) (stA t) (hstA t) (stB t) (hstB t) (stC t) (hstC t) (stD t) (hstD t) scSum (Memref.isWhole_whole _)
      scCnt (Memref.isWhole_whole _)
        (iblk V c 0 t) (iblk V c 1 t) _ _ _ _ Set.univ _)
      simp only [if_neg (fun h => h0 ((hcondReset t).mp h)), if_neg (fun h => h1 ((hcondStore t).mp h))]
      iframe H0 H1 H2 H3 HS0 HS1
      iintro ⟨H0, H1, H2, H3, HS0, HS1⟩
      iframe HS0 HS1 HR Hg Ho H0 H1
      isplitl [H2] <;> iexists _ <;> iassumption

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]

theorem hout (c : Dev nD) : (dat V c).Φ (Fin.last cfg2.N) ⊢ Pipeline.ΦA spec2 c := Phi_any V c _

end Cert.KernelIdeal.Pool2

end
-- ==== Proof.KernelIdeal.HeadDefs.lean ====
import proofs.«419520_j38482906972438_2_alg».proof.Proof.Gen.KernelIdeal.Launch
import proofs.«419520_j38482906972438_2_alg».proof.Proof.Gen.KernelIdeal.Skeleton
import proofs.«419520_j38482906972438_2_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev qBlk (c : Dev nD) (t : Fin cfg3.N) : Vec F S128x1024 .bf16 := iblk V c 0 t
abbrev imgNodeBlk (c : Dev nD) (t : Fin cfg3.N) : Vec F S128x512 .f32 := iblk V c 1 t
abbrev kgNodeBlk (c : Dev nD) (t : Fin cfg3.N) : Vec F S128x512 .f32 := iblk V c 2 t
abbrev imgEdgeBlk (c : Dev nD) (t : Fin cfg3.N) : Vec F S128x512 .f32 := iblk V c 3 t
abbrev wqe (c : Dev nD) (t : Fin cfg3.N) : Vec F S1024x512 .bf16 := iblk V c 4 t
abbrev bqe (c : Dev nD) (t : Fin cfg3.N) : Vec F S512 .f32 := iblk V c 5 t
abbrev wqn (c : Dev nD) (t : Fin cfg3.N) : Vec F S1024x512 .bf16 := iblk V c 6 t
abbrev bqn (c : Dev nD) (t : Fin cfg3.N) : Vec F S512 .f32 := iblk V c 7 t
abbrev w1 (c : Dev nD) (t : Fin cfg3.N) : Vec F S1024x2048 .bf16 := iblk V c 8 t
abbrev b1 (c : Dev nD) (t : Fin cfg3.N) : Vec F S2048 .f32 := iblk V c 9 t
abbrev w2 (c : Dev nD) (t : Fin cfg3.N) : Vec F S2048x3129 .bf16 := iblk V c 10 t
abbrev b2 (c : Dev nD) (t : Fin cfg3.N) : Vec F S3129 .f32 := iblk V c 11 t

/-- The value the head's body stores: its two payloads applied to the twelve input blocks. -/
def outBlk (c : Dev nD) (t : Fin cfg3.N) : Vec F S128x3129 .f32 :=
  k3_pay1
    (k3_pay2 (qBlk V c t) (wqe V c t) (bqe V c t) (wqn V c t) (bqn V c t) (imgEdgeBlk V c t) (imgNodeBlk V c t)
      (kgNodeBlk V c t) (w1 V c t) (b1 V c t))
    k3_pay3 (w2 V c t) (b2 V c t)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outBlk V c t
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = iblk V c 11 t := by dsimp only [dat]
theorem after_12 (c : Dev nD) (t : Fin cfg3.N) : (dat V c).after 12 t = outBlk V c t := by dsimp only [dat]

end Cert.KernelIdeal.Head

end
-- ==== Proof.KernelIdeal.HeadFrame.lean ====
import proofs.«419520_j38482906972438_2_alg».proof.Proof.KernelIdeal.HeadDefs
import Idealize.ShloMosaic.Lib.Pipeline.FrameBody
import Idealize.ShloMosaic.Lib.Pipeline.Value
import Idealize.ShloMosaic.Lib.Tactic

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before_0 (c : Dev nD) (t : Fin cfg3.N) (d) : (dat V c).before 0 t d = iblk V c 0 t := by
  rw [(dat V c).before_fetched 0 t (fetch3_0 t) d]; unfold Dat.fetched Dat.blockOf iblk; rw [A_eq]; rfl
theorem before_1 (c : Dev nD) (t : Fin cfg3.N) (d) : (dat V c).before 1 t d = iblk V c 1 t := by
  rw [(dat V c).before_fetched 1 t (fetch3_1 t) d]; unfold Dat.fetched Dat.blockOf iblk; rw [A_eq]; rfl
theorem before_2 (c : Dev nD) (t : Fin cfg3.N) (d) : (dat V c).before 2 t d = iblk V c 2 t := by
  rw [(dat V c).before_fetched 2 t (fetch3_2 t) d]; unfold Dat.fetched Dat.blockOf iblk; rw [A_eq]; rfl
theorem before_3 (c : Dev nD) (t : Fin cfg3.N) (d) : (dat V c).before 3 t d = iblk V c 3 t := by
  rw [(dat V c).before_fetched 3 t (fetch3_3 t) d]; unfold Dat.fetched Dat.blockOf iblk; rw [A_eq]; rfl
theorem before_4 (c : Dev nD) (t : Fin cfg3.N) (d) : (dat V c).before 4 t d = iblk V c 4 t := by
  rw [(dat V c).before_fetched 4 t (fetch3_4 t) d]; unfold Dat.fetched Dat.blockOf iblk; rw [A_eq]; rfl
theorem before_5 (c : Dev nD) (t : Fin cfg3.N) (d) : (dat V c).before 5 t d = iblk V c 5 t := by
  rw [(dat V c).before_fetched 5 t (fetch3_5 t) d]; unfold Dat.fetched Dat.blockOf iblk; rw [A_eq]; rfl
theorem before_6 (c : Dev nD) (t : Fin cfg3.N) (d) : (dat V c).before 6 t d = iblk V c 6 t := by
  rw [(dat V c).before_fetched 6 t (fetch3_6 t) d]; unfold Dat.fetched Dat.blockOf iblk; rw [A_eq]; rfl
theorem before_7 (c : Dev nD) (t : Fin cfg3.N) (d) : (dat V c).before 7 t d = iblk V c 7 t := by
  rw [(dat V c).before_fetched 7 t (fetch3_7 t) d]; unfold Dat.fetched Dat.blockOf iblk; rw [A_eq]; rfl
theorem before_8 (c : Dev nD) (t : Fin cfg3.N) (d) : (dat V c).before 8 t d = iblk V c 8 t := by
  rw [(dat V c).before_fetched 8 t (fetch3_8 t) d]; unfold Dat.fetched Dat.blockOf iblk; rw [A_eq]; rfl
theorem before_9 (c : Dev nD) (t : Fin cfg3.N) (d) : (dat V c).before 9 t d = iblk V c 9 t := by
  rw [(dat V c).before_fetched 9 t (fetch3_9 t) d]; unfold Dat.fetched Dat.blockOf iblk; rw [A_eq]; rfl
theorem before_10 (c : Dev nD) (t : Fin cfg3.N) (d) : (dat V c).before 10 t d = iblk V c 10 t := by
  rw [(dat V c).before_fetched 10 t (fetch3_10 t) d]; unfold Dat.fetched Dat.blockOf iblk; rw [A_eq]; rfl
theorem before_11 (c : Dev nD) (t : Fin cfg3.N) (d) : (dat V c).before 11 t d = iblk V c 11 t := by
  rw [(dat V c).before_fetched 11 t (fetch3_11 t) d]; unfold Dat.fetched Dat.blockOf iblk; rw [A_eq]; rfl

theorem off1 : (![0] : Fin 1 → Nat) = fun _ => 0 := funext fun a => by fin_cases a <;> rfl
theorem off2 : (![0, 0] : Fin 2 → Nat) = fun _ => 0 := funext fun a => by fin_cases a <;> rfl

theorem readAt_all {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem read_write_all {κ : Kind} {sp : Space} {S : Shape} {e : EltTy} (v : View sig κ sp S e) {off : Fin S.rank → Nat}
    (h : off = fun _ => 0) (inb : ∀ a, off a + S.size a ≤ S.size a) (f : v.ty.Contents (Elt F)) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

def headOut (x0 : Vec F S128x1024 .bf16) (x1 : Vec F S128x512 .f32) (x2 : Vec F S128x512 .f32) (x3 : Vec F S128x512 .f32) (x4 : Vec F S1024x512 .bf16) (x5 : Vec F S512 .f32) (x6 : Vec F S1024x512 .bf16) (x7 : Vec F S512 .f32) (x8 : Vec F S1024x2048 .bf16) (x9 : Vec F S2048 .f32) (x10 : Vec F S2048x3129 .bf16) (x11 : Vec F S3129 .f32) : Vec F S128x3129 .f32 :=
  k3_pay1 (k3_pay2 x0 x4 x5 x6 x7 x3 x1 x2 x8 x9) k3_pay3 x10 x11

set_option maxHeartbeats 1000000 in

/-- The head's body on thirteen whole buffers leaves the inputs as found and the output at `headOut` of them. -/
theorem sound_kernel (c : Dev nD) (E : Set ℕ) (i : grid3.Coords) (arg1 : Memref sig .tc .vmem S128x1024 .bf16) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S1024x512 .bf16) (harg5 : arg5.IsWhole) (arg6 : Memref sig .tc .vmem S512 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S1024x2048 .bf16) (harg9 : arg9.IsWhole) (arg10 : Memref sig .tc .vmem S2048 .f32) (harg10 : arg10.IsWhole) (arg11 : Memref sig .tc .vmem S2048x3129 .bf16) (harg11 : arg11.IsWhole) (arg12 : Memref sig .tc .vmem S3129 .f32) (harg12 : arg12.IsWhole) (arg13 : Memref sig .tc .vmem S128x3129 .f32) (harg13 : arg13.IsWhole)
    (x0 : Vec F S128x1024 .bf16) (x1 : Vec F S128x512 .f32) (x2 : Vec F S128x512 .f32) (x3 : Vec F S128x512 .f32) (x4 : Vec F S1024x512 .bf16) (x5 : Vec F S512 .f32) (x6 : Vec F S1024x512 .bf16) (x7 : Vec F S512 .f32) (x8 : Vec F S1024x2048 .bf16) (x9 : Vec F S2048 .f32) (x10 : Vec F S2048x3129 .bf16) (x11 : Vec F S3129 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (headOut x0 x1 x2 x3 x4 x5 x6 x7 x8 x9 x10 x11)) -∗ K ⟨⟩))
      ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0; subst hf1; subst hf2; subst hf3; subst hf4; subst hf5; subst hf6; subst hf7; subst hf8; subst hf9; subst hf10; subst hf11
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]; · iexists f9; iframe H9; ipureintro; rfl
  isplitl [H10]; · iexists f10; iframe H10; ipureintro; rfl
  isplitl [H11]; · iexists f11; iframe H11; ipureintro; rfl
  iexists _; isplitr
  swap; · iexact H12
  ipureintro
  refine (read_write_all (S := S128x3129) arg13.view off2 inb_S128x3129_S128x3129_0_0 f12 _).trans ?_
  unfold headOut sound_kernel.sl.r
  rw [readAt_all (S := S128x1024) _ off2, readAt_all (S := S1024x512) _ off2, readAt_all (S := S512) _ off1,
    readAt_all (S := S1024x512) _ off2, readAt_all (S := S512) _ off1, readAt_all (S := S128x512) _ off2,
    readAt_all (S := S128x512) _ off2, readAt_all (S := S128x512) _ off2, readAt_all (S := S1024x2048) _ off2,
    readAt_all (S := S2048) _ off1, readAt_all (S := S2048x3129) _ off2, readAt_all (S := S3129) _ off1]

theorem outBlk_eq (c : Dev nD) (t : Fin cfg3.N) :
    outBlk V c t = headOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := rfl

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, outBlk_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  iframe H0 H1 H2 H3 H4 H5 H6 H7 H8 H9 H10 H11
  isplitl [H12]; · iexists _; iexact H12
  iintro ⟨H0, H1, H2, H3, H4, H5, H6, H7, H8, H9, H10, H11, H12⟩
  iframe

theorem body_obligation (c : Dev nD) : BodyObligation (dat (F := F) V c) (defs₀ (F := F)) Variants.none () Set.univ := fun t => by
  rw [bigSep_W3, bigSep_W3]
  exact sound_body V c t

end Cert.KernelIdeal.Head

end
-- ==== Proof.KernelIdeal.Run.lean ====
import proofs.«419520_j38482906972438_2_alg».proof.Proof.KernelIdeal.Pool0Frame
import proofs.«419520_j38482906972438_2_alg».proof.Proof.KernelIdeal.Pool1Frame
import proofs.«419520_j38482906972438_2_alg».proof.Proof.KernelIdeal.Pool2Frame
import proofs.«419520_j38482906972438_2_alg».proof.Proof.KernelIdeal.HeadFrame
import proofs.«419520_j38482906972438_2_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev U0 (c : Dev nD) : Valuation τ sig (Elt F) := fun b => m (c, b)

abbrev V0 : (c : Dev nD) → (b : Ref sig .tc) → Buf (Elt F) ((c : Thread nD τ).loc b) := fun c b => U0 m c (Proc.devRef .tc b)

def U1 (c : Dev nD) : Valuation τ sig (Elt F) :=
  Pipeline.withArrays spec0 c (U0 m c) fun w => (Pool0.dat (V0 m) c).arrAt w cfg0.N

abbrev U2 (c : Dev nD) : Valuation τ sig (Elt F) := StableHlo.after hostOps1 (U1 m c)

abbrev V2 : (c : Dev nD) → (b : Ref sig .tc) → Buf (Elt F) ((c : Thread nD τ).loc b) := fun c b => U2 m c (Proc.devRef .tc b)

def U3 (c : Dev nD) : Valuation τ sig (Elt F) :=
  Pipeline.withArrays spec1 c (U2 m c) fun w => (Pool1.dat (V2 m) c).arrAt w cfg1.N

abbrev U4 (c : Dev nD) : Valuation τ sig (Elt F) := StableHlo.after hostOps2 (U3 m c)

abbrev V4 : (c : Dev nD) → (b : Ref sig .tc) → Buf (Elt F) ((c : Thread nD τ).loc b) := fun c b => U4 m c (Proc.devRef .tc b)

def U5 (c : Dev nD) : Valuation τ sig (Elt F) :=
  Pipeline.withArrays spec2 c (U4 m c) fun w => (Pool2.dat (V4 m) c).arrAt w cfg2.N

abbrev U6 (c : Dev nD) : Valuation τ sig (Elt F) := StableHlo.after hostOps3 (U5 m c)

abbrev V6 : (c : Dev nD) → (b : Ref sig .tc) → Buf (Elt F) ((c : Thread nD τ).loc b) := fun c b => U6 m c (Proc.devRef .tc b)

def U7 (c : Dev nD) : Valuation τ sig (Elt F) :=
  Pipeline.withArrays spec3 c (U6 m c) fun w => (Head.dat (V6 m) c).arrAt w cfg3.N

theorem U1_arr (c : Dev nD) (w : Fin cfg0.W) :
    U1 m c (Proc.devRef .tc (Pipeline.arrRef spec0 w)) = (Pool0.dat (V0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
theorem U1_keep (c : Dev nD) (b : Ref sig .tc) (hb : ∀ w, (cfg0.win w).isOut = true → Pipeline.arrRef spec0 w ≠ b) :
    U1 m c (Proc.devRef .tc b) = U0 m c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (U1_arr m c w).trans (((Pool0.dat (V0 m) c).arrAt_in w hin _).trans (Pool0.A_eq (V0 m) c w))
  · exact U1_of_ne m c b fun w e => h ⟨w, e⟩

theorem U3_arr (c : Dev nD) (w : Fin cfg1.W) :
    U3 m c (Proc.devRef .tc (Pipeline.arrRef spec1 w)) = (Pool1.dat (V2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
theorem U3_keep (c : Dev nD) (b : Ref sig .tc) (hb : ∀ w, (cfg1.win w).isOut = true → Pipeline.arrRef spec1 w ≠ b) :
    U3 m c (Proc.devRef .tc b) = U2 m c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (U3_arr m c w).trans (((Pool1.dat (V2 m) c).arrAt_in w hin _).trans (Pool1.A_eq (V2 m) c w))
  · exact U3_of_ne m c b fun w e => h ⟨w, e⟩

theorem U5_arr (c : Dev nD) (w : Fin cfg2.W) :
    U5 m c (Proc.devRef .tc (Pipeline.arrRef spec2 w)) = (Pool2.dat (V4 m) c).arrAt w cfg2.N := by
  unfold U5; exact Pipeline.withArrays_arr spec2 launch2.win.arr_inj c _ _ w
theorem U5_of_ne (c : Dev nD) (b : Ref sig .tc) (hb : ∀ w, Pipeline.arrRef spec2 w ≠ b) :
    U5 m c (Proc.devRef .tc b) = U4 m c (Proc.devRef .tc b) := by
  unfold U5; exact Pipeline.withArrays_of_ne spec2 c _ _ b hb
theorem U5_keep (c : Dev nD) (b : Ref sig .tc) (hb : ∀ w, (cfg2.win w).isOut = true → Pipeline.arrRef spec2 w ≠ b) :
    U5 m c (Proc.devRef .tc b) = U4 m c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (U5_arr m c w).trans (((Pool2.dat (V4 m) c).arrAt_in w hin _).trans (Pool2.A_eq (V4 m) c w))
  · exact U5_of_ne m c b fun w e => h ⟨w, e⟩

theorem U7_arr (c : Dev nD) (w : Fin cfg3.W) :
    U7 m c (Proc.devRef .tc (Pipeline.arrRef spec3 w)) = (Head.dat (V6 m) c).arrAt w cfg3.N := by
  unfold U7; exact Pipeline.withArrays_arr spec3 launch3.win.arr_inj c _ _ w
theorem U7_of_ne (c : Dev nD) (b : Ref sig .tc) (hb : ∀ w, Pipeline.arrRef spec3 w ≠ b) :
    U7 m c (Proc.devRef .tc b) = U6 m c (Proc.devRef .tc b) := by
  unfold U7; exact Pipeline.withArrays_of_ne spec3 c _ _ b hb
theorem U7_keep (c : Dev nD) (b : Ref sig .tc) (hb : ∀ w, (cfg3.win w).isOut = true → Pipeline.arrRef spec3 w ≠ b) :
    U7 m c (Proc.devRef .tc b) = U6 m c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (U7_arr m c w).trans (((Head.dat (V6 m) c).arrAt_in w hin _).trans (Head.A_eq (V6 m) c w))
  · exact U7_of_ne m c b fun w e => h ⟨w, e⟩

theorem U2_of (c : Dev nD) (r : Ref sig .tc) (h : r ∉ hostOps1_W) : U2 m c (Proc.devRef .tc r) = U1 m c (Proc.devRef .tc r) :=
  StableHlo.after_of_writes_sub hostOps1 _ hostOps1_writes h
theorem U4_of (c : Dev nD) (r : Ref sig .tc) (h : r ∉ hostOps2_W) : U4 m c (Proc.devRef .tc r) = U3 m c (Proc.devRef .tc r) :=
  StableHlo.after_of_writes_sub hostOps2 _ hostOps2_writes h
theorem U6_of (c : Dev nD) (r : Ref sig .tc) (h : r ∉ hostOps3_W) : U6 m c (Proc.devRef .tc r) = U5 m c (Proc.devRef .tc r) :=
  StableHlo.after_of_writes_sub hostOps3 _ hostOps3_writes h

theorem U1_main_v0_0 (c : Dev nD) : U1 m c (Proc.devRef .tc main_v0_0) = (Pool0.dat (V0 m) c).arrAt 2 cfg0.N := U1_arr m c 2
theorem U1_main_v0_1 (c : Dev nD) : U1 m c (Proc.devRef .tc main_v0_1) = (Pool0.dat (V0 m) c).arrAt 3 cfg0.N := U1_arr m c 3
theorem U3_main_v15_0 (c : Dev nD) : U3 m c (Proc.devRef .tc main_v15_0) = (Pool1.dat (V2 m) c).arrAt 2 cfg1.N := U3_arr m c 2
theorem U3_main_v15_1 (c : Dev nD) : U3 m c (Proc.devRef .tc main_v15_1) = (Pool1.dat (V2 m) c).arrAt 3 cfg1.N := U3_arr m c 3
theorem U5_main_v30_0 (c : Dev nD) : U5 m c (Proc.devRef .tc main_v30_0) = (Pool2.dat (V4 m) c).arrAt 2 cfg2.N := U5_arr m c 2
theorem U5_main_v30_1 (c : Dev nD) : U5 m c (Proc.devRef .tc main_v30_1) = (Pool2.dat (V4 m) c).arrAt 3 cfg2.N := U5_arr m c 3
theorem U7_result (c : Dev nD) : U7 m c (Proc.devRef .tc main_v50) = (Head.dat (V6 m) c).arrAt 12 cfg3.N := U7_arr m c 12

/-- A buffer no host stretch writes and no region outputs holds at the end what the launch memory held. -/
theorem U7_launch (c : Dev nD) (b : Ref sig .tc)
    (h0 : ∀ w, (cfg0.win w).isOut = true → Pipeline.arrRef spec0 w ≠ b := by decide) (h1 : b ∉ hostOps1_W := by decide)
    (h2 : ∀ w, (cfg1.win w).isOut = true → Pipeline.arrRef spec1 w ≠ b := by decide) (h3 : b ∉ hostOps2_W := by decide)
    (h4 : ∀ w, (cfg2.win w).isOut = true → Pipeline.arrRef spec2 w ≠ b := by decide) (h5 : b ∉ hostOps3_W := by decide)
    (h6 : ∀ w, (cfg3.win w).isOut = true → Pipeline.arrRef spec3 w ≠ b := by decide) :
    U7 m c (Proc.devRef .tc b) = m ((c : Thread nD τ).loc b) :=
  calc U7 m c (Proc.devRef .tc b)
    _ = U6 m c (Proc.devRef .tc b) := U7_keep m c b h6
    _ = U5 m c (Proc.devRef .tc b) := U6_of m c b h5
    _ = U4 m c (Proc.devRef .tc b) := U5_keep m c b h4
    _ = U3 m c (Proc.devRef .tc b) := U4_of m c b h3
    _ = U2 m c (Proc.devRef .tc b) := U3_keep m c b h2
    _ = U1 m c (Proc.devRef .tc b) := U2_of m c b h1
    _ = U0 m c (Proc.devRef .tc b) := U1_keep m c b h0
    _ = m ((c : Thread nD τ).loc b) := rfl

/-- Every region's proof data, each at the contents its region is entered with. -/
def pdats : (p : Fin 4) → (c : Dev nD) → Dat τ (Elt F) Unit ℕ (UR sig nD τ) ℕ (cfgs p) c
  | ⟨0, _⟩ => fun c => Pool0.dat (V0 m) c
  | ⟨1, _⟩ => fun c => Pool1.dat (V2 m) c
  | ⟨2, _⟩ => fun c => Pool2.dat (V4 m) c
  | ⟨3, _⟩ => fun c => Head.dat (V6 m) c

abbrev 𝒱₀ : Variants := Variants.none

abbrev L : GSem nD τ sig → Finset Unit := fun _ => ∅
abbrev lv : GSem nD τ sig → Unit → ℕ := fun _ _ => 0

abbrev Free (c : Dev nD) : sProp 𝕄 := iprop(∃ W, owes (c : Thread nD τ) (0 : CellTallies nD τ sig Unit) W)

abbrev R (c : Dev nD) : sProp 𝕄 := iprop((∃ r, prngReg c r) ∗ Free (F := F) c)

abbrev At (W : Dev nD → Valuation τ sig (Elt F)) (c : Dev nD) : sProp 𝕄 :=
  iprop(StableHlo.held (c : Thread nD τ) (Pipeline.ucRefs τ sig) (W c) ∗ R (F := F) c)

section Owes

variable {cfg : Cfg sig Λ₀} {c : Dev nD} (d : Dat τ (Elt F) Unit ℕ (UR sig nD τ) ℕ cfg c)

theorem owesAt_of_free (t : Fin (cfg.N + 1)) (ho : d.owed t = 0) (hr : d.recorded t = Set.univ) :
    Free (F := F) c ⊢ d.owesAt () t := by
  unfold Pipeline.Dat.owesAt Pipeline.owesWithin
  rw [ho]
  iintro ⟨%W, H⟩
  iexists W
  isplitr
  · ipureintro
    intro x _
    exact Or.inl (by rw [hr]; trivial)
  iexact H

theorem free_of_owesAt (t : Fin (cfg.N + 1)) (ho : d.owed t = 0) : d.owesAt () t ⊢ Free (F := F) c := by
  unfold Pipeline.Dat.owesAt Pipeline.owesWithin
  rw [ho]
  iintro ⟨%W, -, H⟩
  iexists W
  iexact H

end Owes

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

set_option backward.isDefEq.respectTransparency.types false in

def reg0 :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool0.body_obligation (V0 m) c).loose
  hwaits := Pipeline.hwaits_of_owed_zero _ _ _ _ L lv 0 fun _ _ => rfl
  pre := At (U0 m)
  post := At (U1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by

    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit

    have hnotab : (BI.emp : sProp 𝕄) ⊢ Pipeline.prefHeld (pcfgs (F := F) 0).pre c (fun _ => fullShare) (adm 0).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 0 c) 0 rfl rfl); iexact Hfree
    isplitl [Hreg]; · iexact Hreg
    iexact Hrest
  hin c := by
    refine BIBase.Entails.trans ?_ (Pool0.hin (V0 m) c)
    unfold Pipeline.ΦA
    iintro ⟨Hreg, -, Hsc⟩
    isplitl [Hsc]; · iexact Hsc
    iexact Hreg
  hout c := by
    rw [Pipeline.ownSems0_none]
    refine BIBase.Entails.trans (Pool0.hout (V0 m) c) ?_
    unfold Pipeline.ΦA
    iintro ⟨Hsc, Hreg⟩
    isplitl [Hreg]; · iexact Hreg
    isplitr; · iempintro
    iexact Hsc
  hexit c := by

    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => U1 m c (Proc.devRef .tc b)) ((pdats m 0 c).arrAt · cfg0.N) (fun w => (U1_arr m c w).symm)
      (fun b hb => U1_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 0 c) (Fin.last _) rfl); iexact Howes

set_option backward.isDefEq.respectTransparency.types false in

def reg1 :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool1.body_obligation (V2 m) c).loose
  hwaits := Pipeline.hwaits_of_owed_zero _ _ _ _ L lv 1 fun _ _ => rfl
  pre := At (U2 m)
  post := At (U3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by

    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit

    have hnotab : (BI.emp : sProp 𝕄) ⊢ Pipeline.prefHeld (pcfgs (F := F) 1).pre c (fun _ => fullShare) (adm 1).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 1 c) 0 rfl rfl); iexact Hfree
    isplitl [Hreg]; · iexact Hreg
    iexact Hrest
  hin c := by
    refine BIBase.Entails.trans ?_ (Pool1.hin (V2 m) c)
    unfold Pipeline.ΦA
    iintro ⟨Hreg, -, Hsc⟩
    isplitl [Hsc]; · iexact Hsc
    iexact Hreg
  hout c := by
    rw [Pipeline.ownSems0_none]
    refine BIBase.Entails.trans (Pool1.hout (V2 m) c) ?_
    unfold Pipeline.ΦA
    iintro ⟨Hsc, Hreg⟩
    isplitl [Hreg]; · iexact Hreg
    isplitr; · iempintro
    iexact Hsc
  hexit c := by

    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (fun b => U3 m c (Proc.devRef .tc b)) ((pdats m 1 c).arrAt · cfg1.N) (fun w => (U3_arr m c w).symm)
      (fun b hb => U3_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 1 c) (Fin.last _) rfl); iexact Howes

set_option backward.isDefEq.respectTransparency.types false in

def reg2 :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool2.body_obligation (V4 m) c).loose
  hwaits := Pipeline.hwaits_of_owed_zero _ _ _ _ L lv 2 fun _ _ => rfl
  pre := At (U4 m)
  post := At (U5 m)
  X c := iprop(∃ r, prngReg c r)
  Y c := iprop(∃ r, prngReg c r)
  Z c := Pipeline.unscopedRest (Ix := Unit) (Name := ℕ) (U := UR sig nD τ) (Lvl := ℕ) spec2 c (V4 m c)
  hentry c := by

    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit

    have hnotab : (BI.emp : sProp 𝕄) ⊢ Pipeline.prefHeld (pcfgs (F := F) 2).pre c (fun _ => fullShare) (adm 2).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 2 c) 0 rfl rfl); iexact Hfree
    isplitl [Hreg]; · iexact Hreg
    iexact Hrest
  hin c := by
    refine BIBase.Entails.trans ?_ (Pool2.hin (V4 m) c)
    unfold Pipeline.ΦA
    iintro ⟨Hreg, -, Hsc⟩
    isplitl [Hsc]; · iexact Hsc
    iexact Hreg
  hout c := by
    rw [Pipeline.ownSems0_none]
    refine BIBase.Entails.trans (Pool2.hout (V4 m) c) ?_
    unfold Pipeline.ΦA
    iintro ⟨Hsc, Hreg⟩
    isplitl [Hreg]; · iexact Hreg
    isplitr; · iempintro
    iexact Hsc
  hexit c := by

    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (fun b => U5 m c (Proc.devRef .tc b)) ((pdats m 2 c).arrAt · cfg2.N) (fun w => (U5_arr m c w).symm)
      (fun b hb => U5_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 2 c) (Fin.last _) rfl); iexact Howes

set_option backward.isDefEq.respectTransparency.types false in

def reg3 :
    Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Head.body_obligation (V6 m) c).loose
  hwaits := Pipeline.hwaits_of_owed_zero _ _ _ _ L lv 3 fun _ _ => rfl
  pre := At (U6 m)
  post := At (U7 m)
  X c := iprop(∃ r, prngReg c r)
  Y c := iprop(∃ r, prngReg c r)
  Z c := Pipeline.unscopedRest (Ix := Unit) (Name := ℕ) (U := UR sig nD τ) (Lvl := ℕ) spec3 c (V6 m c)
  hentry c := by

    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit

    have hnotab : (BI.emp : sProp 𝕄) ⊢ Pipeline.prefHeld (pcfgs (F := F) 3).pre c (fun _ => fullShare) (adm 3).1 := by
      unfold Pipeline.prefHeld; rw [show (Finset.univ : Finset (Fin 0)) = ∅ from rfl, BI.bigSep_empty]
    iintro ⟨⟨Hbufs, Hreg, Hfree⟩, -⟩
    ihave Hparts := hsplit $$ Hbufs
    icases Hparts with ⟨Harr, Hrest⟩
    imodintro
    isplitl [Harr]; · iexact Harr
    isplitr; · iapply hnotab; iempintro
    isplitl [Hfree]; · iapply (owesAt_of_free (pdats m 3 c) 0 rfl rfl); iexact Hfree
    isplitl [Hreg]; · iexact Hreg
    iexact Hrest
  hin c := by
    rw [show (pdats m 3 c).Φ 0 = Pipeline.ΦA spec3 c from rfl]
    unfold Pipeline.ΦA
    iintro ⟨Hreg, -, Hsc⟩
    isplitl [Hsc]; · iexact Hsc
    iexact Hreg
  hout c := by
    rw [Pipeline.ownSems0_none]
    rw [show (pdats m 3 c).Φ (Fin.last _) = Pipeline.ΦA spec3 c from rfl]
    unfold Pipeline.ΦA
    iintro ⟨Hsc, Hreg⟩
    isplitl [Hreg]; · iexact Hreg
    isplitr; · iempintro
    iexact Hsc
  hexit c := by

    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (fun b => U7 m c (Proc.devRef .tc b)) ((pdats m 3 c).arrAt · cfg3.N) (fun w => (U7_arr m c w).symm)
      (fun b hb => U7_of_ne m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    iapply (free_of_owesAt (pdats m 3 c) (Fin.last _) rfl); iexact Howes

abbrev segs :
    List (Pipeline.Seg (pcfgs (F := F)) adm (pdats m) () defs₀ 𝒱₀ L lv) :=
  [ .region (reg0 m),
    .host (hseg hostOps1 hostOps1_sub hostOps1_fresh (U1 m)),
    .region (reg1 m),
    .host (hseg hostOps2 hostOps2_sub hostOps2_fresh (U3 m)),
    .region (reg2 m),
    .host (hseg hostOps3 hostOps3_sub hostOps3_fresh (U5 m)),
    .region (reg3 m) ]

abbrev u₀ : UR sig nD τ := initOf (Pipeline.cells cfgs cellOf_inj) (Pipeline.launchToks cfgs cellOf_inj)

theorem ghost_init :
    (ownU (u₀ : UR sig nD τ) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (u₀ : UR sig nD τ) : sProp 𝕄) ⊢ BI.own ((emb₁ : Emb (UR sig nD τ) 𝕄) u₀) from .rfl)
    iexact Hu
  iempintro

theorem rest_init (ρ : Dev nD → PrngReg) :
    iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄))) ∗ levAts L lv)
      ⊢ (|={Set.univ}=> bigSep Finset.univ (R (F := F)) : sProp 𝕄) := by
  refine Pipeline.initEach L lv fun c => ?_
  iintro ⟨⟨-, Howes, -, Hreg, -⟩, -⟩
  imodintro
  isplitl [Hreg]
  · iexists (ρ c); iexact Hreg
  iexists ∅; iexact Howes

theorem rest_free (c : Dev nD) : R (F := F) c ⊢ (iprop(∃ W, owes (c : Thread nD τ) (0 : CellTallies nD τ sig Unit) W) : sProp 𝕄) := by
  iintro ⟨-, H⟩; iexact H

end Cert.KernelIdeal.Run

end
-- ==== Proof.KernelIdeal.RunLaunch.lean ====
import proofs.«419520_j38482906972438_2_alg».proof.Proof.KernelIdeal.Run
import Idealize.ShloMosaic.Lib.Pipeline.Frame
import Idealize.ShloMosaic.Lib.Pipeline.Regions

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ (UR sig nD τ) ℕ

set_option backward.isDefEq.respectTransparency.types false in

/-- Every weakly fair execution of @main terminates with each unscoped buffer at the last boundary's contents. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U7 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) (O₀ := 0) (hL := fun _ _ => rfl)
    (G := fun _ => (BI.emp : sProp 𝕄)) (u₀ := u₀) (hu₀ := ghost_init)
    (T₀ := fun c => iprop(StableHlo.held (c : Thread nD τ) (Pipeline.ucRefs τ sig) (U0 m c) ∗ R (F := F) c))
    (Tₙ := fun c => StableHlo.held (c : Thread nD τ) (Pipeline.ucRefs τ sig) (U7 m c))
    (hch := fun c => ⟨.rfl, .rfl, .rfl, .rfl, .rfl, .rfl, .rfl, sep_mono .rfl (rest_free c)⟩)
    (hinit := ?_) (QY := fun c s => ∀ b ∈ Pipeline.ucRefs τ sig, s.mem ((c : Thread nD τ).1, b) = U7 m c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (U0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (U0 m c)]; exact BI.Entails.refl _
    iintro ⟨H, Hla⟩
    ihave H' := hsplit $$ H
    icases H' with ⟨Hh, Hr⟩
    imod (rest_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (U0 m c)) (R (F := F))]
    isplitl [Hh]; · iexact Hh
    iexact HE
  ·
    unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact h
    · iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The same run, naming the result array and each argument array at its launch contents. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v50) = U7 m c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v50 (by decide)),
      (h c _ (mem_uc main_arg0 (by decide))).trans (U7_launch m c main_arg0),
      (h c _ (mem_uc main_arg1 (by decide))).trans (U7_launch m c main_arg1),
      (h c _ (mem_uc main_arg2 (by decide))).trans (U7_launch m c main_arg2),
      (h c _ (mem_uc main_arg3 (by decide))).trans (U7_launch m c main_arg3),
      (h c _ (mem_uc main_arg4 (by decide))).trans (U7_launch m c main_arg4),
      (h c _ (mem_uc main_arg5 (by decide))).trans (U7_launch m c main_arg5),
      (h c _ (mem_uc main_arg6 (by decide))).trans (U7_launch m c main_arg6),
      (h c _ (mem_uc main_arg7 (by decide))).trans (U7_launch m c main_arg7),
      (h c _ (mem_uc main_arg8 (by decide))).trans (U7_launch m c main_arg8),
      (h c _ (mem_uc main_arg9 (by decide))).trans (U7_launch m c main_arg9),
      (h c _ (mem_uc main_arg10 (by decide))).trans (U7_launch m c main_arg10),
      (h c _ (mem_uc main_arg11 (by decide))).trans (U7_launch m c main_arg11),
      (h c _ (mem_uc main_arg12 (by decide))).trans (U7_launch m c main_arg12),
      (h c _ (mem_uc main_arg13 (by decide))).trans (U7_launch m c main_arg13),
      (h c _ (mem_uc main_arg14 (by decide))).trans (U7_launch m c main_arg14),
      (h c _ (mem_uc main_arg15 (by decide))).trans (U7_launch m c main_arg15),
      (h c _ (mem_uc main_arg16 (by decide))).trans (U7_launch m c main_arg16)⟩)
    (run_all m ρ)

end Cert.KernelIdeal.Run

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : Nat) : Type := (⟨2, ![a, b]⟩ : Shape).Idx → EReal
abbrev Vect (a : Nat) : Type := (⟨1, ![a]⟩ : Shape).Idx → EReal
abbrev Ids (n : Nat) : Type := (⟨1, ![n]⟩ : Shape).Idx → BitVec 32

/-- The one-hot weight of segment id `s` for row `r`. -/
def hot (s : BitVec 32) (r : Fin 128) : EReal := if s = BitVec.ofNat 32 r.val then 1 else 0

/-- Row `r`, column `h` of the segment sum: the features of the rows whose id is `r`, added. -/
def segSum {n : Nat} (feat : Mat n 512) (seg : Ids n) (r : Fin 128) (h : Fin 512) : EReal :=
  ∑ k : Fin n, hot (seg (ix1 k)) r * feat (ix2 k h)

/-- The number of rows whose id is `r`. -/
def segCnt {n : Nat} (seg : Ids n) (r : Fin 128) : EReal := ∑ k : Fin n, hot (seg (ix1 k)) r

/-- The ragged mean: segment sum over max(count, 1). -/
def segMean {n : Nat} (feat : Mat n 512) (seg : Ids n) : Mat 128 512 :=
  fun j => segSum feat seg (j 0) (j 1) / max (segCnt seg (j 0)) 1

/-- x · w + bias, the bias along the rows. -/
def affine {b k o : Nat} (x : Mat b k) (w : Mat k o) (bias : Vect o) : Mat b o :=
  fun j => (∑ t : Fin k, x (ix2 (j 0) t) * w (ix2 t (j 1))) + bias (ix1 (j 1))

def fuseAt (qe qn e a k : Mat 128 512) (r : Fin 128) (cc : Fin 1024) : EReal :=
  if h : cc.val < 512 then
    (qe (ix2 r ⟨cc.val, h⟩) + e (ix2 r ⟨cc.val, h⟩)) + (qe (ix2 r ⟨cc.val, h⟩) + e (ix2 r ⟨cc.val, h⟩))
  else
    (qn (ix2 r ⟨cc.val - 512, by have := cc.isLt; omega⟩) + a (ix2 r ⟨cc.val - 512, by have := cc.isLt; omega⟩))
      + (qn (ix2 r ⟨cc.val - 512, by have := cc.isLt; omega⟩) + k (ix2 r ⟨cc.val - 512, by have := cc.isLt; omega⟩))

/-- [(qe + e) + (qe + e) | (qn + a) + (qn + k)]. -/
def fuse (qe qn e a k : Mat 128 512) : Mat 128 1024 := fun j => fuseAt qe qn e a k (j 0) (j 1)

/-- y for positive y, exp y − 1 otherwise. -/
def elu (y : EReal) : EReal := if 0 < y then y else Ideal.exp y - 1

def head (q : Mat 128 1024) (a k e : Mat 128 512) (wqe : Mat 1024 512) (bqe : Vect 512) (wqn : Mat 1024 512) (bqn : Vect 512)
    (w1 : Mat 1024 2048) (b1 : Vect 2048) (w2 : Mat 2048 3129) (b2 : Vect 3129) : Mat 128 3129 :=
  affine (fun j => elu (affine (fuse (affine q wqe bqe) (affine q wqn bqn) e a k) w1 b1 j)) w2 b2

/-- What both programs compute: three ragged means, two projections of the question, the fusion, and a two-layer head. -/
def model (q : Mat 128 1024) (imgNode kgNode : Mat 131072 512) (imgEdge : Mat 262144 512)
    (imgNodeSeg kgNodeSeg : Ids 131072) (imgEdgeSeg : Ids 262144)
    (wqe : Mat 1024 512) (bqe : Vect 512) (wqn : Mat 1024 512) (bqn : Vect 512)
    (w1 : Mat 1024 2048) (b1 : Vect 2048) (w2 : Mat 2048 3129) (b2 : Vect 3129) : Mat 128 3129 :=
  head q (segMean imgNode imgNodeSeg) (segMean kgNode kgNodeSeg) (segMean imgEdge imgEdgeSeg) wqe bqe wqn bqn w1 b1 w2 b2

end Cert.Spec

end
-- ==== Proof.SpecLemmas.lean ====
import proofs.«419520_j38482906972438_2_alg».proof.Proof.Spec
import Mathlib.Algebra.BigOperators.Fin
import Mathlib.Logic.Equiv.Fin.Basic

noncomputable section

namespace Cert.Spec

open Idealize.ShloMosaic Idealize.ShloMosaic.ValueIdx
open scoped BigOperators

theorem blockRow_lt {n T B : Nat} (hn : n = T * B) (t : Fin T) (b : Fin B) : t.val * B + b.val < n := by
  subst hn
  calc t.val * B + b.val < t.val * B + B := Nat.add_lt_add_left b.isLt _
    _ = (t.val + 1) * B := (Nat.succ_mul _ _).symm
    _ ≤ T * B := Nat.mul_le_mul_right _ t.isLt

/-- A sum over T · B rows is the sum over T blocks of the sums over a block's B rows. -/
theorem sum_blocks {M : Type*} [AddCommMonoid M] {n : Nat} (T B : Nat) (hn : n = T * B) (f : Fin n → M) :
    ∑ x : Fin n, f x = ∑ t : Fin T, ∑ b : Fin B, f ⟨t.val * B + b.val, blockRow_lt hn t b⟩ := by
  subst hn
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm, Nat.add_comm]

theorem runRow_lt {n C I B : Nat} (hn : n = (C * I) * B) (c : Fin C) (i : Fin I) (k : Fin B) :
    (c.val * I + i.val) * B + k.val < n :=
  blockRow_lt hn ⟨c.val * I + i.val, blockRow_lt rfl c i⟩ k

/-- A sum over C · I · B rows, split by run, block and row. -/
theorem sum_runs {M : Type*} [AddCommMonoid M] {n : Nat} (C I B : Nat) (hn : n = (C * I) * B) (f : Fin n → M) :
    ∑ x : Fin n, f x
      = ∑ c : Fin C, ∑ i : Fin I, ∑ k : Fin B, f ⟨(c.val * I + i.val) * B + k.val, runRow_lt hn c i k⟩ := by
  rw [sum_blocks (C * I) B hn f,
    sum_blocks C I rfl (fun t : Fin (C * I) => ∑ b : Fin B, f ⟨t.val * B + b.val, blockRow_lt hn t b⟩)]

theorem row16_lt (c : Fin 2) (i : Fin 16) (k : Fin 4096) : (c.val * 16 + i.val) * 4096 + k.val < 131072 :=
  runRow_lt (by norm_num) c i k

theorem row32_lt (c : Fin 2) (i : Fin 32) (k : Fin 4096) : (c.val * 32 + i.val) * 4096 + k.val < 262144 :=
  runRow_lt (by norm_num) c i k

/-- The segment sum of 131072 rows as 2 runs of 16 blocks of 4096 rows. -/
theorem segSum_runs16 (feat : Mat 131072 512) (seg : Ids 131072) (r : Fin 128) (h : Fin 512) :
    segSum feat seg r h
      = ∑ c : Fin 2, ∑ i : Fin 16, ∑ k : Fin 4096,
          hot (seg (ix1 ⟨(c.val * 16 + i.val) * 4096 + k.val, row16_lt c i k⟩)) r
            * feat (ix2 ⟨(c.val * 16 + i.val) * 4096 + k.val, row16_lt c i k⟩ h) :=
  sum_runs 2 16 4096 (by norm_num) (fun k : Fin 131072 => hot (seg (ix1 k)) r * feat (ix2 k h))

theorem segCnt_runs16 (seg : Ids 131072) (r : Fin 128) :
    segCnt seg r
      = ∑ c : Fin 2, ∑ i : Fin 16, ∑ k : Fin 4096,
          hot (seg (ix1 ⟨(c.val * 16 + i.val) * 4096 + k.val, row16_lt c i k⟩)) r :=
  sum_runs 2 16 4096 (by norm_num) (fun k : Fin 131072 => hot (seg (ix1 k)) r)

/-- The segment sum of 262144 rows as 2 runs of 32 blocks of 4096 rows. -/
theorem segSum_runs32 (feat : Mat 262144 512) (seg : Ids 262144) (r : Fin 128) (h : Fin 512) :
    segSum feat seg r h
      = ∑ c : Fin 2, ∑ i : Fin 32, ∑ k : Fin 4096,
          hot (seg (ix1 ⟨(c.val * 32 + i.val) * 4096 + k.val, row32_lt c i k⟩)) r
            * feat (ix2 ⟨(c.val * 32 + i.val) * 4096 + k.val, row32_lt c i k⟩ h) :=
  sum_runs 2 32 4096 (by norm_num) (fun k : Fin 262144 => hot (seg (ix1 k)) r * feat (ix2 k h))

theorem segCnt_runs32 (seg : Ids 262144) (r : Fin 128) :
    segCnt seg r
      = ∑ c : Fin 2, ∑ i : Fin 32, ∑ k : Fin 4096,
          hot (seg (ix1 ⟨(c.val * 32 + i.val) * 4096 + k.val, row32_lt c i k⟩)) r :=
  sum_runs 2 32 4096 (by norm_num) (fun k : Fin 262144 => hot (seg (ix1 k)) r)

end Cert.Spec

end
-- ==== Proof.KernelIdeal.Pool0Pay.lean ====
import proofs.«419520_j38482906972438_2_alg».proof.Proof.Gen.KernelIdeal.Skeleton
import proofs.«419520_j38482906972438_2_alg».proof.Proof.Spec
import proofs.«419520_j38482906972438_2_alg».proof.Proof.SpecLemmas
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pool0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem hot_word (s : BitVec 32) (r : Fin 128) :
    ((((IntOp.cmpi .eq (BitVec.ofNat 32 r.val) s).setWidth 32).toInt : ℝ) : EReal) = Spec.hot s r := by
  unfold Spec.hot IntOp.cmpi
  by_cases hs : s = BitVec.ofNat 32 r.val
  · subst hs
    simp
  · have hne : (BitVec.ofNat 32 r.val == s) = false := by
      rw [beq_eq_false_iff_ne]; exact fun e => hs e.symm
    rw [if_neg hs]
    simp [hne]

/-- The comparison of the row iota with the broadcast ids, widened and converted, is the one-hot weight. -/
theorem pay3_apply (seg : Vec Ideal S4096 .i32) (r : Fin 128) (k : Fin 4096) :
    k0_pay3 (F := Ideal) seg (ix2 r k) = Spec.hot (seg (ix1 k)) r := by
  unfold k0_pay3
  show ((((IntOp.cmpi .eq (iota .tc S128x4096 32 [0] iota_S128x4096_d0_w32 (ix2 r k))
      (broadcastTo S128x4096 (shapeCast S1x4096 seg shapeCasts_S4096_S1x4096) broadcasts_S1x4096_S128x4096 (ix2 r k))).setWidth 32).toInt : ℝ) : EReal) = _
  rw [iota_single_apply, broadcastTo_1b_ab_apply, shapeCast_a_1a_apply]
  exact hot_word (seg (ix1 k)) r

abbrev dotD : DotDims S128x4096 S4096x512 S128x512 := dot_S128x4096_S4096x512_S128x512_1_0_0_1_n_n

theorem dot_lhs_0 (j : S128x512.Idx) (q : dotD.contr.Idx) : (dotD.lhsIdx j q 0).val = (j 0).val := by
  unfold DotDims.lhsIdx
  rw [dif_neg (show ¬(0 : Fin S128x4096.rank) ∈ dotD.lhsBatch by decide),
    dif_pos (show (0 : Fin S128x4096.rank) ∈ dotD.lhsNonContracting by decide)]
  rfl

theorem dot_lhs_1 (j : S128x512.Idx) (q : dotD.contr.Idx) : (dotD.lhsIdx j q 1).val = (q ⟨0, by decide⟩).val :=
  dotD.lhsIdx_val_of_single (cl := 1) rfl j q

theorem dot_rhs_0 (j : S128x512.Idx) (q : dotD.contr.Idx) : (dotD.rhsIdx j q 0).val = (q ⟨0, by decide⟩).val :=
  dotD.rhsIdx_val_of_single (cr := 0) rfl j q

theorem dot_rhs_1 (j : S128x512.Idx) (q : dotD.contr.Idx) : (dotD.rhsIdx j q 1).val = (j 1).val := by
  unfold DotDims.rhsIdx
  rw [dif_neg (show ¬(1 : Fin S4096x512.rank) ∈ dotD.rhsBatch by decide),
    dif_pos (show (1 : Fin S4096x512.rank) ∈ dotD.rhsNonContracting by decide)]
  rfl

/-- One step of the sum accumulator at (r, h): what it held plus Σₖ hot(seg k, r) · feat(k, h). -/
theorem pay4_apply (feat : Vec Ideal S4096x512 .f32) (seg : Vec Ideal S4096 .i32) (acc : Vec Ideal S128x512 .f32)
    (r : Fin 128) (h : Fin 512) :
    k0_pay4 feat seg acc (ix2 r h) = acc (ix2 r h) + ∑ k : Fin 4096, Spec.hot (seg (ix1 k)) r * feat (ix2 k h) := by
  unfold k0_pay4
  rw [shapeCast_self, addf_apply]
  congr 1
  show FloatOps.matmul dotD none _ _ (constant (F := Ideal) S128x512 .f32 0x00000000#32) (ix2 r h) = _
  rw [Ideal.matmul_constant_zero_apply, ← Equiv.sum_comp (contrEquiv1 dotD 4096 rfl rfl).symm]
  refine Finset.sum_congr rfl fun k _ => ?_
  have hq := contrEquiv1_symm_val dotD 4096 rfl rfl k
  have hl : dotD.lhsIdx (ix2 r h) ((contrEquiv1 dotD 4096 rfl rfl).symm k) = ix2 r k := by
    funext ax; apply Fin.ext
    match ax with
    | ⟨0, _⟩ => exact dot_lhs_0 _ _
    | ⟨1, _⟩ => exact (dot_lhs_1 _ _).trans hq
  have hr : dotD.rhsIdx (ix2 r h) ((contrEquiv1 dotD 4096 rfl rfl).symm k) = ix2 k h := by
    funext ax; apply Fin.ext
    match ax with
    | ⟨0, _⟩ => exact (dot_rhs_0 _ _).trans hq
    | ⟨1, _⟩ => exact dot_rhs_1 _ _
  rw [hl, hr, truncf_apply, truncf_apply, pay3_apply]

theorem col_apply {α : Type} (x : S128.Idx → α) (r : Fin 128) (z : Fin 1) :
    shapeCast S128x1 x shapeCasts_S128_S128x1 (ix2 r z) = x (ix1 r) :=
  shapeCast_apply x _ _ _ (by
    have hz : z.val = 0 := by omega
    rw [Shape.rowMajor_val_one, Shape.rowMajor_val_two]
    show r.val = r.val * 1 + z.val
    rw [hz, Nat.mul_one, Nat.add_zero])

theorem rowsum_apply (src : FVec Ideal S128x4096 .f32) (hφ : FKind.Formats .f32)
    (hacc : (0x00000000#32 : BitVec 32) = FKind.add.neutral .f32 hφ) (r : Fin 128) :
    multiReduction .add [1] S128 src 0x00000000#32 reduces_S128x4096_S128 hφ hacc (ix1 r) = ∑ k : Fin 4096, src (ix2 r k) :=
  (Ideal.multiReduction_add_single src 0x00000000#32 reduces_S128x4096_S128 hφ hacc (ix1 r)).trans
    (Finset.sum_congr rfl fun k _ => congrArg src (funext fun a => Fin.ext (by
      match a with
      | ⟨0, _⟩ => rfl
      | ⟨1, _⟩ => rfl)))

/-- One step of the count accumulator at (r, 0): what it held plus Σₖ hot(seg k, r). -/
theorem pay5_apply (seg : Vec Ideal S4096 .i32) (cnt : Vec Ideal S128x1 .f32) (r : Fin 128) (z : Fin 1) :
    k0_pay5 seg cnt (ix2 r z) = cnt (ix2 r z) + ∑ k : Fin 4096, Spec.hot (seg (ix1 k)) r := by
  unfold k0_pay5
  rw [shapeCast_self, addf_apply]
  congr 1
  exact (col_apply _ r z).trans ((rowsum_apply _ _ _ r).trans (Finset.sum_congr rfl fun k _ => pay3_apply seg r k))

theorem pay1_apply (i : S128x512.Idx) : (k0_pay1 (F := Ideal)) i = 0 := by
  unfold k0_pay1
  rw [shapeCast_self, broadcast_apply]
  exact Ideal.ofBits_zero_f32
theorem pay2_apply (i : S128x1.Idx) : (k0_pay2 (F := Ideal)) i = 0 := by
  unfold k0_pay2
  rw [shapeCast_self, broadcast_apply]
  exact Ideal.ofBits_zero_f32

theorem pay6_apply (v : Vec Ideal S128x512 .f32) (u : Fin 1) (r : Fin 128) (h : Fin 512) :
    k0_pay6 v (ix3 u r h) = v (ix2 r h) := by
  unfold k0_pay6
  exact shapeCast_ab_1ab_apply v shapeCasts_S128x512_S1x128x512 u r h
theorem pay7_apply (v : Vec Ideal S128x1 .f32) (u : Fin 1) (r : Fin 128) (z : Fin 1) :
    k0_pay7 v (ix3 u r z) = v (ix2 r z) := by
  unfold k0_pay7
  exact shapeCast_ab_1ab_apply v shapeCasts_S128x1_S1x128x1 u r z

def hotAt {n : ℕ} (seg : Spec.Ids n) (m : ℕ) (r : Fin 128) : EReal :=
  if hm : m < n then Spec.hot (seg (ix1 ⟨m, hm⟩)) r else 0
def featAt {n : ℕ} (feat : Spec.Mat n 512) (m : ℕ) (h : Fin 512) : EReal :=
  if hm : m < n then feat (ix2 ⟨m, hm⟩ h) else 0

def blkSum {n : ℕ} (feat : Spec.Mat n 512) (seg : Spec.Ids n) (t : ℕ) (r : Fin 128) (h : Fin 512) : EReal :=
  ∑ k : Fin 4096, hotAt seg (t * 4096 + k.val) r * featAt feat (t * 4096 + k.val) h
def blkCnt {n : ℕ} (seg : Spec.Ids n) (t : ℕ) (r : Fin 128) : EReal :=
  ∑ k : Fin 4096, hotAt seg (t * 4096 + k.val) r

end Cert.KernelIdeal.Pool0

end
-- ==== Proof.KernelIdeal.Pool0Value.lean ====
import proofs.«419520_j38482906972438_2_alg».proof.Proof.KernelIdeal.Pool0Defs
import proofs.«419520_j38482906972438_2_alg».proof.Proof.KernelIdeal.Pool0Pay
import proofs.«419520_j38482906972438_2_alg».proof.Proof.Spec
import proofs.«419520_j38482906972438_2_alg».proof.Proof.SpecLemmas
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pool0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Pool0 (pay1_apply pay2_apply pay4_apply pay5_apply pay6_apply pay7_apply hotAt featAt blkSum blkCnt)
open scoped BigOperators

variable (V : (c : Dev nD) → (b : Ref sig .tc) → Buf (Elt Ideal) ((c : Thread nD τ).loc b))

theorem idx_in (t : Fin cfg0.N) :
    win0_0.index t (0 : Fin 2) = t.val ∧ win0_0.index t (1 : Fin 2) = 0 ∧ win0_1.index t (0 : Fin 1) = t.val :=
  (by decide +kernel : ∀ t : Fin grid0.N,
    win0_0.index t (0 : Fin 2) = t.val ∧ win0_0.index t (1 : Fin 2) = 0 ∧ win0_1.index t (0 : Fin 1) = t.val) t
theorem idx_out (t : Fin cfg0.N) :
    win0_2.index t (0 : Fin 3) * 16 + t.val % 16 = t.val ∧ win0_2.index t (1 : Fin 3) = 0 ∧ win0_2.index t (2 : Fin 3) = 0
      ∧ win0_3.index t (0 : Fin 3) * 16 + t.val % 16 = t.val ∧ win0_3.index t (1 : Fin 3) = 0 ∧ win0_3.index t (2 : Fin 3) = 0 :=
  (by decide +kernel : ∀ t : Fin grid0.N,
    win0_2.index t (0 : Fin 3) * 16 + t.val % 16 = t.val ∧ win0_2.index t (1 : Fin 3) = 0 ∧ win0_2.index t (2 : Fin 3) = 0
      ∧ win0_3.index t (0 : Fin 3) * 16 + t.val % 16 = t.val ∧ win0_3.index t (1 : Fin 3) = 0 ∧ win0_3.index t (2 : Fin 3) = 0) t

theorem flush_sum (t : Fin cfg0.N) : (cfg0.win 2).flush t = true ↔ t.val % 16 = 15 :=
  (by decide +kernel : ∀ t : Fin grid0.N, win0_2.flush t = true ↔ t.val % 16 = 15) t
theorem flush_cnt (t : Fin cfg0.N) : (cfg0.win 3).flush t = true ↔ t.val % 16 = 15 :=
  (by decide +kernel : ∀ t : Fin grid0.N, win0_3.flush t = true ↔ t.val % 16 = 15) t

theorem featBlk_apply (c : Dev nD) (t : Fin cfg0.N) (k : Fin 4096) (h : Fin 512) :
    featBlk V c t (ix2 k h) = featAt (V c (Pipeline.arrRef spec0 0)) (t.val * 4096 + k.val) h := by
  have e := idx_in t
  have hv : ((((cfg0.win 0).blk t).view.emb (ix2 k h : S4096x512.Idx)) 0).val = t.val * 4096 + k.val := by
    show win0_0.index t (0 : Fin 2) * 4096 + 1 * k.val = _
    rw [e.1, Nat.one_mul]
  have hlt := ((((cfg0.win 0).blk t).view.emb (ix2 k h : S4096x512.Idx)) 0).isLt
  rw [hv] at hlt
  unfold featAt
  rw [dif_pos]
  · show V c (Pipeline.arrRef spec0 0) (((cfg0.win 0).blk t).view.emb (ix2 k h : S4096x512.Idx)) = _
    congr 1
    funext a; apply Fin.ext
    match a with
    | ⟨0, _⟩ => exact hv
    | ⟨1, _⟩ =>
      show win0_0.index t (1 : Fin 2) * 512 + 1 * h.val = h.val
      rw [e.2.1, Nat.zero_mul, Nat.zero_add, Nat.one_mul]
  · exact hlt

theorem segBlk_apply (c : Dev nD) (t : Fin cfg0.N) (k : Fin 4096) (r : Fin 128) :
    Spec.hot (segBlk V c t (ix1 k)) r = hotAt (V c (Pipeline.arrRef spec0 1)) (t.val * 4096 + k.val) r := by
  have e := idx_in t
  have hv : ((((cfg0.win 1).blk t).view.emb (ix1 k : S4096.Idx)) 0).val = t.val * 4096 + k.val := by
    show win0_1.index t (0 : Fin 1) * 4096 + 1 * k.val = _
    rw [e.2.2, Nat.one_mul]
  have hlt := ((((cfg0.win 1).blk t).view.emb (ix1 k : S4096.Idx)) 0).isLt
  rw [hv] at hlt
  unfold hotAt
  rw [dif_pos]
  · congr 1
    show V c (Pipeline.arrRef spec0 1) (((cfg0.win 1).blk t).view.emb (ix1 k : S4096.Idx)) = _
    congr 1
    funext a; apply Fin.ext
    match a with
    | ⟨0, _⟩ => exact hv
  · exact hlt

theorem step_sum (c : Dev nD) (t : Fin cfg0.N) (acc : Vec Ideal S128x512 .f32) (r : Fin 128) (h : Fin 512) :
    k0_pay4 (featBlk V c t) (segBlk V c t) acc (ix2 r h)
      = acc (ix2 r h) + blkSum (V c (Pipeline.arrRef spec0 0)) (V c (Pipeline.arrRef spec0 1)) t.val r h := by
  rw [pay4_apply]
  congr 1
  exact Finset.sum_congr rfl fun k _ => by rw [segBlk_apply, featBlk_apply]
theorem step_cnt (c : Dev nD) (t : Fin cfg0.N) (cnt : Vec Ideal S128x1 .f32) (r : Fin 128) (z : Fin 1) :
    k0_pay5 (segBlk V c t) cnt (ix2 r z) = cnt (ix2 r z) + blkCnt (V c (Pipeline.arrRef spec0 1)) t.val r := by
  rw [pay5_apply]
  congr 1
  exact Finset.sum_congr rfl fun k _ => segBlk_apply V c t k r

/-- The sum accumulator after point `n` is the sum of the blocks of n's run up to n. -/
theorem accAt_sum (c : Dev nD) : ∀ (n : ℕ) (hn : n < cfg0.N) (r : Fin 128) (h : Fin 512),
    (accAt V c n hn).1 (ix2 r h)
      = ∑ i ∈ Finset.range (n % 16 + 1),
          blkSum (V c (Pipeline.arrRef spec0 0)) (V c (Pipeline.arrRef spec0 1)) (n - n % 16 + i) r h
  | 0, hn, r, h => by
    refine (congrArg (fun p => p.1 (ix2 r h)) (accAt_reset V c ⟨0, hn⟩ (Nat.zero_mod _))).trans ?_
    show k0_pay4 (featBlk V c ⟨0, hn⟩) (segBlk V c ⟨0, hn⟩) (k0_pay1 (F := Ideal)) (ix2 r h) = _
    rw [step_sum, pay1_apply, zero_add]
    simp
  | n + 1, hn, r, h => by
    by_cases hz : (n + 1) % 16 = 0
    · refine (congrArg (fun p => p.1 (ix2 r h)) (accAt_reset V c ⟨n + 1, hn⟩ hz)).trans ?_
      show k0_pay4 (featBlk V c ⟨n + 1, hn⟩) (segBlk V c ⟨n + 1, hn⟩) (k0_pay1 (F := Ideal)) (ix2 r h) = _
      rw [step_sum, pay1_apply, zero_add, hz]
      simp
    · refine (congrArg (fun p => p.1 (ix2 r h)) (accAt_step V c ⟨n + 1, hn⟩ hz)).trans ?_
      show k0_pay4 (featBlk V c ⟨n + 1, hn⟩) (segBlk V c ⟨n + 1, hn⟩) (accAt V c n (Nat.lt_of_succ_lt hn)).1 (ix2 r h) = _
      rw [step_sum, accAt_sum c n (Nat.lt_of_succ_lt hn) r h]
      have h1 : (n + 1) % 16 = n % 16 + 1 := by omega
      have h2 : n + 1 - (n % 16 + 1) = n - n % 16 := by omega
      rw [h1, h2, Finset.sum_range_succ _ (n % 16 + 1)]
      congr 2
      show n + 1 = n - n % 16 + (n % 16 + 1)
      omega

/-- The count accumulator after point `n`, likewise. -/
theorem accAt_cnt (c : Dev nD) : ∀ (n : ℕ) (hn : n < cfg0.N) (r : Fin 128) (z : Fin 1),
    (accAt V c n hn).2 (ix2 r z)
      = ∑ i ∈ Finset.range (n % 16 + 1), blkCnt (V c (Pipeline.arrRef spec0 1)) (n - n % 16 + i) r
  | 0, hn, r, z => by
    refine (congrArg (fun p => p.2 (ix2 r z)) (accAt_reset V c ⟨0, hn⟩ (Nat.zero_mod _))).trans ?_
    show k0_pay5 (segBlk V c ⟨0, hn⟩) (k0_pay2 (F := Ideal)) (ix2 r z) = _
    rw [step_cnt, pay2_apply, zero_add]
    simp
  | n + 1, hn, r, z => by
    by_cases hz : (n + 1) % 16 = 0
    · refine (congrArg (fun p => p.2 (ix2 r z)) (accAt_reset V c ⟨n + 1, hn⟩ hz)).trans ?_
      show k0_pay5 (segBlk V c ⟨n + 1, hn⟩) (k0_pay2 (F := Ideal)) (ix2 r z) = _
      rw [step_cnt, pay2_apply, zero_add, hz]
      simp
    · refine (congrArg (fun p => p.2 (ix2 r z)) (accAt_step V c ⟨n + 1, hn⟩ hz)).trans ?_
      show k0_pay5 (segBlk V c ⟨n + 1, hn⟩) (accAt V c n (Nat.lt_of_succ_lt hn)).2 (ix2 r z) = _
      rw [step_cnt, accAt_cnt c n (Nat.lt_of_succ_lt hn) r z]
      have h1 : (n + 1) % 16 = n % 16 + 1 := by omega
      have h2 : n + 1 - (n % 16 + 1) = n - n % 16 := by omega
      rw [h1, h2, Finset.sum_range_succ _ (n % 16 + 1)]
      congr 2
      show n + 1 = n - n % 16 + (n % 16 + 1)
      omega

def outSum (c : Dev nD) : S2x128x512.Idx → EReal := fun j =>
  ∑ i : Fin 16, blkSum (V c (Pipeline.arrRef spec0 0)) (V c (Pipeline.arrRef spec0 1)) ((j 0).val * 16 + i.val) (j 1) (j 2)
def outCnt (c : Dev nD) : S2x128x1.Idx → EReal := fun j =>
  ∑ i : Fin 16, blkCnt (V c (Pipeline.arrRef spec0 1)) ((j 0).val * 16 + i.val) (j 1)

theorem flushed_sum (c : Dev nD) (t : Fin cfg0.N) (hf : t.val % 16 = 15) :
    (dat V c).flushed 2 t = ((cfg0.win 2).blk t).view.read (Elt Ideal) (outSum V c) := by
  show (cfg0.win 2).cut (grid0.coords t) ((dat V c).after 2 t) = _
  rw [after_2]
  refine funext fun (y : S1x128x512.Idx) => ?_
  obtain ⟨u, r, h, rfl⟩ : ∃ (u : Fin 1) (r : Fin 128) (h : Fin 512), y = ix3 u r h := ⟨y 0, y 1, y 2, eq_ix3 y⟩
  have e := idx_out t
  have hu : u.val = 0 := by omega
  have h0 : ((((cfg0.win 2).blk t).view.emb (ix3 u r h : S1x128x512.Idx)) 0).val = win0_2.index t (0 : Fin 3) := by
    show win0_2.index t (0 : Fin 3) * 1 + 1 * u.val = _
    rw [hu, Nat.mul_one, Nat.mul_zero, Nat.add_zero]
  have h1 : (((cfg0.win 2).blk t).view.emb (ix3 u r h : S1x128x512.Idx)) 1 = r := Fin.ext (by
    show win0_2.index t (1 : Fin 3) * 128 + 1 * r.val = r.val
    rw [e.2.1, Nat.zero_mul, Nat.zero_add, Nat.one_mul])
  have h2 : (((cfg0.win 2).blk t).view.emb (ix3 u r h : S1x128x512.Idx)) 2 = h := Fin.ext (by
    show win0_2.index t (2 : Fin 3) * 512 + 1 * h.val = h.val
    rw [e.2.2.1, Nat.zero_mul, Nat.zero_add, Nat.one_mul])
  show k0_pay6 (accAt V c t.val t.isLt).1 (ix3 u r h) = outSum V c (((cfg0.win 2).blk t).view.emb (ix3 u r h : S1x128x512.Idx))
  rw [pay6_apply, accAt_sum]
  unfold outSum
  rw [h0, h1, h2]
  refine Eq.trans ?_ (Fin.sum_univ_eq_sum_range (fun i => blkSum (V c (Pipeline.arrRef spec0 0)) (V c (Pipeline.arrRef spec0 1))
    (win0_2.index t (0 : Fin 3) * 16 + i) r h) _).symm
  refine Finset.sum_congr (congrArg Finset.range (by omega)) fun i _ => ?_
  congr 1
  omega

theorem flushed_cnt (c : Dev nD) (t : Fin cfg0.N) (hf : t.val % 16 = 15) :
    (dat V c).flushed 3 t = ((cfg0.win 3).blk t).view.read (Elt Ideal) (outCnt V c) := by
  show (cfg0.win 3).cut (grid0.coords t) ((dat V c).after 3 t) = _
  rw [after_3]
  refine funext fun (y : S1x128x1.Idx) => ?_
  obtain ⟨u, r, z, rfl⟩ : ∃ (u : Fin 1) (r : Fin 128) (z : Fin 1), y = ix3 u r z := ⟨y 0, y 1, y 2, eq_ix3 y⟩
  have e := idx_out t
  have hu : u.val = 0 := by omega
  have h0 : ((((cfg0.win 3).blk t).view.emb (ix3 u r z : S1x128x1.Idx)) 0).val = win0_3.index t (0 : Fin 3) := by
    show win0_3.index t (0 : Fin 3) * 1 + 1 * u.val = _
    rw [hu, Nat.mul_one, Nat.mul_zero, Nat.add_zero]
  have h1 : (((cfg0.win 3).blk t).view.emb (ix3 u r z : S1x128x1.Idx)) 1 = r := Fin.ext (by
    show win0_3.index t (1 : Fin 3) * 128 + 1 * r.val = r.val
    rw [e.2.2.2.2.1, Nat.zero_mul, Nat.zero_add, Nat.one_mul])
  show k0_pay7 (accAt V c t.val t.isLt).2 (ix3 u r z) = outCnt V c (((cfg0.win 3).blk t).view.emb (ix3 u r z : S1x128x1.Idx))
  rw [pay7_apply, accAt_cnt]
  unfold outCnt
  rw [h0, h1]
  refine Eq.trans ?_ (Fin.sum_univ_eq_sum_range (fun i => blkCnt (V c (Pipeline.arrRef spec0 1))
    (win0_3.index t (0 : Fin 3) * 16 + i) r) _).symm
  refine Finset.sum_congr (congrArg Finset.range (by omega)) fun i _ => ?_
  congr 1
  omega

theorem cover_sum (j : S2x128x512.Idx) :
    ∃ t : Fin cfg0.N, (cfg0.win 2).flush t = true ∧ j ∈ ((cfg0.win 2).blk t).view.set := by
  have hj0 : (j 0).val < 2 := (j 0).isLt
  have hN : (j 0).val * 16 + (1 * 16 - 1) < cfg0.N := by
    show _ < grid0.N
    rw [N_0]; omega
  have hval : (⟨(j 0).val * 16 + (1 * 16 - 1), hN⟩ : Fin cfg0.N).val = (j 0).val * 16 + (1 * 16 - 1) := rfl
  generalize (⟨(j 0).val * 16 + (1 * 16 - 1), hN⟩ : Fin cfg0.N) = t at hval
  have e := idx_out t
  refine ⟨t, (flush_sum t).mpr (by omega), ?_⟩
  have hy : ((cfg0.win 2).blk t).view.emb (ix3 (0 : Fin 1) (j 1 : Fin 128) (j 2 : Fin 512) : S1x128x512.Idx) = j := by
    funext a; apply Fin.ext
    match a with
    | ⟨0, _⟩ =>
      show win0_2.index t (0 : Fin 3) * 1 + 1 * 0 = (j 0).val
      omega
    | ⟨1, _⟩ =>
      show win0_2.index t (1 : Fin 3) * 128 + 1 * (j 1).val = (j 1).val
      rw [e.2.1, Nat.zero_mul, Nat.zero_add, Nat.one_mul]
    | ⟨2, _⟩ =>
      show win0_2.index t (2 : Fin 3) * 512 + 1 * (j 2).val = (j 2).val
      rw [e.2.2.1, Nat.zero_mul, Nat.zero_add, Nat.one_mul]
  have hm := ((cfg0.win 2).blk t).view.emb_mem_set (ix3 (0 : Fin 1) (j 1 : Fin 128) (j 2 : Fin 512) : S1x128x512.Idx)
  rw [hy] at hm
  exact hm

theorem cover_cnt (j : S2x128x1.Idx) :
    ∃ t : Fin cfg0.N, (cfg0.win 3).flush t = true ∧ j ∈ ((cfg0.win 3).blk t).view.set := by
  have hj0 : (j 0).val < 2 := (j 0).isLt
  have hj2 : (j 2).val < 1 := (j 2).isLt
  have hN : (j 0).val * 16 + (1 * 16 - 1) < cfg0.N := by
    show _ < grid0.N
    rw [N_0]; omega
  have hval : (⟨(j 0).val * 16 + (1 * 16 - 1), hN⟩ : Fin cfg0.N).val = (j 0).val * 16 + (1 * 16 - 1) := rfl
  generalize (⟨(j 0).val * 16 + (1 * 16 - 1), hN⟩ : Fin cfg0.N) = t at hval
  have e := idx_out t
  refine ⟨t, (flush_cnt t).mpr (by omega), ?_⟩
  have hy : ((cfg0.win 3).blk t).view.emb (ix3 (0 : Fin 1) (j 1 : Fin 128) (j 2 : Fin 1) : S1x128x1.Idx) = j := by
    funext a; apply Fin.ext
    match a with
    | ⟨0, _⟩ =>
      show win0_3.index t (0 : Fin 3) * 1 + 1 * 0 = (j 0).val
      omega
    | ⟨1, _⟩ =>
      show win0_3.index t (1 : Fin 3) * 128 + 1 * (j 1).val = (j 1).val
      rw [e.2.2.2.2.1, Nat.zero_mul, Nat.zero_add, Nat.one_mul]
    | ⟨2, _⟩ =>
      show win0_3.index t (2 : Fin 3) * 1 + 1 * (j 2).val = (j 2).val
      rw [e.2.2.2.2.2, Nat.zero_mul, Nat.zero_add, Nat.one_mul]
  have hm := ((cfg0.win 3).blk t).view.emb_mem_set (ix3 (0 : Fin 1) (j 1 : Fin 128) (j 2 : Fin 1) : S1x128x1.Idx)
  rw [hy] at hm
  exact hm

/-- The sum output after the region: at (run, r, h) the sum over the run's rows of hot · feature. -/
theorem sum_arr (c : Dev nD) :
    (dat (F := Ideal) V c).arrAt 2 cfg0.N = fun j : S2x128x512.Idx =>
      ∑ i : Fin 16, ∑ k : Fin 4096,
        Spec.hot (V c (Pipeline.arrRef spec0 1) (ix1 ⟨((j 0).val * 16 + i.val) * 4096 + k.val, Spec.row16_lt (j 0) i k⟩)) (j 1)
          * V c (Pipeline.arrRef spec0 0) (ix2 ⟨((j 0).val * 16 + i.val) * 4096 + k.val, Spec.row16_lt (j 0) i k⟩ (j 2)) := by
  refine ((dat V c).arrAt_eq_of_cover 2 (outSum V c) (fun t hf => flushed_sum V c t ((flush_sum t).mp hf)) cover_sum).trans ?_
  funext j
  unfold outSum blkSum
  refine Finset.sum_congr rfl fun i _ => Finset.sum_congr rfl fun k _ => ?_
  unfold hotAt featAt
  rw [dif_pos (Spec.row16_lt (j 0) i k), dif_pos (Spec.row16_lt (j 0) i k)]

/-- The count output after the region: at (run, r, 0) the number of the run's rows of segment r. -/
theorem cnt_arr (c : Dev nD) :
    (dat (F := Ideal) V c).arrAt 3 cfg0.N = fun j : S2x128x1.Idx =>
      ∑ i : Fin 16, ∑ k : Fin 4096,
        Spec.hot (V c (Pipeline.arrRef spec0 1) (ix1 ⟨((j 0).val * 16 + i.val) * 4096 + k.val, Spec.row16_lt (j 0) i k⟩)) (j 1) := by
  refine ((dat V c).arrAt_eq_of_cover 3 (outCnt V c) (fun t hf => flushed_cnt V c t ((flush_cnt t).mp hf)) cover_cnt).trans ?_
  funext j
  unfold outCnt blkCnt
  refine Finset.sum_congr rfl fun i _ => Finset.sum_congr rfl fun k _ => ?_
  unfold hotAt
  rw [dif_pos (Spec.row16_lt (j 0) i k)]

end Cert.KernelIdeal.Pool0

end
-- ==== Proof.KernelIdeal.Pool1Value.lean ====
import proofs.«419520_j38482906972438_2_alg».proof.Proof.KernelIdeal.Pool1Defs
import proofs.«419520_j38482906972438_2_alg».proof.Proof.KernelIdeal.Pool0Pay
import proofs.«419520_j38482906972438_2_alg».proof.Proof.Spec
import proofs.«419520_j38482906972438_2_alg».proof.Proof.SpecLemmas
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pool1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Pool0 (pay1_apply pay2_apply pay4_apply pay5_apply pay6_apply pay7_apply hotAt featAt blkSum blkCnt)
open scoped BigOperators

variable (V : (c : Dev nD) → (b : Ref sig .tc) → Buf (Elt Ideal) ((c : Thread nD τ).loc b))

theorem idx_in (t : Fin cfg1.N) :
    win1_0.index t (0 : Fin 2) = t.val ∧ win1_0.index t (1 : Fin 2) = 0 ∧ win1_1.index t (0 : Fin 1) = t.val :=
  (by decide +kernel : ∀ t : Fin grid1.N,
    win1_0.index t (0 : Fin 2) = t.val ∧ win1_0.index t (1 : Fin 2) = 0 ∧ win1_1.index t (0 : Fin 1) = t.val) t
theorem idx_out (t : Fin cfg1.N) :
    win1_2.index t (0 : Fin 3) * 16 + t.val % 16 = t.val ∧ win1_2.index t (1 : Fin 3) = 0 ∧ win1_2.index t (2 : Fin 3) = 0
      ∧ win1_3.index t (0 : Fin 3) * 16 + t.val % 16 = t.val ∧ win1_3.index t (1 : Fin 3) = 0 ∧ win1_3.index t (2 : Fin 3) = 0 :=
  (by decide +kernel : ∀ t : Fin grid1.N,
    win1_2.index t (0 : Fin 3) * 16 + t.val % 16 = t.val ∧ win1_2.index t (1 : Fin 3) = 0 ∧ win1_2.index t (2 : Fin 3) = 0
      ∧ win1_3.index t (0 : Fin 3) * 16 + t.val % 16 = t.val ∧ win1_3.index t (1 : Fin 3) = 0 ∧ win1_3.index t (2 : Fin 3) = 0) t

theorem flush_sum (t : Fin cfg1.N) : (cfg1.win 2).flush t = true ↔ t.val % 16 = 15 :=
  (by decide +kernel : ∀ t : Fin grid1.N, win1_2.flush t = true ↔ t.val % 16 = 15) t
theorem flush_cnt (t : Fin cfg1.N) : (cfg1.win 3).flush t = true ↔ t.val % 16 = 15 :=
  (by decide +kernel : ∀ t : Fin grid1.N, win1_3.flush t = true ↔ t.val % 16 = 15) t

theorem featBlk_apply (c : Dev nD) (t : Fin cfg1.N) (k : Fin 4096) (h : Fin 512) :
    featBlk V c t (ix2 k h) = featAt (V c (Pipeline.arrRef spec1 0)) (t.val * 4096 + k.val) h := by
  have e := idx_in t
  have hv : ((((cfg1.win 0).blk t).view.emb (ix2 k h : S4096x512.Idx)) 0).val = t.val * 4096 + k.val := by
    show win1_0.index t (0 : Fin 2) * 4096 + 1 * k.val = _
    rw [e.1, Nat.one_mul]
  have hlt := ((((cfg1.win 0).blk t).view.emb (ix2 k h : S4096x512.Idx)) 0).isLt
  rw [hv] at hlt
  unfold featAt
  rw [dif_pos]
  · show V c (Pipeline.arrRef spec1 0) (((cfg1.win 0).blk t).view.emb (ix2 k h : S4096x512.Idx)) = _
    congr 1
    funext a; apply Fin.ext
    match a with
    | ⟨0, _⟩ => exact hv
    | ⟨1, _⟩ =>
      show win1_0.index t (1 : Fin 2) * 512 + 1 * h.val = h.val
      rw [e.2.1, Nat.zero_mul, Nat.zero_add, Nat.one_mul]
  · exact hlt

theorem segBlk_apply (c : Dev nD) (t : Fin cfg1.N) (k : Fin 4096) (r : Fin 128) :
    Spec.hot (segBlk V c t (ix1 k)) r = hotAt (V c (Pipeline.arrRef spec1 1)) (t.val * 4096 + k.val) r := by
  have e := idx_in t
  have hv : ((((cfg1.win 1).blk t).view.emb (ix1 k : S4096.Idx)) 0).val = t.val * 4096 + k.val := by
    show win1_1.index t (0 : Fin 1) * 4096 + 1 * k.val = _
    rw [e.2.2, Nat.one_mul]
  have hlt := ((((cfg1.win 1).blk t).view.emb (ix1 k : S4096.Idx)) 0).isLt
  rw [hv] at hlt
  unfold hotAt
  rw [dif_pos]
  · congr 1
    show V c (Pipeline.arrRef spec1 1) (((cfg1.win 1).blk t).view.emb (ix1 k : S4096.Idx)) = _
    congr 1
    funext a; apply Fin.ext
    match a with
    | ⟨0, _⟩ => exact hv
  · exact hlt

theorem step_sum (c : Dev nD) (t : Fin cfg1.N) (acc : Vec Ideal S128x512 .f32) (r : Fin 128) (h : Fin 512) :
    k0_pay4 (featBlk V c t) (segBlk V c t) acc (ix2 r h)
      = acc (ix2 r h) + blkSum (V c (Pipeline.arrRef spec1 0)) (V c (Pipeline.arrRef spec1 1)) t.val r h := by
  rw [pay4_apply]
  congr 1
  exact Finset.sum_congr rfl fun k _ => by rw [segBlk_apply, featBlk_apply]
theorem step_cnt (c : Dev nD) (t : Fin cfg1.N) (cnt : Vec Ideal S128x1 .f32) (r : Fin 128) (z : Fin 1) :
    k0_pay5 (segBlk V c t) cnt (ix2 r z) = cnt (ix2 r z) + blkCnt (V c (Pipeline.arrRef spec1 1)) t.val r := by
  rw [pay5_apply]
  congr 1
  exact Finset.sum_congr rfl fun k _ => segBlk_apply V c t k r

/-- The sum accumulator after point `n` is the sum of the blocks of n's run up to n. -/
theorem accAt_sum (c : Dev nD) : ∀ (n : ℕ) (hn : n < cfg1.N) (r : Fin 128) (h : Fin 512),
    (accAt V c n hn).1 (ix2 r h)
      = ∑ i ∈ Finset.range (n % 16 + 1),
          blkSum (V c (Pipeline.arrRef spec1 0)) (V c (Pipeline.arrRef spec1 1)) (n - n % 16 + i) r h
  | 0, hn, r, h => by
    refine (congrArg (fun p => p.1 (ix2 r h)) (accAt_reset V c ⟨0, hn⟩ (Nat.zero_mod _))).trans ?_
    show k0_pay4 (featBlk V c ⟨0, hn⟩) (segBlk V c ⟨0, hn⟩) (k0_pay1 (F := Ideal)) (ix2 r h) = _
    rw [step_sum, pay1_apply, zero_add]
    simp
  | n + 1, hn, r, h => by
    by_cases hz : (n + 1) % 16 = 0
    · refine (congrArg (fun p => p.1 (ix2 r h)) (accAt_reset V c ⟨n + 1, hn⟩ hz)).trans ?_
      show k0_pay4 (featBlk V c ⟨n + 1, hn⟩) (segBlk V c ⟨n + 1, hn⟩) (k0_pay1 (F := Ideal)) (ix2 r h) = _
      rw [step_sum, pay1_apply, zero_add, hz]
      simp
    · refine (congrArg (fun p => p.1 (ix2 r h)) (accAt_step V c ⟨n + 1, hn⟩ hz)).trans ?_
      show k0_pay4 (featBlk V c ⟨n + 1, hn⟩) (segBlk V c ⟨n + 1, hn⟩) (accAt V c n (Nat.lt_of_succ_lt hn)).1 (ix2 r h) = _
      rw [step_sum, accAt_sum c n (Nat.lt_of_succ_lt hn) r h]
      have h1 : (n + 1) % 16 = n % 16 + 1 := by omega
      have h2 : n + 1 - (n % 16 + 1) = n - n % 16 := by omega
      rw [h1, h2, Finset.sum_range_succ _ (n % 16 + 1)]
      congr 2
      show n + 1 = n - n % 16 + (n % 16 + 1)
      omega

/-- The count accumulator after point `n`, likewise. -/
theorem accAt_cnt (c : Dev nD) : ∀ (n : ℕ) (hn : n < cfg1.N) (r : Fin 128) (z : Fin 1),
    (accAt V c n hn).2 (ix2 r z)
      = ∑ i ∈ Finset.range (n % 16 + 1), blkCnt (V c (Pipeline.arrRef spec1 1)) (n - n % 16 + i) r
  | 0, hn, r, z => by
    refine (congrArg (fun p => p.2 (ix2 r z)) (accAt_reset V c ⟨0, hn⟩ (Nat.zero_mod _))).trans ?_
    show k0_pay5 (segBlk V c ⟨0, hn⟩) (k0_pay2 (F := Ideal)) (ix2 r z) = _
    rw [step_cnt, pay2_apply, zero_add]
    simp
  | n + 1, hn, r, z => by
    by_cases hz : (n + 1) % 16 = 0
    · refine (congrArg (fun p => p.2 (ix2 r z)) (accAt_reset V c ⟨n + 1, hn⟩ hz)).trans ?_
      show k0_pay5 (segBlk V c ⟨n + 1, hn⟩) (k0_pay2 (F := Ideal)) (ix2 r z) = _
      rw [step_cnt, pay2_apply, zero_add, hz]
      simp
    · refine (congrArg (fun p => p.2 (ix2 r z)) (accAt_step V c ⟨n + 1, hn⟩ hz)).trans ?_
      show k0_pay5 (segBlk V c ⟨n + 1, hn⟩) (accAt V c n (Nat.lt_of_succ_lt hn)).2 (ix2 r z) = _
      rw [step_cnt, accAt_cnt c n (Nat.lt_of_succ_lt hn) r z]
      have h1 : (n + 1) % 16 = n % 16 + 1 := by omega
      have h2 : n + 1 - (n % 16 + 1) = n - n % 16 := by omega
      rw [h1, h2, Finset.sum_range_succ _ (n % 16 + 1)]
      congr 2
      show n + 1 = n - n % 16 + (n % 16 + 1)
      omega

def outSum (c : Dev nD) : S2x128x512.Idx → EReal := fun j =>
  ∑ i : Fin 16, blkSum (V c (Pipeline.arrRef spec1 0)) (V c (Pipeline.arrRef spec1 1)) ((j 0).val * 16 + i.val) (j 1) (j 2)
def outCnt (c : Dev nD) : S2x128x1.Idx → EReal := fun j =>
  ∑ i : Fin 16, blkCnt (V c (Pipeline.arrRef spec1 1)) ((j 0).val * 16 + i.val) (j 1)

theorem flushed_sum (c : Dev nD) (t : Fin cfg1.N) (hf : t.val % 16 = 15) :
    (dat V c).flushed 2 t = ((cfg1.win 2).blk t).view.read (Elt Ideal) (outSum V c) := by
  show (cfg1.win 2).cut (grid1.coords t) ((dat V c).after 2 t) = _
  rw [after_2]
  refine funext fun (y : S1x128x512.Idx) => ?_
  obtain ⟨u, r, h, rfl⟩ : ∃ (u : Fin 1) (r : Fin 128) (h : Fin 512), y = ix3 u r h := ⟨y 0, y 1, y 2, eq_ix3 y⟩
  have e := idx_out t
  have hu : u.val = 0 := by omega
  have h0 : ((((cfg1.win 2).blk t).view.emb (ix3 u r h : S1x128x512.Idx)) 0).val = win1_2.index t (0 : Fin 3) := by
    show win1_2.index t (0 : Fin 3) * 1 + 1 * u.val = _
    rw [hu, Nat.mul_one, Nat.mul_zero, Nat.add_zero]
  have h1 : (((cfg1.win 2).blk t).view.emb (ix3 u r h : S1x128x512.Idx)) 1 = r := Fin.ext (by
    show win1_2.index t (1 : Fin 3) * 128 + 1 * r.val = r.val
    rw [e.2.1, Nat.zero_mul, Nat.zero_add, Nat.one_mul])
  have h2 : (((cfg1.win 2).blk t).view.emb (ix3 u r h : S1x128x512.Idx)) 2 = h := Fin.ext (by
    show win1_2.index t (2 : Fin 3) * 512 + 1 * h.val = h.val
    rw [e.2.2.1, Nat.zero_mul, Nat.zero_add, Nat.one_mul])
  show k0_pay6 (accAt V c t.val t.isLt).1 (ix3 u r h) = outSum V c (((cfg1.win 2).blk t).view.emb (ix3 u r h : S1x128x512.Idx))
  rw [pay6_apply, accAt_sum]
  unfold outSum
  rw [h0, h1, h2]
  refine Eq.trans ?_ (Fin.sum_univ_eq_sum_range (fun i => blkSum (V c (Pipeline.arrRef spec1 0)) (V c (Pipeline.arrRef spec1 1))
    (win1_2.index t (0 : Fin 3) * 16 + i) r h) _).symm
  refine Finset.sum_congr (congrArg Finset.range (by omega)) fun i _ => ?_
  congr 1
  omega

theorem flushed_cnt (c : Dev nD) (t : Fin cfg1.N) (hf : t.val % 16 = 15) :
    (dat V c).flushed 3 t = ((cfg1.win 3).blk t).view.read (Elt Ideal) (outCnt V c) := by
  show (cfg1.win 3).cut (grid1.coords t) ((dat V c).after 3 t) = _
  rw [after_3]
  refine funext fun (y : S1x128x1.Idx) => ?_
  obtain ⟨u, r, z, rfl⟩ : ∃ (u : Fin 1) (r : Fin 128) (z : Fin 1), y = ix3 u r z := ⟨y 0, y 1, y 2, eq_ix3 y⟩
  have e := idx_out t
  have hu : u.val = 0 := by omega
  have h0 : ((((cfg1.win 3).blk t).view.emb (ix3 u r z : S1x128x1.Idx)) 0).val = win1_3.index t (0 : Fin 3) := by
    show win1_3.index t (0 : Fin 3) * 1 + 1 * u.val = _
    rw [hu, Nat.mul_one, Nat.mul_zero, Nat.add_zero]
  have h1 : (((cfg1.win 3).blk t).view.emb (ix3 u r z : S1x128x1.Idx)) 1 = r := Fin.ext (by
    show win1_3.index t (1 : Fin 3) * 128 + 1 * r.val = r.val
    rw [e.2.2.2.2.1, Nat.zero_mul, Nat.zero_add, Nat.one_mul])
  show k0_pay7 (accAt V c t.val t.isLt).2 (ix3 u r z) = outCnt V c (((cfg1.win 3).blk t).view.emb (ix3 u r z : S1x128x1.Idx))
  rw [pay7_apply, accAt_cnt]
  unfold outCnt
  rw [h0, h1]
  refine Eq.trans ?_ (Fin.sum_univ_eq_sum_range (fun i => blkCnt (V c (Pipeline.arrRef spec1 1))
    (win1_3.index t (0 : Fin 3) * 16 + i) r) _).symm
  refine Finset.sum_congr (congrArg Finset.range (by omega)) fun i _ => ?_
  congr 1
  omega

theorem cover_sum (j : S2x128x512.Idx) :
    ∃ t : Fin cfg1.N, (cfg1.win 2).flush t = true ∧ j ∈ ((cfg1.win 2).blk t).view.set := by
  have hj0 : (j 0).val < 2 := (j 0).isLt
  have hN : (j 0).val * 16 + (1 * 16 - 1) < cfg1.N := by
    show _ < grid1.N
    rw [N_1]; omega
  have hval : (⟨(j 0).val * 16 + (1 * 16 - 1), hN⟩ : Fin cfg1.N).val = (j 0).val * 16 + (1 * 16 - 1) := rfl
  generalize (⟨(j 0).val * 16 + (1 * 16 - 1), hN⟩ : Fin cfg1.N) = t at hval
  have e := idx_out t
  refine ⟨t, (flush_sum t).mpr (by omega), ?_⟩
  have hy : ((cfg1.win 2).blk t).view.emb (ix3 (0 : Fin 1) (j 1 : Fin 128) (j 2 : Fin 512) : S1x128x512.Idx) = j := by
    funext a; apply Fin.ext
    match a with
    | ⟨0, _⟩ =>
      show win1_2.index t (0 : Fin 3) * 1 + 1 * 0 = (j 0).val
      omega
    | ⟨1, _⟩ =>
      show win1_2.index t (1 : Fin 3) * 128 + 1 * (j 1).val = (j 1).val
      rw [e.2.1, Nat.zero_mul, Nat.zero_add, Nat.one_mul]
    | ⟨2, _⟩ =>
      show win1_2.index t (2 : Fin 3) * 512 + 1 * (j 2).val = (j 2).val
      rw [e.2.2.1, Nat.zero_mul, Nat.zero_add, Nat.one_mul]
  have hm := ((cfg1.win 2).blk t).view.emb_mem_set (ix3 (0 : Fin 1) (j 1 : Fin 128) (j 2 : Fin 512) : S1x128x512.Idx)
  rw [hy] at hm
  exact hm

theorem cover_cnt (j : S2x128x1.Idx) :
    ∃ t : Fin cfg1.N, (cfg1.win 3).flush t = true ∧ j ∈ ((cfg1.win 3).blk t).view.set := by
  have hj0 : (j 0).val < 2 := (j 0).isLt
  have hj2 : (j 2).val < 1 := (j 2).isLt
  have hN : (j 0).val * 16 + (1 * 16 - 1) < cfg1.N := by
    show _ < grid1.N
    rw [N_1]; omega
  have hval : (⟨(j 0).val * 16 + (1 * 16 - 1), hN⟩ : Fin cfg1.N).val = (j 0).val * 16 + (1 * 16 - 1) := rfl
  generalize (⟨(j 0).val * 16 + (1 * 16 - 1), hN⟩ : Fin cfg1.N) = t at hval
  have e := idx_out t
  refine ⟨t, (flush_cnt t).mpr (by omega), ?_⟩
  have hy : ((cfg1.win 3).blk t).view.emb (ix3 (0 : Fin 1) (j 1 : Fin 128) (j 2 : Fin 1) : S1x128x1.Idx) = j := by
    funext a; apply Fin.ext
    match a with
    | ⟨0, _⟩ =>
      show win1_3.index t (0 : Fin 3) * 1 + 1 * 0 = (j 0).val
      omega
    | ⟨1, _⟩ =>
      show win1_3.index t (1 : Fin 3) * 128 + 1 * (j 1).val = (j 1).val
      rw [e.2.2.2.2.1, Nat.zero_mul, Nat.zero_add, Nat.one_mul]
    | ⟨2, _⟩ =>
      show win1_3.index t (2 : Fin 3) * 1 + 1 * (j 2).val = (j 2).val
      rw [e.2.2.2.2.2, Nat.zero_mul, Nat.zero_add, Nat.one_mul]
  have hm := ((cfg1.win 3).blk t).view.emb_mem_set (ix3 (0 : Fin 1) (j 1 : Fin 128) (j 2 : Fin 1) : S1x128x1.Idx)
  rw [hy] at hm
  exact hm

/-- The sum output after the region: at (run, r, h) the sum over the run's rows of hot · feature. -/
theorem sum_arr (c : Dev nD) :
    (dat (F := Ideal) V c).arrAt 2 cfg1.N = fun j : S2x128x512.Idx =>
      ∑ i : Fin 16, ∑ k : Fin 4096,
        Spec.hot (V c (Pipeline.arrRef spec1 1) (ix1 ⟨((j 0).val * 16 + i.val) * 4096 + k.val, Spec.row16_lt (j 0) i k⟩)) (j 1)
          * V c (Pipeline.arrRef spec1 0) (ix2 ⟨((j 0).val * 16 + i.val) * 4096 + k.val, Spec.row16_lt (j 0) i k⟩ (j 2)) := by
  refine ((dat V c).arrAt_eq_of_cover 2 (outSum V c) (fun t hf => flushed_sum V c t ((flush_sum t).mp hf)) cover_sum).trans ?_
  funext j
  unfold outSum blkSum
  refine Finset.sum_congr rfl fun i _ => Finset.sum_congr rfl fun k _ => ?_
  unfold hotAt featAt
  rw [dif_pos (Spec.row16_lt (j 0) i k), dif_pos (Spec.row16_lt (j 0) i k)]

/-- The count output after the region: at (run, r, 0) the number of the run's rows of segment r. -/
theorem cnt_arr (c : Dev nD) :
    (dat (F := Ideal) V c).arrAt 3 cfg1.N = fun j : S2x128x1.Idx =>
      ∑ i : Fin 16, ∑ k : Fin 4096,
        Spec.hot (V c (Pipeline.arrRef spec1 1) (ix1 ⟨((j 0).val * 16 + i.val) * 4096 + k.val, Spec.row16_lt (j 0) i k⟩)) (j 1) := by
  refine ((dat V c).arrAt_eq_of_cover 3 (outCnt V c) (fun t hf => flushed_cnt V c t ((flush_cnt t).mp hf)) cover_cnt).trans ?_
  funext j
  unfold outCnt blkCnt
  refine Finset.sum_congr rfl fun i _ => Finset.sum_congr rfl fun k _ => ?_
  unfold hotAt
  rw [dif_pos (Spec.row16_lt (j 0) i k)]

end Cert.KernelIdeal.Pool1

end
-- ==== Proof.KernelIdeal.Pool2Value.lean ====
import proofs.«419520_j38482906972438_2_alg».proof.Proof.KernelIdeal.Pool2Defs
import proofs.«419520_j38482906972438_2_alg».proof.Proof.KernelIdeal.Pool0Pay
import proofs.«419520_j38482906972438_2_alg».proof.Proof.Spec
import proofs.«419520_j38482906972438_2_alg».proof.Proof.SpecLemmas
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pool2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Pool0 (pay1_apply pay2_apply pay4_apply pay5_apply pay6_apply pay7_apply hotAt featAt blkSum blkCnt)
open scoped BigOperators

variable (V : (c : Dev nD) → (b : Ref sig .tc) → Buf (Elt Ideal) ((c : Thread nD τ).loc b))

theorem idx_in (t : Fin cfg2.N) :
    win2_0.index t (0 : Fin 2) = t.val ∧ win2_0.index t (1 : Fin 2) = 0 ∧ win2_1.index t (0 : Fin 1) = t.val :=
  (by decide +kernel : ∀ t : Fin grid2.N,
    win2_0.index t (0 : Fin 2) = t.val ∧ win2_0.index t (1 : Fin 2) = 0 ∧ win2_1.index t (0 : Fin 1) = t.val) t
theorem idx_out (t : Fin cfg2.N) :
    win2_2.index t (0 : Fin 3) * 32 + t.val % 32 = t.val ∧ win2_2.index t (1 : Fin 3) = 0 ∧ win2_2.index t (2 : Fin 3) = 0
      ∧ win2_3.index t (0 : Fin 3) * 32 + t.val % 32 = t.val ∧ win2_3.index t (1 : Fin 3) = 0 ∧ win2_3.index t (2 : Fin 3) = 0 :=
  (by decide +kernel : ∀ t : Fin grid2.N,
    win2_2.index t (0 : Fin 3) * 32 + t.val % 32 = t.val ∧ win2_2.index t (1 : Fin 3) = 0 ∧ win2_2.index t (2 : Fin 3) = 0
      ∧ win2_3.index t (0 : Fin 3) * 32 + t.val % 32 = t.val ∧ win2_3.index t (1 : Fin 3) = 0 ∧ win2_3.index t (2 : Fin 3) = 0) t

theorem flush_sum (t : Fin cfg2.N) : (cfg2.win 2).flush t = true ↔ t.val % 32 = 31 :=
  (by decide +kernel : ∀ t : Fin grid2.N, win2_2.flush t = true ↔ t.val % 32 = 31) t
theorem flush_cnt (t : Fin cfg2.N) : (cfg2.win 3).flush t = true ↔ t.val % 32 = 31 :=
  (by decide +kernel : ∀ t : Fin grid2.N, win2_3.flush t = true ↔ t.val % 32 = 31) t

theorem featBlk_apply (c : Dev nD) (t : Fin cfg2.N) (k : Fin 4096) (h : Fin 512) :
    featBlk V c t (ix2 k h) = featAt (V c (Pipeline.arrRef spec2 0)) (t.val * 4096 + k.val) h := by
  have e := idx_in t
  have hv : ((((cfg2.win 0).blk t).view.emb (ix2 k h : S4096x512.Idx)) 0).val = t.val * 4096 + k.val := by
    show win2_0.index t (0 : Fin 2) * 4096 + 1 * k.val = _
    rw [e.1, Nat.one_mul]
  have hlt := ((((cfg2.win 0).blk t).view.emb (ix2 k h : S4096x512.Idx)) 0).isLt
  rw [hv] at hlt
  unfold featAt
  rw [dif_pos]
  · show V c (Pipeline.arrRef spec2 0) (((cfg2.win 0).blk t).view.emb (ix2 k h : S4096x512.Idx)) = _
    congr 1
    funext a; apply Fin.ext
    match a with
    | ⟨0, _⟩ => exact hv
    | ⟨1, _⟩ =>
      show win2_0.index t (1 : Fin 2) * 512 + 1 * h.val = h.val
      rw [e.2.1, Nat.zero_mul, Nat.zero_add, Nat.one_mul]
  · exact hlt

theorem segBlk_apply (c : Dev nD) (t : Fin cfg2.N) (k : Fin 4096) (r : Fin 128) :
    Spec.hot (segBlk V c t (ix1 k)) r = hotAt (V c (Pipeline.arrRef spec2 1)) (t.val * 4096 + k.val) r := by
  have e := idx_in t
  have hv : ((((cfg2.win 1).blk t).view.emb (ix1 k : S4096.Idx)) 0).val = t.val * 4096 + k.val := by
    show win2_1.index t (0 : Fin 1) * 4096 + 1 * k.val = _
    rw [e.2.2, Nat.one_mul]
  have hlt := ((((cfg2.win 1).blk t).view.emb (ix1 k : S4096.Idx)) 0).isLt
  rw [hv] at hlt
  unfold hotAt
  rw [dif_pos]
  · congr 1
    show V c (Pipeline.arrRef spec2 1) (((cfg2.win 1).blk t).view.emb (ix1 k : S4096.Idx)) = _
    congr 1
    funext a; apply Fin.ext
    match a with
    | ⟨0, _⟩ => exact hv
  · exact hlt

theorem step_sum (c : Dev nD) (t : Fin cfg2.N) (acc : Vec Ideal S128x512 .f32) (r : Fin 128) (h : Fin 512) :
    k0_pay4 (featBlk V c t) (segBlk V c t) acc (ix2 r h)
      = acc (ix2 r h) + blkSum (V c (Pipeline.arrRef spec2 0)) (V c (Pipeline.arrRef spec2 1)) t.val r h := by
  rw [pay4_apply]
  congr 1
  exact Finset.sum_congr rfl fun k _ => by rw [segBlk_apply, featBlk_apply]
theorem step_cnt (c : Dev nD) (t : Fin cfg2.N) (cnt : Vec Ideal S128x1 .f32) (r : Fin 128) (z : Fin 1) :
    k0_pay5 (segBlk V c t) cnt (ix2 r z) = cnt (ix2 r z) + blkCnt (V c (Pipeline.arrRef spec2 1)) t.val r := by
  rw [pay5_apply]
  congr 1
  exact Finset.sum_congr rfl fun k _ => segBlk_apply V c t k r

/-- The sum accumulator after point `n` is the sum of the blocks of n's run up to n. -/
theorem accAt_sum (c : Dev nD) : ∀ (n : ℕ) (hn : n < cfg2.N) (r : Fin 128) (h : Fin 512),
    (accAt V c n hn).1 (ix2 r h)
      = ∑ i ∈ Finset.range (n % 32 + 1),
          blkSum (V c (Pipeline.arrRef spec2 0)) (V c (Pipeline.arrRef spec2 1)) (n - n % 32 + i) r h
  | 0, hn, r, h => by
    refine (congrArg (fun p => p.1 (ix2 r h)) (accAt_reset V c ⟨0, hn⟩ (Nat.zero_mod _))).trans ?_
    show k0_pay4 (featBlk V c ⟨0, hn⟩) (segBlk V c ⟨0, hn⟩) (k0_pay1 (F := Ideal)) (ix2 r h) = _
    rw [step_sum, pay1_apply, zero_add]
    simp
  | n + 1, hn, r, h => by
    by_cases hz : (n + 1) % 32 = 0
    · refine (congrArg (fun p => p.1 (ix2 r h)) (accAt_reset V c ⟨n + 1, hn⟩ hz)).trans ?_
      show k0_pay4 (featBlk V c ⟨n + 1, hn⟩) (segBlk V c ⟨n + 1, hn⟩) (k0_pay1 (F := Ideal)) (ix2 r h) = _
      rw [step_sum, pay1_apply, zero_add, hz]
      simp
    · refine (congrArg (fun p => p.1 (ix2 r h)) (accAt_step V c ⟨n + 1, hn⟩ hz)).trans ?_
      show k0_pay4 (featBlk V c ⟨n + 1, hn⟩) (segBlk V c ⟨n + 1, hn⟩) (accAt V c n (Nat.lt_of_succ_lt hn)).1 (ix2 r h) = _
      rw [step_sum, accAt_sum c n (Nat.lt_of_succ_lt hn) r h]
      have h1 : (n + 1) % 32 = n % 32 + 1 := by omega
      have h2 : n + 1 - (n % 32 + 1) = n - n % 32 := by omega
      rw [h1, h2, Finset.sum_range_succ _ (n % 32 + 1)]
      congr 2
      show n + 1 = n - n % 32 + (n % 32 + 1)
      omega

/-- The count accumulator after point `n`, likewise. -/
theorem accAt_cnt (c : Dev nD) : ∀ (n : ℕ) (hn : n < cfg2.N) (r : Fin 128) (z : Fin 1),
    (accAt V c n hn).2 (ix2 r z)
      = ∑ i ∈ Finset.range (n % 32 + 1), blkCnt (V c (Pipeline.arrRef spec2 1)) (n - n % 32 + i) r
  | 0, hn, r, z => by
    refine (congrArg (fun p => p.2 (ix2 r z)) (accAt_reset V c ⟨0, hn⟩ (Nat.zero_mod _))).trans ?_
    show k0_pay5 (segBlk V c ⟨0, hn⟩) (k0_pay2 (F := Ideal)) (ix2 r z) = _
    rw [step_cnt, pay2_apply, zero_add]
    simp
  | n + 1, hn, r, z => by
    by_cases hz : (n + 1) % 32 = 0
    · refine (congrArg (fun p => p.2 (ix2 r z)) (accAt_reset V c ⟨n + 1, hn⟩ hz)).trans ?_
      show k0_pay5 (segBlk V c ⟨n + 1, hn⟩) (k0_pay2 (F := Ideal)) (ix2 r z) = _
      rw [step_cnt, pay2_apply, zero_add, hz]
      simp
    · refine (congrArg (fun p => p.2 (ix2 r z)) (accAt_step V c ⟨n + 1, hn⟩ hz)).trans ?_
      show k0_pay5 (segBlk V c ⟨n + 1, hn⟩) (accAt V c n (Nat.lt_of_succ_lt hn)).2 (ix2 r z) = _
      rw [step_cnt, accAt_cnt c n (Nat.lt_of_succ_lt hn) r z]
      have h1 : (n + 1) % 32 = n % 32 + 1 := by omega
      have h2 : n + 1 - (n % 32 + 1) = n - n % 32 := by omega
      rw [h1, h2, Finset.sum_range_succ _ (n % 32 + 1)]
      congr 2
      show n + 1 = n - n % 32 + (n % 32 + 1)
      omega

def outSum (c : Dev nD) : S2x128x512.Idx → EReal := fun j =>
  ∑ i : Fin 32, blkSum (V c (Pipeline.arrRef spec2 0)) (V c (Pipeline.arrRef spec2 1)) ((j 0).val * 32 + i.val) (j 1) (j 2)
def outCnt (c : Dev nD) : S2x128x1.Idx → EReal := fun j =>
  ∑ i : Fin 32, blkCnt (V c (Pipeline.arrRef spec2 1)) ((j 0).val * 32 + i.val) (j 1)

theorem flushed_sum (c : Dev nD) (t : Fin cfg2.N) (hf : t.val % 32 = 31) :
    (dat V c).flushed 2 t = ((cfg2.win 2).blk t).view.read (Elt Ideal) (outSum V c) := by
  show (cfg2.win 2).cut (grid2.coords t) ((dat V c).after 2 t) = _
  rw [after_2]
  refine funext fun (y : S1x128x512.Idx) => ?_
  obtain ⟨u, r, h, rfl⟩ : ∃ (u : Fin 1) (r : Fin 128) (h : Fin 512), y = ix3 u r h := ⟨y 0, y 1, y 2, eq_ix3 y⟩
  have e := idx_out t
  have hu : u.val = 0 := by omega
  have h0 : ((((cfg2.win 2).blk t).view.emb (ix3 u r h : S1x128x512.Idx)) 0).val = win2_2.index t (0 : Fin 3) := by
    show win2_2.index t (0 : Fin 3) * 1 + 1 * u.val = _
    rw [hu, Nat.mul_one, Nat.mul_zero, Nat.add_zero]
  have h1 : (((cfg2.win 2).blk t).view.emb (ix3 u r h : S1x128x512.Idx)) 1 = r := Fin.ext (by
    show win2_2.index t (1 : Fin 3) * 128 + 1 * r.val = r.val
    rw [e.2.1, Nat.zero_mul, Nat.zero_add, Nat.one_mul])
  have h2 : (((cfg2.win 2).blk t).view.emb (ix3 u r h : S1x128x512.Idx)) 2 = h := Fin.ext (by
    show win2_2.index t (2 : Fin 3) * 512 + 1 * h.val = h.val
    rw [e.2.2.1, Nat.zero_mul, Nat.zero_add, Nat.one_mul])
  show k0_pay6 (accAt V c t.val t.isLt).1 (ix3 u r h) = outSum V c (((cfg2.win 2).blk t).view.emb (ix3 u r h : S1x128x512.Idx))
  rw [pay6_apply, accAt_sum]
  unfold outSum
  rw [h0, h1, h2]
  refine Eq.trans ?_ (Fin.sum_univ_eq_sum_range (fun i => blkSum (V c (Pipeline.arrRef spec2 0)) (V c (Pipeline.arrRef spec2 1))
    (win2_2.index t (0 : Fin 3) * 32 + i) r h) _).symm
  refine Finset.sum_congr (congrArg Finset.range (by omega)) fun i _ => ?_
  congr 1
  omega

theorem flushed_cnt (c : Dev nD) (t : Fin cfg2.N) (hf : t.val % 32 = 31) :
    (dat V c).flushed 3 t = ((cfg2.win 3).blk t).view.read (Elt Ideal) (outCnt V c) := by
  show (cfg2.win 3).cut (grid2.coords t) ((dat V c).after 3 t) = _
  rw [after_3]
  refine funext fun (y : S1x128x1.Idx) => ?_
  obtain ⟨u, r, z, rfl⟩ : ∃ (u : Fin 1) (r : Fin 128) (z : Fin 1), y = ix3 u r z := ⟨y 0, y 1, y 2, eq_ix3 y⟩
  have e := idx_out t
  have hu : u.val = 0 := by omega
  have h0 : ((((cfg2.win 3).blk t).view.emb (ix3 u r z : S1x128x1.Idx)) 0).val = win2_3.index t (0 : Fin 3) := by
    show win2_3.index t (0 : Fin 3) * 1 + 1 * u.val = _
    rw [hu, Nat.mul_one, Nat.mul_zero, Nat.add_zero]
  have h1 : (((cfg2.win 3).blk t).view.emb (ix3 u r z : S1x128x1.Idx)) 1 = r := Fin.ext (by
    show win2_3.index t (1 : Fin 3) * 128 + 1 * r.val = r.val
    rw [e.2.2.2.2.1, Nat.zero_mul, Nat.zero_add, Nat.one_mul])
  show k0_pay7 (accAt V c t.val t.isLt).2 (ix3 u r z) = outCnt V c (((cfg2.win 3).blk t).view.emb (ix3 u r z : S1x128x1.Idx))
  rw [pay7_apply, accAt_cnt]
  unfold outCnt
  rw [h0, h1]
  refine Eq.trans ?_ (Fin.sum_univ_eq_sum_range (fun i => blkCnt (V c (Pipeline.arrRef spec2 1))
    (win2_3.index t (0 : Fin 3) * 32 + i) r) _).symm
  refine Finset.sum_congr (congrArg Finset.range (by omega)) fun i _ => ?_
  congr 1
  omega

theorem cover_sum (j : S2x128x512.Idx) :
    ∃ t : Fin cfg2.N, (cfg2.win 2).flush t = true ∧ j ∈ ((cfg2.win 2).blk t).view.set := by
  have hj0 : (j 0).val < 2 := (j 0).isLt
  have hN : (j 0).val * 32 + (1 * 32 - 1) < cfg2.N := by
    show _ < grid2.N
    rw [N_2]; omega
  have hval : (⟨(j 0).val * 32 + (1 * 32 - 1), hN⟩ : Fin cfg2.N).val = (j 0).val * 32 + (1 * 32 - 1) := rfl
  generalize (⟨(j 0).val * 32 + (1 * 32 - 1), hN⟩ : Fin cfg2.N) = t at hval
  have e := idx_out t
  refine ⟨t, (flush_sum t).mpr (by omega), ?_⟩
  have hy : ((cfg2.win 2).blk t).view.emb (ix3 (0 : Fin 1) (j 1 : Fin 128) (j 2 : Fin 512) : S1x128x512.Idx) = j := by
    funext a; apply Fin.ext
    match a with
    | ⟨0, _⟩ =>
      show win2_2.index t (0 : Fin 3) * 1 + 1 * 0 = (j 0).val
      omega
    | ⟨1, _⟩ =>
      show win2_2.index t (1 : Fin 3) * 128 + 1 * (j 1).val = (j 1).val
      rw [e.2.1, Nat.zero_mul, Nat.zero_add, Nat.one_mul]
    | ⟨2, _⟩ =>
      show win2_2.index t (2 : Fin 3) * 512 + 1 * (j 2).val = (j 2).val
      rw [e.2.2.1, Nat.zero_mul, Nat.zero_add, Nat.one_mul]
  have hm := ((cfg2.win 2).blk t).view.emb_mem_set (ix3 (0 : Fin 1) (j 1 : Fin 128) (j 2 : Fin 512) : S1x128x512.Idx)
  rw [hy] at hm
  exact hm

theorem cover_cnt (j : S2x128x1.Idx) :
    ∃ t : Fin cfg2.N, (cfg2.win 3).flush t = true ∧ j ∈ ((cfg2.win 3).blk t).view.set := by
  have hj0 : (j 0).val < 2 := (j 0).isLt
  have hj2 : (j 2).val < 1 := (j 2).isLt
  have hN : (j 0).val * 32 + (1 * 32 - 1) < cfg2.N := by
    show _ < grid2.N
    rw [N_2]; omega
  have hval : (⟨(j 0).val * 32 + (1 * 32 - 1), hN⟩ : Fin cfg2.N).val = (j 0).val * 32 + (1 * 32 - 1) := rfl
  generalize (⟨(j 0).val * 32 + (1 * 32 - 1), hN⟩ : Fin cfg2.N) = t at hval
  have e := idx_out t
  refine ⟨t, (flush_cnt t).mpr (by omega), ?_⟩
  have hy : ((cfg2.win 3).blk t).view.emb (ix3 (0 : Fin 1) (j 1 : Fin 128) (j 2 : Fin 1) : S1x128x1.Idx) = j := by
    funext a; apply Fin.ext
    match a with
    | ⟨0, _⟩ =>
      show win2_3.index t (0 : Fin 3) * 1 + 1 * 0 = (j 0).val
      omega
    | ⟨1, _⟩ =>
      show win2_3.index t (1 : Fin 3) * 128 + 1 * (j 1).val = (j 1).val
      rw [e.2.2.2.2.1, Nat.zero_mul, Nat.zero_add, Nat.one_mul]
    | ⟨2, _⟩ =>
      show win2_3.index t (2 : Fin 3) * 1 + 1 * (j 2).val = (j 2).val
      rw [e.2.2.2.2.2, Nat.zero_mul, Nat.zero_add, Nat.one_mul]
  have hm := ((cfg2.win 3).blk t).view.emb_mem_set (ix3 (0 : Fin 1) (j 1 : Fin 128) (j 2 : Fin 1) : S1x128x1.Idx)
  rw [hy] at hm
  exact hm

/-- The sum output after the region: at (run, r, h) the sum over the run's rows of hot · feature. -/
theorem sum_arr (c : Dev nD) :
    (dat (F := Ideal) V c).arrAt 2 cfg2.N = fun j : S2x128x512.Idx =>
      ∑ i : Fin 32, ∑ k : Fin 4096,
        Spec.hot (V c (Pipeline.arrRef spec2 1) (ix1 ⟨((j 0).val * 32 + i.val) * 4096 + k.val, Spec.row32_lt (j 0) i k⟩)) (j 1)
          * V c (Pipeline.arrRef spec2 0) (ix2 ⟨((j 0).val * 32 + i.val) * 4096 + k.val, Spec.row32_lt (j 0) i k⟩ (j 2)) := by
  refine ((dat V c).arrAt_eq_of_cover 2 (outSum V c) (fun t hf => flushed_sum V c t ((flush_sum t).mp hf)) cover_sum).trans ?_
  funext j
  unfold outSum blkSum
  refine Finset.sum_congr rfl fun i _ => Finset.sum_congr rfl fun k _ => ?_
  unfold hotAt featAt
  rw [dif_pos (Spec.row32_lt (j 0) i k), dif_pos (Spec.row32_lt (j 0) i k)]

/-- The count output after the region: at (run, r, 0) the number of the run's rows of segment r. -/
theorem cnt_arr (c : Dev nD) :
    (dat (F := Ideal) V c).arrAt 3 cfg2.N = fun j : S2x128x1.Idx =>
      ∑ i : Fin 32, ∑ k : Fin 4096,
        Spec.hot (V c (Pipeline.arrRef spec2 1) (ix1 ⟨((j 0).val * 32 + i.val) * 4096 + k.val, Spec.row32_lt (j 0) i k⟩)) (j 1) := by
  refine ((dat V c).arrAt_eq_of_cover 3 (outCnt V c) (fun t hf => flushed_cnt V c t ((flush_cnt t).mp hf)) cover_cnt).trans ?_
  funext j
  unfold outCnt blkCnt
  refine Finset.sum_congr rfl fun i _ => Finset.sum_congr rfl fun k _ => ?_
  unfold hotAt
  rw [dif_pos (Spec.row32_lt (j 0) i k)]

end Cert.KernelIdeal.Pool2

end
-- ==== Proof.KernelIdeal.Pool0Mean.lean ====
import proofs.«419520_j38482906972438_2_alg».proof.Proof.Gen.KernelIdeal.Launch
import proofs.«419520_j38482906972438_2_alg».proof.Proof.Spec
import proofs.«419520_j38482906972438_2_alg».proof.Proof.SpecLemmas
import Idealize.ShloMosaic.Lib.StableHlo.Run
import Idealize.ShloMosaic.Lib.IdealHost
import Idealize.ShloMosaic.Lib.ValueLayout

noncomputable section

namespace Cert.KernelIdeal.Pool0Mean

open Idealize.ShloMosaic Idealize.ShloMosaic.ValueIdx Idealize.SL.Sem
open Cert.KernelIdeal Cert.KernelIdeal.Gen
open scoped BigOperators

theorem slab_apply {m : Nat} (o : Nat) (X : (⟨3, ![2, 128, m]⟩ : Shape).Idx → EReal)
    (hs : (⟨3, ![2, 128, m]⟩ : Shape).Slices ![o, 0, 0] ⟨3, ![1, 128, m]⟩) (r : Fin 128) (h : Fin m)
    (c : Fin 2) (hc : c.val = o) :
    extractStridedSlice ⟨3, ![1, 128, m]⟩ ![o, 0, 0] X hs (ix3 (0 : Fin 1) r h) = X (ix3 c r h) :=
  extractStridedSlice_apply _ _ _ _ _ (fun ax => by
    match ax with
    | ⟨0, _⟩ => exact hc.trans (Nat.add_zero _).symm
    | ⟨1, _⟩ => exact (Nat.zero_add _).symm
    | ⟨2, _⟩ => exact (Nat.zero_add _).symm)

theorem spread_apply (Y : (⟨2, ![128, 1]⟩ : Shape).Idx → EReal)
    (hb : (⟨2, ![128, 1]⟩ : Shape).BroadcastsInDim ⟨2, ![128, 512]⟩ ![0, 1]) (r : Fin 128) (h : Fin 512) :
    broadcastInDim ⟨2, ![128, 512]⟩ ![0, 1] hb Y (ix2 r h) = Y (ix2 r (0 : Fin 1)) :=
  broadcastInDim_apply _ _ _ _ _ (fun a => by
    match a with
    | ⟨0, _⟩ => exact (if_neg (by decide : ¬ (128 : Nat) = 1)).symm
    | ⟨1, _⟩ => exact (if_pos rfl).symm)

theorem div_of_ne_zero (x y : EReal) (hy : y ≠ 0) : Ideal.div x y = x / y := by
  unfold Ideal.div
  rw [if_neg hy, div_eq_mul_inv]

theorem max_one_ne_zero (y : EReal) : max y 1 ≠ 0 :=
  (lt_of_lt_of_le zero_lt_one (le_max_right y 1)).ne'

theorem mean_term (X : FVec Ideal S2x128x512 .f32) (Y : FVec Ideal S2x128x1 .f32) (r : Fin 128) (h : Fin 512) :
    Host.divf
        (addf
          (shapeCast S128x512 (extractStridedSlice S1x128x512 ![0, 0, 0] X slices_S2x128x512_S1x128x512_0_0_0)
            shapeCasts_S1x128x512_S128x512)
          (shapeCast S128x512 (extractStridedSlice S1x128x512 ![1, 0, 0] X slices_S2x128x512_S1x128x512_1_0_0)
            shapeCasts_S1x128x512_S128x512))
        (broadcastInDim S128x512 ![0, 1] bcast_S128x1_S128x512_0_1
          (maximumf
            (addf
              (shapeCast S128x1 (extractStridedSlice S1x128x1 ![0, 0, 0] Y slices_S2x128x1_S1x128x1_0_0_0)
                shapeCasts_S1x128x1_S128x1)
              (shapeCast S128x1 (extractStridedSlice S1x128x1 ![1, 0, 0] Y slices_S2x128x1_S1x128x1_1_0_0)
                shapeCasts_S1x128x1_S128x1))
            (broadcastInDim S128x1 ![] bcast_S_S128x1 (constant (F := Ideal) S_ .f32 0x3F800000#32))))
        (ix2 r h)
      = (X (ix3 0 r h) + X (ix3 1 r h)) / max (Y (ix3 0 r 0) + Y (ix3 1 r 0)) 1 := by
  rw [hostDivf_apply, addf_apply, shapeCast_1ab_ab_apply, shapeCast_1ab_ab_apply,
    slab_apply 0 X _ r h 0 rfl, slab_apply 1 X _ r h 1 rfl,
    spread_apply, maximumf_apply, addf_apply, shapeCast_1ab_ab_apply, shapeCast_1ab_ab_apply,
    slab_apply 0 Y _ r 0 0 rfl, slab_apply 1 Y _ r 0 1 rfl,
    broadcastInDim_scalar_apply, constant_apply, Ideal.ofBits_one_f32]
  exact div_of_ne_zero _ _ (max_one_ne_zero _)

/-- Adding the two runs' partial sums and counts and dividing by max(count, 1) gives the ragged mean. -/
theorem mean_of_partials (W : Valuation τ sig (Elt Ideal)) (feat : Spec.Mat 131072 512) (seg : Spec.Ids 131072)
    (hS : W (Proc.devRef .tc main_v0_0) = fun j : S2x128x512.Idx => ∑ i : Fin 16, ∑ k : Fin 4096,
        Spec.hot (seg (ix1 ⟨((j 0).val * 16 + i.val) * 4096 + k.val, Spec.row16_lt (j 0) i k⟩)) (j 1)
          * feat (ix2 ⟨((j 0).val * 16 + i.val) * 4096 + k.val, Spec.row16_lt (j 0) i k⟩ (j 2)))
    (hC : W (Proc.devRef .tc main_v0_1) = fun j : S2x128x1.Idx => ∑ i : Fin 16, ∑ k : Fin 4096,
        Spec.hot (seg (ix1 ⟨((j 0).val * 16 + i.val) * 4096 + k.val, Spec.row16_lt (j 0) i k⟩)) (j 1)) :
    StableHlo.after Gen.hostOps1 W (Proc.devRef .tc main_v14) = Spec.segMean feat seg := by
  after_results
  funext j
  obtain ⟨r, h, rfl⟩ : ∃ (r : Fin 128) (h : Fin 512), j = ix2 r h := ⟨j 0, j 1, eq_ix2 j⟩
  refine (mean_term (W (Proc.devRef .tc main_v0_0)) (W (Proc.devRef .tc main_v0_1)) r h).trans ?_
  rw [hS, hC]
  unfold Spec.segMean
  rw [Spec.segSum_runs16, Spec.segCnt_runs16, Fin.sum_univ_two, Fin.sum_univ_two]

end Cert.KernelIdeal.Pool0Mean

end
-- ==== Proof.KernelIdeal.Pool1Mean.lean ====
import proofs.«419520_j38482906972438_2_alg».proof.Proof.Gen.KernelIdeal.Launch
import proofs.«419520_j38482906972438_2_alg».proof.Proof.Spec
import proofs.«419520_j38482906972438_2_alg».proof.Proof.SpecLemmas
import Idealize.ShloMosaic.Lib.StableHlo.Run
import Idealize.ShloMosaic.Lib.IdealHost
import Idealize.ShloMosaic.Lib.ValueLayout

noncomputable section

namespace Cert.KernelIdeal.Pool1Mean

open Idealize.ShloMosaic Idealize.ShloMosaic.ValueIdx Idealize.SL.Sem
open Cert.KernelIdeal Cert.KernelIdeal.Gen
open scoped BigOperators

theorem slab_apply {m : Nat} (o : Nat) (X : (⟨3, ![2, 128, m]⟩ : Shape).Idx → EReal)
    (hs : (⟨3, ![2, 128, m]⟩ : Shape).Slices ![o, 0, 0] ⟨3, ![1, 128, m]⟩) (r : Fin 128) (h : Fin m)
    (c : Fin 2) (hc : c.val = o) :
    extractStridedSlice ⟨3, ![1, 128, m]⟩ ![o, 0, 0] X hs (ix3 (0 : Fin 1) r h) = X (ix3 c r h) :=
  extractStridedSlice_apply _ _ _ _ _ (fun ax => by
    match ax with
    | ⟨0, _⟩ => exact hc.trans (Nat.add_zero _).symm
    | ⟨1, _⟩ => exact (Nat.zero_add _).symm
    | ⟨2, _⟩ => exact (Nat.zero_add _).symm)

theorem spread_apply (Y : (⟨2, ![128, 1]⟩ : Shape).Idx → EReal)
    (hb : (⟨2, ![128, 1]⟩ : Shape).BroadcastsInDim ⟨2, ![128, 512]⟩ ![0, 1]) (r : Fin 128) (h : Fin 512) :
    broadcastInDim ⟨2, ![128, 512]⟩ ![0, 1] hb Y (ix2 r h) = Y (ix2 r (0 : Fin 1)) :=
  broadcastInDim_apply _ _ _ _ _ (fun a => by
    match a with
    | ⟨0, _⟩ => exact (if_neg (by decide : ¬ (128 : Nat) = 1)).symm
    | ⟨1, _⟩ => exact (if_pos rfl).symm)

theorem div_of_ne_zero (x y : EReal) (hy : y ≠ 0) : Ideal.div x y = x / y := by
  unfold Ideal.div
  rw [if_neg hy, div_eq_mul_inv]

theorem max_one_ne_zero (y : EReal) : max y 1 ≠ 0 :=
  (lt_of_lt_of_le zero_lt_one (le_max_right y 1)).ne'

theorem mean_term (X : FVec Ideal S2x128x512 .f32) (Y : FVec Ideal S2x128x1 .f32) (r : Fin 128) (h : Fin 512) :
    Host.divf
        (addf
          (shapeCast S128x512 (extractStridedSlice S1x128x512 ![0, 0, 0] X slices_S2x128x512_S1x128x512_0_0_0)
            shapeCasts_S1x128x512_S128x512)
          (shapeCast S128x512 (extractStridedSlice S1x128x512 ![1, 0, 0] X slices_S2x128x512_S1x128x512_1_0_0)
            shapeCasts_S1x128x512_S128x512))
        (broadcastInDim S128x512 ![0, 1] bcast_S128x1_S128x512_0_1
          (maximumf
            (addf
              (shapeCast S128x1 (extractStridedSlice S1x128x1 ![0, 0, 0] Y slices_S2x128x1_S1x128x1_0_0_0)
                shapeCasts_S1x128x1_S128x1)
              (shapeCast S128x1 (extractStridedSlice S1x128x1 ![1, 0, 0] Y slices_S2x128x1_S1x128x1_1_0_0)
                shapeCasts_S1x128x1_S128x1))
            (broadcastInDim S128x1 ![] bcast_S_S128x1 (constant (F := Ideal) S_ .f32 0x3F800000#32))))
        (ix2 r h)
      = (X (ix3 0 r h) + X (ix3 1 r h)) / max (Y (ix3 0 r 0) + Y (ix3 1 r 0)) 1 := by
  rw [hostDivf_apply, addf_apply, shapeCast_1ab_ab_apply, shapeCast_1ab_ab_apply,
    slab_apply 0 X _ r h 0 rfl, slab_apply 1 X _ r h 1 rfl,
    spread_apply, maximumf_apply, addf_apply, shapeCast_1ab_ab_apply, shapeCast_1ab_ab_apply,
    slab_apply 0 Y _ r 0 0 rfl, slab_apply 1 Y _ r 0 1 rfl,
    broadcastInDim_scalar_apply, constant_apply, Ideal.ofBits_one_f32]
  exact div_of_ne_zero _ _ (max_one_ne_zero _)

/-- Adding the two runs' partial sums and counts and dividing by max(count, 1) gives the ragged mean. -/
theorem mean_of_partials (W : Valuation τ sig (Elt Ideal)) (feat : Spec.Mat 131072 512) (seg : Spec.Ids 131072)
    (hS : W (Proc.devRef .tc main_v15_0) = fun j : S2x128x512.Idx => ∑ i : Fin 16, ∑ k : Fin 4096,
        Spec.hot (seg (ix1 ⟨((j 0).val * 16 + i.val) * 4096 + k.val, Spec.row16_lt (j 0) i k⟩)) (j 1)
          * feat (ix2 ⟨((j 0).val * 16 + i.val) * 4096 + k.val, Spec.row16_lt (j 0) i k⟩ (j 2)))
    (hC : W (Proc.devRef .tc main_v15_1) = fun j : S2x128x1.Idx => ∑ i : Fin 16, ∑ k : Fin 4096,
        Spec.hot (seg (ix1 ⟨((j 0).val * 16 + i.val) * 4096 + k.val, Spec.row16_lt (j 0) i k⟩)) (j 1)) :
    StableHlo.after Gen.hostOps2 W (Proc.devRef .tc main_v29) = Spec.segMean feat seg := by
  after_results
  funext j
  obtain ⟨r, h, rfl⟩ : ∃ (r : Fin 128) (h : Fin 512), j = ix2 r h := ⟨j 0, j 1, eq_ix2 j⟩
  refine (mean_term (W (Proc.devRef .tc main_v15_0)) (W (Proc.devRef .tc main_v15_1)) r h).trans ?_
  rw [hS, hC]
  unfold Spec.segMean
  rw [Spec.segSum_runs16, Spec.segCnt_runs16, Fin.sum_univ_two, Fin.sum_univ_two]

end Cert.KernelIdeal.Pool1Mean

end
-- ==== Proof.KernelIdeal.Pool2Mean.lean ====
import proofs.«419520_j38482906972438_2_alg».proof.Proof.Gen.KernelIdeal.Launch
import proofs.«419520_j38482906972438_2_alg».proof.Proof.Spec
import proofs.«419520_j38482906972438_2_alg».proof.Proof.SpecLemmas
import Idealize.ShloMosaic.Lib.StableHlo.Run
import Idealize.ShloMosaic.Lib.IdealHost
import Idealize.ShloMosaic.Lib.ValueLayout

noncomputable section

namespace Cert.KernelIdeal.Pool2Mean

open Idealize.ShloMosaic Idealize.ShloMosaic.ValueIdx Idealize.SL.Sem
open Cert.KernelIdeal Cert.KernelIdeal.Gen
open scoped BigOperators

theorem slab_apply {m : Nat} (o : Nat) (X : (⟨3, ![2, 128, m]⟩ : Shape).Idx → EReal)
    (hs : (⟨3, ![2, 128, m]⟩ : Shape).Slices ![o, 0, 0] ⟨3, ![1, 128, m]⟩) (r : Fin 128) (h : Fin m)
    (c : Fin 2) (hc : c.val = o) :
    extractStridedSlice ⟨3, ![1, 128, m]⟩ ![o, 0, 0] X hs (ix3 (0 : Fin 1) r h) = X (ix3 c r h) :=
  extractStridedSlice_apply _ _ _ _ _ (fun ax => by
    match ax with
    | ⟨0, _⟩ => exact hc.trans (Nat.add_zero _).symm
    | ⟨1, _⟩ => exact (Nat.zero_add _).symm
    | ⟨2, _⟩ => exact (Nat.zero_add _).symm)

theorem spread_apply (Y : (⟨2, ![128, 1]⟩ : Shape).Idx → EReal)
    (hb : (⟨2, ![128, 1]⟩ : Shape).BroadcastsInDim ⟨2, ![128, 512]⟩ ![0, 1]) (r : Fin 128) (h : Fin 512) :
    broadcastInDim ⟨2, ![128, 512]⟩ ![0, 1] hb Y (ix2 r h) = Y (ix2 r (0 : Fin 1)) :=
  broadcastInDim_apply _ _ _ _ _ (fun a => by
    match a with
    | ⟨0, _⟩ => exact (if_neg (by decide : ¬ (128 : Nat) = 1)).symm
    | ⟨1, _⟩ => exact (if_pos rfl).symm)

theorem div_of_ne_zero (x y : EReal) (hy : y ≠ 0) : Ideal.div x y = x / y := by
  unfold Ideal.div
  rw [if_neg hy, div_eq_mul_inv]

theorem max_one_ne_zero (y : EReal) : max y 1 ≠ 0 :=
  (lt_of_lt_of_le zero_lt_one (le_max_right y 1)).ne'

theorem mean_term (X : FVec Ideal S2x128x512 .f32) (Y : FVec Ideal S2x128x1 .f32) (r : Fin 128) (h : Fin 512) :
    Host.divf
        (addf
          (shapeCast S128x512 (extractStridedSlice S1x128x512 ![0, 0, 0] X slices_S2x128x512_S1x128x512_0_0_0)
            shapeCasts_S1x128x512_S128x512)
          (shapeCast S128x512 (extractStridedSlice S1x128x512 ![1, 0, 0] X slices_S2x128x512_S1x128x512_1_0_0)
            shapeCasts_S1x128x512_S128x512))
        (broadcastInDim S128x512 ![0, 1] bcast_S128x1_S128x512_0_1
          (maximumf
            (addf
              (shapeCast S128x1 (extractStridedSlice S1x128x1 ![0, 0, 0] Y slices_S2x128x1_S1x128x1_0_0_0)
                shapeCasts_S1x128x1_S128x1)
              (shapeCast S128x1 (extractStridedSlice S1x128x1 ![1, 0, 0] Y slices_S2x128x1_S1x128x1_1_0_0)
                shapeCasts_S1x128x1_S128x1))
            (broadcastInDim S128x1 ![] bcast_S_S128x1 (constant (F := Ideal) S_ .f32 0x3F800000#32))))
        (ix2 r h)
      = (X (ix3 0 r h) + X (ix3 1 r h)) / max (Y (ix3 0 r 0) + Y (ix3 1 r 0)) 1 := by
  rw [hostDivf_apply, addf_apply, shapeCast_1ab_ab_apply, shapeCast_1ab_ab_apply,
    slab_apply 0 X _ r h 0 rfl, slab_apply 1 X _ r h 1 rfl,
    spread_apply, maximumf_apply, addf_apply, shapeCast_1ab_ab_apply, shapeCast_1ab_ab_apply,
    slab_apply 0 Y _ r 0 0 rfl, slab_apply 1 Y _ r 0 1 rfl,
    broadcastInDim_scalar_apply, constant_apply, Ideal.ofBits_one_f32]
  exact div_of_ne_zero _ _ (max_one_ne_zero _)

/-- Adding the two runs' partial sums and counts and dividing by max(count, 1) gives the ragged mean. -/
theorem mean_of_partials (W : Valuation τ sig (Elt Ideal)) (feat : Spec.Mat 262144 512) (seg : Spec.Ids 262144)
    (hS : W (Proc.devRef .tc main_v30_0) = fun j : S2x128x512.Idx => ∑ i : Fin 32, ∑ k : Fin 4096,
        Spec.hot (seg (ix1 ⟨((j 0).val * 32 + i.val) * 4096 + k.val, Spec.row32_lt (j 0) i k⟩)) (j 1)
          * feat (ix2 ⟨((j 0).val * 32 + i.val) * 4096 + k.val, Spec.row32_lt (j 0) i k⟩ (j 2)))
    (hC : W (Proc.devRef .tc main_v30_1) = fun j : S2x128x1.Idx => ∑ i : Fin 32, ∑ k : Fin 4096,
        Spec.hot (seg (ix1 ⟨((j 0).val * 32 + i.val) * 4096 + k.val, Spec.row32_lt (j 0) i k⟩)) (j 1)) :
    StableHlo.after Gen.hostOps3 W (Proc.devRef .tc main_v44) = Spec.segMean feat seg := by
  after_results
  funext j
  obtain ⟨r, h, rfl⟩ : ∃ (r : Fin 128) (h : Fin 512), j = ix2 r h := ⟨j 0, j 1, eq_ix2 j⟩
  refine (mean_term (W (Proc.devRef .tc main_v30_0)) (W (Proc.devRef .tc main_v30_1)) r h).trans ?_
  rw [hS, hC]
  unfold Spec.segMean
  rw [Spec.segSum_runs32, Spec.segCnt_runs32, Fin.sum_univ_two, Fin.sum_univ_two]

end Cert.KernelIdeal.Pool2Mean

end
-- ==== Proof.KernelIdeal.HeadValue.lean ====
import proofs.«419520_j38482906972438_2_alg».proof.Proof.KernelIdeal.HeadDefs
import proofs.«419520_j38482906972438_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Head

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- A plain m × k by k × n product into the zero fill, at (p, q): Σₜ x(p, t) · w(t, q). -/
theorem matmul_plain_apply {m k n : Nat} {φ₁ φ₂ : FTy} (x : FVec Ideal ⟨2, ![m, k]⟩ φ₁) (w : FVec Ideal ⟨2, ![k, n]⟩ φ₂)
    (p : Fin m) (q : Fin n) :
    matmul (DotDims.plain m k n) none x w (constant ⟨2, ![m, n]⟩ .f32 0x00000000#32) (ix2 p q)
      = ∑ t : Fin k, x (ix2 p t) * w (ix2 t q) := by
  show FloatOps.matmul _ none x w _ (ix2 p q) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 p q) ((contrEquiv1 _ k rfl rfl).symm c) = ix2 p c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 p q) ((contrEquiv1 _ k rfl rfl).symm c) = ix2 c q := by
    funext ax; apply Fin.ext
    match ax with
    | ⟨0, _⟩ => simp [DotDims.rhsIdx, DotDims.plain]; exact c2
    | ⟨1, _⟩ => simp [DotDims.rhsIdx, DotDims.plain]; rfl
  rw [l2, r2]

abbrev dQ := dot_S128x1024_S1024x512_S128x512_1_0_0_1_n_n
abbrev dH := dot_S128x1024_S1024x2048_S128x2048_1_0_0_1_n_n
abbrev dO := dot_S128x2048_S2048x3129_S128x3129_1_0_0_1_n_n

theorem matmul_dQ_apply (x : FVec Ideal S128x1024 .bf16) (w : FVec Ideal S1024x512 .bf16) (p : Fin 128) (q : Fin 512) :
    matmul dQ none x w (constant S128x512 .f32 0x00000000#32) (ix2 p q) = ∑ t : Fin 1024, x (ix2 p t) * w (ix2 t q) :=
  matmul_plain_apply x w p q
theorem matmul_dH_apply (x : FVec Ideal S128x1024 .bf16) (w : FVec Ideal S1024x2048 .bf16) (p : Fin 128) (q : Fin 2048) :
    matmul dH none x w (constant S128x2048 .f32 0x00000000#32) (ix2 p q) = ∑ t : Fin 1024, x (ix2 p t) * w (ix2 t q) :=
  matmul_plain_apply x w p q
theorem matmul_dO_apply (x : FVec Ideal S128x2048 .bf16) (w : FVec Ideal S2048x3129 .bf16) (p : Fin 128) (q : Fin 3129) :
    matmul dO none x w (constant S128x3129 .f32 0x00000000#32) (ix2 p q) = ∑ t : Fin 2048, x (ix2 p t) * w (ix2 t q) :=
  matmul_plain_apply x w p q

theorem affineQ_eq (x : FVec Ideal S128x1024 .bf16) (w : FVec Ideal S1024x512 .bf16) (b : FVec Ideal S512 .f32)
    (h1 : S128x1024.ShapeCasts S128x1024) (h2 : S1024x512.ShapeCasts S1024x512) (h3 : S512.ShapeCasts S1x512)
    (h4 : S1x512.Broadcasts S128x512) :
    addf (matmul dQ none (shapeCast S128x1024 x h1) (shapeCast S1024x512 w h2) (constant S128x512 .f32 0x00000000#32))
        (broadcastTo S128x512 (shapeCast S1x512 b h3) h4) = Spec.affine x w b := by
  funext j
  obtain ⟨p, q, rfl⟩ : ∃ (p : Fin 128) (q : Fin 512), j = ix2 p q := ⟨j 0, j 1, eq_ix2 j⟩
  rw [addf_apply, shapeCast_self, shapeCast_self, matmul_dQ_apply, broadcastTo_1b_ab_apply, shapeCast_a_1a_apply]
  rfl

theorem affineH_eq (x : FVec Ideal S128x1024 .bf16) (w : FVec Ideal S1024x2048 .bf16) (b : FVec Ideal S2048 .f32)
    (h2 : S1024x2048.ShapeCasts S1024x2048) (h3 : S2048.ShapeCasts S1x2048) (h4 : S1x2048.Broadcasts S128x2048) :
    addf (matmul dH none x (shapeCast S1024x2048 w h2) (constant S128x2048 .f32 0x00000000#32))
        (broadcastTo S128x2048 (shapeCast S1x2048 b h3) h4) = Spec.affine x w b := by
  funext j
  obtain ⟨p, q, rfl⟩ : ∃ (p : Fin 128) (q : Fin 2048), j = ix2 p q := ⟨j 0, j 1, eq_ix2 j⟩
  rw [addf_apply, shapeCast_self, matmul_dH_apply, broadcastTo_1b_ab_apply, shapeCast_a_1a_apply]
  rfl

theorem affineO_eq (x : FVec Ideal S128x2048 .bf16) (w : FVec Ideal S2048x3129 .bf16) (b : FVec Ideal S3129 .f32)
    (h2 : S2048x3129.ShapeCasts S2048x3129) (h3 : S3129.ShapeCasts S1x3129) (h4 : S1x3129.Broadcasts S128x3129) :
    addf (matmul dO none x (shapeCast S2048x3129 w h2) (constant S128x3129 .f32 0x00000000#32))
        (broadcastTo S128x3129 (shapeCast S1x3129 b h3) h4) = Spec.affine x w b := by
  funext j
  obtain ⟨p, q, rfl⟩ : ∃ (p : Fin 128) (q : Fin 3129), j = ix2 p q := ⟨j 0, j 1, eq_ix2 j⟩
  rw [addf_apply, shapeCast_self, matmul_dO_apply, broadcastTo_1b_ab_apply, shapeCast_a_1a_apply]
  rfl

theorem sideBySide_apply (x₁ x₂ : FVec Ideal S128x512 .f32) (h : Shape.Concatenates [S128x512, S128x512] S128x1024 1)
    (p : Fin 128) (cc : Fin 1024) :
    concatenate S128x1024 1 [⟨S128x512, x₁⟩, ⟨S128x512, x₂⟩] h (ix2 p cc)
      = if hlt : cc.val < 512 then x₁ (ix2 p ⟨cc.val, hlt⟩) else x₂ (ix2 p ⟨cc.val - 512, by have := cc.isLt; omega⟩) := by
  by_cases hlt : cc.val < 512
  · rw [dif_pos hlt]
    exact concatenate_pair_apply_left (1 : Fin S128x1024.rank) x₁ x₂ h (ix2 p cc) rfl (ix2 p ⟨cc.val, hlt⟩) (fun b => by
      match b with
      | ⟨0, _⟩ => rfl
      | ⟨1, _⟩ => rfl)
  · rw [dif_neg hlt]
    exact concatenate_pair_apply_right (1 : Fin S128x1024.rank) x₁ x₂ h (ix2 p cc) rfl rfl
      (ix2 p ⟨cc.val - 512, by have := cc.isLt; omega⟩) (fun b hb => by
        match b with
        | ⟨0, _⟩ => rfl
        | ⟨1, _⟩ => exact absurd rfl hb)
      (by show cc.val - 512 + 512 = cc.val; omega)

theorem fuse_eq (qe qn e a k : FVec Ideal S128x512 .f32) (h : Shape.Concatenates [S128x512, S128x512] S128x1024 1) :
    addf (concatenate S128x1024 1 [⟨S128x512, addf qe e⟩, ⟨S128x512, addf qn a⟩] h)
        (concatenate S128x1024 1 [⟨S128x512, addf qe e⟩, ⟨S128x512, addf qn k⟩] h) = Spec.fuse qe qn e a k := by
  funext j
  obtain ⟨p, cc, rfl⟩ : ∃ (p : Fin 128) (cc : Fin 1024), j = ix2 p cc := ⟨j 0, j 1, eq_ix2 j⟩
  rw [addf_apply, sideBySide_apply, sideBySide_apply]
  show _ = Spec.fuseAt qe qn e a k p cc
  unfold Spec.fuseAt
  by_cases hlt : cc.val < 512
  · rw [dif_pos hlt, dif_pos hlt, dif_pos hlt]; rfl
  · rw [dif_neg hlt, dif_neg hlt, dif_neg hlt]; rfl

/-- Compare with zero, select, exp − 1, select again: the exponential linear unit. -/
theorem elu_eq (y : FVec Ideal S128x2048 .f32) :
    select (cmpf .ogt y (k3_pay3 (F := Ideal))) y (subf (exp y) (broadcast S128x2048 (Scalar.ofBits .f32 0x3F800000#32)))
      = fun j => Spec.elu (y j) := by
  funext j
  rw [select_apply, cmpf_apply, subf_apply]
  show Scalar.select (Ideal.cmp .ogt (y j) (Ideal.ofBits .f32 0x00000000#32)) (y j) (Ideal.exp (y j) - Ideal.ofBits .f32 0x3F800000#32) = _
  rw [Ideal.ofBits_zero_f32, Ideal.ofBits_one_f32]
  unfold Spec.elu Ideal.cmp
  by_cases h : (0 : EReal) < y j
  · rw [if_pos h]
    show Scalar.select (BitVec.ofBool (decide ((0 : EReal) < y j))) _ _ = _
    rw [decide_eq_true h]; exact select_one _ _
  · rw [if_neg h]
    show Scalar.select (BitVec.ofBool (decide ((0 : EReal) < y j))) _ _ = _
    rw [decide_eq_false h]; exact select_zero _ _

theorem truncf_eq {s : Shape} {φ ψ : FTy} (a : FVec Ideal s φ) (h : ψ.bits < φ.bits) :
    (truncf ψ a h : FVec Ideal s ψ) = a := rfl

theorem pay2_eq (q : Vec Ideal S128x1024 .bf16) (wqe : Vec Ideal S1024x512 .bf16) (bqe : Vec Ideal S512 .f32)
    (wqn : Vec Ideal S1024x512 .bf16) (bqn : Vec Ideal S512 .f32) (e a k : Vec Ideal S128x512 .f32)
    (w1 : Vec Ideal S1024x2048 .bf16) (b1 : Vec Ideal S2048 .f32) :
    k3_pay2 (F := Ideal) q wqe bqe wqn bqn e a k w1 b1
      = Spec.affine (Spec.fuse (Spec.affine q wqe bqe) (Spec.affine q wqn bqn) e a k) w1 b1 := by
  unfold k3_pay2
  dsimp only
  rw [affineQ_eq, affineQ_eq, shapeCast_self, shapeCast_self, shapeCast_self, fuse_eq, truncf_eq, affineH_eq]

theorem pay1_eq (y : FVec Ideal S128x2048 .f32) (w2 : Vec Ideal S2048x3129 .bf16) (b2 : Vec Ideal S3129 .f32) :
    k3_pay1 (F := Ideal) y k3_pay3 w2 b2 = Spec.affine (fun j => Spec.elu (y j)) w2 b2 := by
  unfold k3_pay1
  dsimp only
  rw [elu_eq, truncf_eq, affineO_eq]

section Arrays

variable (V : (c : Dev nD) → (b : Ref sig .tc) → Buf (Elt Ideal) ((c : Thread nD τ).loc b))

theorem blk0_eq (c : Dev nD) (t : Fin cfg3.N) : qBlk V c t = V c (Pipeline.arrRef spec3 0) := by
  have hz : ∀ t : Fin cfg3.N, win3_0.index t (0 : Fin 2) = 0 ∧ win3_0.index t (1 : Fin 2) = 0 :=
    (by decide +kernel : ∀ t : Fin grid3.N, _)
  obtain ⟨e0, e1⟩ := hz t
  funext j
  show V c (Pipeline.arrRef spec3 0) (((cfg3.win 0).blk t).view.emb j) = V c (Pipeline.arrRef spec3 0) j
  refine congrArg _ (funext fun a => Fin.ext ?_)
  match a with
  | ⟨0, _⟩ => show win3_0.index t (0 : Fin 2) * 128 + 1 * (j 0).val = (j 0).val; omega
  | ⟨1, _⟩ => show win3_0.index t (1 : Fin 2) * 1024 + 1 * (j 1).val = (j 1).val; omega

theorem blk5_eq (c : Dev nD) (t : Fin cfg3.N) : bqe V c t = V c (Pipeline.arrRef spec3 5) := by
  have hz : ∀ t : Fin cfg3.N, win3_5.index t (0 : Fin 1) = 0 := (by decide +kernel : ∀ t : Fin grid3.N, _)
  have e0 := hz t
  funext j
  show V c (Pipeline.arrRef spec3 5) (((cfg3.win 5).blk t).view.emb j) = V c (Pipeline.arrRef spec3 5) j
  refine congrArg _ (funext fun a => Fin.ext ?_)
  match a with
  | ⟨0, _⟩ => show win3_5.index t (0 : Fin 1) * 512 + 1 * (j 0).val = (j 0).val; omega

theorem blk1_eq (c : Dev nD) (t : Fin cfg3.N) : imgNodeBlk V c t = V c (Pipeline.arrRef spec3 1) := by
  have hz : ∀ t : Fin cfg3.N, win3_1.index t (0 : Fin 2) = 0 ∧ win3_1.index t (1 : Fin 2) = 0 :=
    (by decide +kernel : ∀ t : Fin grid3.N, _)
  obtain ⟨e0, e1⟩ := hz t
  funext j
  show V c (Pipeline.arrRef spec3 1) (((cfg3.win 1).blk t).view.emb j) = V c (Pipeline.arrRef spec3 1) j
  refine congrArg _ (funext fun a => Fin.ext ?_)
  match a with
  | ⟨0, _⟩ => show win3_1.index t (0 : Fin 2) * 128 + 1 * (j 0).val = (j 0).val; omega
  | ⟨1, _⟩ => show win3_1.index t (1 : Fin 2) * 512 + 1 * (j 1).val = (j 1).val; omega

theorem blk2_eq (c : Dev nD) (t : Fin cfg3.N) : kgNodeBlk V c t = V c (Pipeline.arrRef spec3 2) := by
  have hz : ∀ t : Fin cfg3.N, win3_2.index t (0 : Fin 2) = 0 ∧ win3_2.index t (1 : Fin 2) = 0 :=
    (by decide +kernel : ∀ t : Fin grid3.N, _)
  obtain ⟨e0, e1⟩ := hz t
  funext j
  show V c (Pipeline.arrRef spec3 2) (((cfg3.win 2).blk t).view.emb j) = V c (Pipeline.arrRef spec3 2) j
  refine congrArg _ (funext fun a => Fin.ext ?_)
  match a with
  | ⟨0, _⟩ => show win3_2.index t (0 : Fin 2) * 128 + 1 * (j 0).val = (j 0).val; omega
  | ⟨1, _⟩ => show win3_2.index t (1 : Fin 2) * 512 + 1 * (j 1).val = (j 1).val; omega

theorem blk3_eq (c : Dev nD) (t : Fin cfg3.N) : imgEdgeBlk V c t = V c (Pipeline.arrRef spec3 3) := by
  have hz : ∀ t : Fin cfg3.N, win3_3.index t (0 : Fin 2) = 0 ∧ win3_3.index t (1 : Fin 2) = 0 :=
    (by decide +kernel : ∀ t : Fin grid3.N, _)
  obtain ⟨e0, e1⟩ := hz t
  funext j
  show V c (Pipeline.arrRef spec3 3) (((cfg3.win 3).blk t).view.emb j) = V c (Pipeline.arrRef spec3 3) j
  refine congrArg _ (funext fun a => Fin.ext ?_)
  match a with
  | ⟨0, _⟩ => show win3_3.index t (0 : Fin 2) * 128 + 1 * (j 0).val = (j 0).val; omega
  | ⟨1, _⟩ => show win3_3.index t (1 : Fin 2) * 512 + 1 * (j 1).val = (j 1).val; omega

theorem blk4_eq (c : Dev nD) (t : Fin cfg3.N) : wqe V c t = V c (Pipeline.arrRef spec3 4) := by
  have hz : ∀ t : Fin cfg3.N, win3_4.index t (0 : Fin 2) = 0 ∧ win3_4.index t (1 : Fin 2) = 0 :=
    (by decide +kernel : ∀ t : Fin grid3.N, _)
  obtain ⟨e0, e1⟩ := hz t
  funext j
  show V c (Pipeline.arrRef spec3 4) (((cfg3.win 4).blk t).view.emb j) = V c (Pipeline.arrRef spec3 4) j
  refine congrArg _ (funext fun a => Fin.ext ?_)
  match a with
  | ⟨0, _⟩ => show win3_4.index t (0 : Fin 2) * 1024 + 1 * (j 0).val = (j 0).val; omega
  | ⟨1, _⟩ => show win3_4.index t (1 : Fin 2) * 512 + 1 * (j 1).val = (j 1).val; omega

theorem blk6_eq (c : Dev nD) (t : Fin cfg3.N) : wqn V c t = V c (Pipeline.arrRef spec3 6) := by
  have hz : ∀ t : Fin cfg3.N, win3_6.index t (0 : Fin 2) = 0 ∧ win3_6.index t (1 : Fin 2) = 0 :=
    (by decide +kernel : ∀ t : Fin grid3.N, _)
  obtain ⟨e0, e1⟩ := hz t
  funext j
  show V c (Pipeline.arrRef spec3 6) (((cfg3.win 6).blk t).view.emb j) = V c (Pipeline.arrRef spec3 6) j
  refine congrArg _ (funext fun a => Fin.ext ?_)
  match a with
  | ⟨0, _⟩ => show win3_6.index t (0 : Fin 2) * 1024 + 1 * (j 0).val = (j 0).val; omega
  | ⟨1, _⟩ => show win3_6.index t (1 : Fin 2) * 512 + 1 * (j 1).val = (j 1).val; omega

theorem blk7_eq (c : Dev nD) (t : Fin cfg3.N) : bqn V c t = V c (Pipeline.arrRef spec3 7) := by
  have hz : ∀ t : Fin cfg3.N, win3_7.index t (0 : Fin 1) = 0 := (by decide +kernel : ∀ t : Fin grid3.N, _)
  have e0 := hz t
  funext j
  show V c (Pipeline.arrRef spec3 7) (((cfg3.win 7).blk t).view.emb j) = V c (Pipeline.arrRef spec3 7) j
  refine congrArg _ (funext fun a => Fin.ext ?_)
  match a with
  | ⟨0, _⟩ => show win3_7.index t (0 : Fin 1) * 512 + 1 * (j 0).val = (j 0).val; omega

theorem blk8_eq (c : Dev nD) (t : Fin cfg3.N) : w1 V c t = V c (Pipeline.arrRef spec3 8) := by
  have hz : ∀ t : Fin cfg3.N, win3_8.index t (0 : Fin 2) = 0 ∧ win3_8.index t (1 : Fin 2) = 0 :=
    (by decide +kernel : ∀ t : Fin grid3.N, _)
  obtain ⟨e0, e1⟩ := hz t
  funext j
  show V c (Pipeline.arrRef spec3 8) (((cfg3.win 8).blk t).view.emb j) = V c (Pipeline.arrRef spec3 8) j
  refine congrArg _ (funext fun a => Fin.ext ?_)
  match a with
  | ⟨0, _⟩ => show win3_8.index t (0 : Fin 2) * 1024 + 1 * (j 0).val = (j 0).val; omega
  | ⟨1, _⟩ => show win3_8.index t (1 : Fin 2) * 2048 + 1 * (j 1).val = (j 1).val; omega

theorem blk9_eq (c : Dev nD) (t : Fin cfg3.N) : b1 V c t = V c (Pipeline.arrRef spec3 9) := by
  have hz : ∀ t : Fin cfg3.N, win3_9.index t (0 : Fin 1) = 0 := (by decide +kernel : ∀ t : Fin grid3.N, _)
  have e0 := hz t
  funext j
  show V c (Pipeline.arrRef spec3 9) (((cfg3.win 9).blk t).view.emb j) = V c (Pipeline.arrRef spec3 9) j
  refine congrArg _ (funext fun a => Fin.ext ?_)
  match a with
  | ⟨0, _⟩ => show win3_9.index t (0 : Fin 1) * 2048 + 1 * (j 0).val = (j 0).val; omega

theorem blk10_eq (c : Dev nD) (t : Fin cfg3.N) : w2 V c t = V c (Pipeline.arrRef spec3 10) := by
  have hz : ∀ t : Fin cfg3.N, win3_10.index t (0 : Fin 2) = 0 ∧ win3_10.index t (1 : Fin 2) = 0 :=
    (by decide +kernel : ∀ t : Fin grid3.N, _)
  obtain ⟨e0, e1⟩ := hz t
  funext j
  show V c (Pipeline.arrRef spec3 10) (((cfg3.win 10).blk t).view.emb j) = V c (Pipeline.arrRef spec3 10) j
  refine congrArg _ (funext fun a => Fin.ext ?_)
  match a with
  | ⟨0, _⟩ => show win3_10.index t (0 : Fin 2) * 2048 + 1 * (j 0).val = (j 0).val; omega
  | ⟨1, _⟩ => show win3_10.index t (1 : Fin 2) * 3129 + 1 * (j 1).val = (j 1).val; omega

theorem blk11_eq (c : Dev nD) (t : Fin cfg3.N) : b2 V c t = V c (Pipeline.arrRef spec3 11) := by
  have hz : ∀ t : Fin cfg3.N, win3_11.index t (0 : Fin 1) = 0 := (by decide +kernel : ∀ t : Fin grid3.N, _)
  have e0 := hz t
  funext j
  show V c (Pipeline.arrRef spec3 11) (((cfg3.win 11).blk t).view.emb j) = V c (Pipeline.arrRef spec3 11) j
  refine congrArg _ (funext fun a => Fin.ext ?_)
  match a with
  | ⟨0, _⟩ => show win3_11.index t (0 : Fin 1) * 3129 + 1 * (j 0).val = (j 0).val; omega

theorem outBlk_spec (c : Dev nD) (t : Fin cfg3.N) :
    outBlk V c t = Spec.head (qBlk V c t) (imgNodeBlk V c t) (kgNodeBlk V c t) (imgEdgeBlk V c t) (wqe V c t) (bqe V c t)
      (wqn V c t) (bqn V c t) (w1 V c t) (b1 V c t) (w2 V c t) (b2 V c t) := by
  unfold outBlk
  rw [pay2_eq, pay1_eq]
  rfl

theorem idx_out : ∀ t : Fin cfg3.N, win3_12.index t (0 : Fin 2) = 0 ∧ win3_12.index t (1 : Fin 2) = 0 :=
  (by decide +kernel : ∀ t : Fin grid3.N, _)

theorem head_congr {q q' : Spec.Mat 128 1024} {a a' k k' e e' : Spec.Mat 128 512} {wqe wqe' : Spec.Mat 1024 512}
    {bqe bqe' : Spec.Vect 512} {wqn wqn' : Spec.Mat 1024 512} {bqn bqn' : Spec.Vect 512} {w1 w1' : Spec.Mat 1024 2048}
    {b1 b1' : Spec.Vect 2048} {w2 w2' : Spec.Mat 2048 3129} {b2 b2' : Spec.Vect 3129}
    (h0 : q = q') (h1 : a = a') (h2 : k = k') (h3 : e = e') (h4 : wqe = wqe') (h5 : bqe = bqe') (h6 : wqn = wqn')
    (h7 : bqn = bqn') (h8 : w1 = w1') (h9 : b1 = b1') (h10 : w2 = w2') (h11 : b2 = b2') :
    Spec.head q a k e wqe bqe wqn bqn w1 b1 w2 b2 = Spec.head q' a' k' e' wqe' bqe' wqn' bqn' w1' b1' w2' b2' := by
  subst h0 h1 h2 h3 h4 h5 h6 h7 h8 h9 h10 h11
  rfl

theorem cut_eq_read (G : S128x3129.Idx → EReal) (t : Fin cfg3.N) :
    (cfg3.win 12).cut (grid3.coords t) G = ((cfg3.win 12).blk t).view.read (Elt Ideal) G := by
  obtain ⟨e0, e1⟩ := idx_out t
  funext j
  show G ((cfg3.win 12).xinj (grid3.coords t) j) = G (((cfg3.win 12).blk t).view.emb j)
  refine congrArg _ (funext fun a => Fin.ext ?_)
  match a with
  | ⟨0, _⟩ => show (j 0).val = win3_12.index t (0 : Fin 2) * 128 + 1 * (j 0).val; omega
  | ⟨1, _⟩ => show (j 1).val = win3_12.index t (1 : Fin 2) * 3129 + 1 * (j 1).val; omega

set_option maxHeartbeats 1000000 in

theorem flushed_eq (c : Dev nD) (t : Fin cfg3.N) :
    (dat V c).flushed 12 t = ((cfg3.win 12).blk t).view.read (Elt Ideal)
      (Spec.head (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9)) (V c (Pipeline.arrRef spec3 10)) (V c (Pipeline.arrRef spec3 11))) := by
  show (cfg3.win 12).cut (grid3.coords t) ((dat V c).after 12 t) = _
  rw [after_12, outBlk_spec,
    head_congr (blk0_eq V c t) (blk1_eq V c t) (blk2_eq V c t) (blk3_eq V c t) (blk4_eq V c t) (blk5_eq V c t)
      (blk6_eq V c t) (blk7_eq V c t) (blk8_eq V c t) (blk9_eq V c t) (blk10_eq V c t) (blk11_eq V c t)]
  exact cut_eq_read _ t

theorem mem_blk (t : Fin cfg3.N) (i : S128x3129.Idx) : i ∈ ((cfg3.win 12).blk t).view.set := by
  show i ∈ ((View.whole main_v50).slice (win3_12.rect t)).set
  rw [View.set_slice_whole, Rect.mem_set_unit]
  obtain ⟨e0, e1⟩ := idx_out t
  have hi0 : (i 0).val < 128 := (i 0).isLt
  have hi1 : (i 1).val < 3129 := (i 1).isLt
  intro a
  match a with
  | ⟨0, _⟩ => show win3_12.index t (0 : Fin 2) * 128 ≤ (i 0).val ∧ (i 0).val < win3_12.index t (0 : Fin 2) * 128 + 128; omega
  | ⟨1, _⟩ => show win3_12.index t (1 : Fin 2) * 3129 ≤ (i 1).val ∧ (i 1).val < win3_12.index t (1 : Fin 2) * 3129 + 3129; omega

set_option maxHeartbeats 1000000 in

/-- The head's output array is the specification's head of its twelve input arrays. -/
theorem out_arr (c : Dev nD) :
    (dat V c).arrAt 12 cfg3.N
      = Spec.head (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9)) (V c (Pipeline.arrRef spec3 10)) (V c (Pipeline.arrRef spec3 11)) :=
  (dat V c).arrAt_eq_of_cover 12 _ (fun t _ => flushed_eq V c t) (fun i => ⟨t3_0, flush3_12 t3_0, mem_blk t3_0 i⟩)

end Arrays

end Cert.KernelIdeal.Head

end
-- ==== Proof.KernelIdeal.Value.lean ====
import proofs.«419520_j38482906972438_2_alg».proof.Proof.KernelIdeal.Run
import proofs.«419520_j38482906972438_2_alg».proof.Proof.KernelIdeal.Pool0Value
import proofs.«419520_j38482906972438_2_alg».proof.Proof.KernelIdeal.Pool1Value
import proofs.«419520_j38482906972438_2_alg».proof.Proof.KernelIdeal.Pool2Value
import proofs.«419520_j38482906972438_2_alg».proof.Proof.KernelIdeal.Pool0Mean
import proofs.«419520_j38482906972438_2_alg».proof.Proof.KernelIdeal.Pool1Mean
import proofs.«419520_j38482906972438_2_alg».proof.Proof.KernelIdeal.Pool2Mean
import proofs.«419520_j38482906972438_2_alg».proof.Proof.KernelIdeal.HeadValue
import Idealize.ShloMosaic.Lib.StableHlo.Run
import Idealize.ShloMosaic.Lib.ValueIdx

noncomputable section

namespace Cert.KernelIdeal.Value

open Idealize.ShloMosaic Idealize.ShloMosaic.TcCoe Idealize.ShloMosaic.ValueIdx
open Idealize.SL.Sem
open Cert.KernelIdeal Cert.KernelIdeal.Gen Cert.KernelIdeal.Run

variable (m : (ℓ : Loc nD τ sig) → Buf (Elt Ideal) ℓ)

theorem U2_launch (c : Dev nD) (b : Ref sig .tc)
    (h0 : ∀ w, (cfg0.win w).isOut = true → Pipeline.arrRef spec0 w ≠ b) (h1 : b ∉ hostOps1_W) :
    U2 m c (Proc.devRef .tc b) = m ((c : Thread nD τ).loc b) :=
  (U2_of m c b h1).trans (U1_keep m c b h0)

theorem U4_launch (c : Dev nD) (b : Ref sig .tc)
    (h0 : ∀ w, (cfg0.win w).isOut = true → Pipeline.arrRef spec0 w ≠ b) (h1 : b ∉ hostOps1_W)
    (h2 : ∀ w, (cfg1.win w).isOut = true → Pipeline.arrRef spec1 w ≠ b) (h3 : b ∉ hostOps2_W) :
    U4 m c (Proc.devRef .tc b) = m ((c : Thread nD τ).loc b) :=
  (U4_of m c b h3).trans ((U3_keep m c b h2).trans (U2_launch m c b h0 h1))

theorem U5_launch (c : Dev nD) (b : Ref sig .tc)
    (h0 : ∀ w, (cfg0.win w).isOut = true → Pipeline.arrRef spec0 w ≠ b) (h1 : b ∉ hostOps1_W)
    (h2 : ∀ w, (cfg1.win w).isOut = true → Pipeline.arrRef spec1 w ≠ b) (h3 : b ∉ hostOps2_W)
    (h4 : ∀ w, (cfg2.win w).isOut = true → Pipeline.arrRef spec2 w ≠ b) :
    U5 m c (Proc.devRef .tc b) = m ((c : Thread nD τ).loc b) :=
  (U5_keep m c b h4).trans (U4_launch m c b h0 h1 h2 h3)

theorem U6_launch (c : Dev nD) (b : Ref sig .tc)
    (h0 : ∀ w, (cfg0.win w).isOut = true → Pipeline.arrRef spec0 w ≠ b) (h1 : b ∉ hostOps1_W)
    (h2 : ∀ w, (cfg1.win w).isOut = true → Pipeline.arrRef spec1 w ≠ b) (h3 : b ∉ hostOps2_W)
    (h4 : ∀ w, (cfg2.win w).isOut = true → Pipeline.arrRef spec2 w ≠ b) (h5 : b ∉ hostOps3_W) :
    U6 m c (Proc.devRef .tc b) = m ((c : Thread nD τ).loc b) :=
  (U6_of m c b h5).trans (U5_launch m c b h0 h1 h2 h3 h4)

theorem V0_feat (c : Dev nD) : Run.V0 m c (Pipeline.arrRef spec0 0) = m ((c : Thread nD τ).loc main_arg1) := rfl
theorem V0_seg (c : Dev nD) : Run.V0 m c (Pipeline.arrRef spec0 1) = m ((c : Thread nD τ).loc main_arg5) := rfl
theorem V2_feat (c : Dev nD) : Run.V2 m c (Pipeline.arrRef spec1 0) = m ((c : Thread nD τ).loc main_arg2) :=
  U2_launch m c main_arg2 (by decide) (by decide)
theorem V2_seg (c : Dev nD) : Run.V2 m c (Pipeline.arrRef spec1 1) = m ((c : Thread nD τ).loc main_arg6) :=
  U2_launch m c main_arg6 (by decide) (by decide)
theorem V4_feat (c : Dev nD) : Run.V4 m c (Pipeline.arrRef spec2 0) = m ((c : Thread nD τ).loc main_arg3) :=
  U4_launch m c main_arg3 (by decide) (by decide) (by decide) (by decide)
theorem V4_seg (c : Dev nD) : Run.V4 m c (Pipeline.arrRef spec2 1) = m ((c : Thread nD τ).loc main_arg7) :=
  U4_launch m c main_arg7 (by decide) (by decide) (by decide) (by decide)

theorem U6_main_v14 (c : Dev nD) : U6 m c (Proc.devRef .tc main_v14) = U2 m c (Proc.devRef .tc main_v14) :=
  (U6_of m c main_v14 (by decide)).trans ((U5_keep m c main_v14 (by decide)).trans
    ((U4_of m c main_v14 (by decide)).trans (U3_keep m c main_v14 (by decide))))
theorem U6_main_v29 (c : Dev nD) : U6 m c (Proc.devRef .tc main_v29) = U4 m c (Proc.devRef .tc main_v29) :=
  (U6_of m c main_v29 (by decide)).trans (U5_keep m c main_v29 (by decide))

theorem V6_bqe (c : Dev nD) : Run.V6 m c (Pipeline.arrRef spec3 5) = m ((c : Thread nD τ).loc main_arg10) :=
  U6_launch m c main_arg10 (by decide) (by decide) (by decide) (by decide) (by decide) (by decide)
theorem V6_bqn (c : Dev nD) : Run.V6 m c (Pipeline.arrRef spec3 7) = m ((c : Thread nD τ).loc main_arg12) :=
  U6_launch m c main_arg12 (by decide) (by decide) (by decide) (by decide) (by decide) (by decide)
theorem V6_b1 (c : Dev nD) : Run.V6 m c (Pipeline.arrRef spec3 9) = m ((c : Thread nD τ).loc main_arg14) :=
  U6_launch m c main_arg14 (by decide) (by decide) (by decide) (by decide) (by decide) (by decide)
theorem V6_b2 (c : Dev nD) : Run.V6 m c (Pipeline.arrRef spec3 11) = m ((c : Thread nD τ).loc main_arg16) :=
  U6_launch m c main_arg16 (by decide) (by decide) (by decide) (by decide) (by decide) (by decide)

theorem V6_q (c : Dev nD) : Run.V6 m c (Pipeline.arrRef spec3 0) = m ((c : Thread nD τ).loc main_arg0) := by
  show StableHlo.after hostOps3 (U5 m c) (Proc.devRef .tc main_v45) = _
  after_results
  funext i
  exact congrFun (U5_launch m c main_arg0 (by decide) (by decide) (by decide) (by decide) (by decide)) i
theorem V6_wqe (c : Dev nD) : Run.V6 m c (Pipeline.arrRef spec3 4) = m ((c : Thread nD τ).loc main_arg9) := by
  show StableHlo.after hostOps3 (U5 m c) (Proc.devRef .tc main_v46) = _
  after_results
  funext i
  exact congrFun (U5_launch m c main_arg9 (by decide) (by decide) (by decide) (by decide) (by decide)) i
theorem V6_wqn (c : Dev nD) : Run.V6 m c (Pipeline.arrRef spec3 6) = m ((c : Thread nD τ).loc main_arg11) := by
  show StableHlo.after hostOps3 (U5 m c) (Proc.devRef .tc main_v47) = _
  after_results
  funext i
  exact congrFun (U5_launch m c main_arg11 (by decide) (by decide) (by decide) (by decide) (by decide)) i
theorem V6_w1 (c : Dev nD) : Run.V6 m c (Pipeline.arrRef spec3 8) = m ((c : Thread nD τ).loc main_arg13) := by
  show StableHlo.after hostOps3 (U5 m c) (Proc.devRef .tc main_v48) = _
  after_results
  funext i
  exact congrFun (U5_launch m c main_arg13 (by decide) (by decide) (by decide) (by decide) (by decide)) i
theorem V6_w2 (c : Dev nD) : Run.V6 m c (Pipeline.arrRef spec3 10) = m ((c : Thread nD τ).loc main_arg15) := by
  show StableHlo.after hostOps3 (U5 m c) (Proc.devRef .tc main_v49) = _
  after_results
  funext i
  exact congrFun (U5_launch m c main_arg15 (by decide) (by decide) (by decide) (by decide) (by decide)) i

theorem mean_imgNode (c : Dev nD) :
    U2 m c (Proc.devRef .tc main_v14)
      = Spec.segMean (m ((c : Thread nD τ).loc main_arg1)) (m ((c : Thread nD τ).loc main_arg5)) :=
  Pool0Mean.mean_of_partials (U1 m c) (m ((c : Thread nD τ).loc main_arg1)) (m ((c : Thread nD τ).loc main_arg5))
    ((U1_main_v0_0 m c).trans ((Pool0.sum_arr (Run.V0 m) c).trans (by rw [V0_feat m c, V0_seg m c])))
    ((U1_main_v0_1 m c).trans ((Pool0.cnt_arr (Run.V0 m) c).trans (by rw [V0_seg m c])))

theorem mean_kgNode (c : Dev nD) :
    U4 m c (Proc.devRef .tc main_v29)
      = Spec.segMean (m ((c : Thread nD τ).loc main_arg2)) (m ((c : Thread nD τ).loc main_arg6)) :=
  Pool1Mean.mean_of_partials (U3 m c) (m ((c : Thread nD τ).loc main_arg2)) (m ((c : Thread nD τ).loc main_arg6))
    ((U3_main_v15_0 m c).trans ((Pool1.sum_arr (Run.V2 m) c).trans (by rw [V2_feat m c, V2_seg m c])))
    ((U3_main_v15_1 m c).trans ((Pool1.cnt_arr (Run.V2 m) c).trans (by rw [V2_seg m c])))

theorem mean_imgEdge (c : Dev nD) :
    U6 m c (Proc.devRef .tc main_v44)
      = Spec.segMean (m ((c : Thread nD τ).loc main_arg3)) (m ((c : Thread nD τ).loc main_arg7)) :=
  Pool2Mean.mean_of_partials (U5 m c) (m ((c : Thread nD τ).loc main_arg3)) (m ((c : Thread nD τ).loc main_arg7))
    ((U5_main_v30_0 m c).trans ((Pool2.sum_arr (Run.V4 m) c).trans (by rw [V4_feat m c, V4_seg m c])))
    ((U5_main_v30_1 m c).trans ((Pool2.cnt_arr (Run.V4 m) c).trans (by rw [V4_seg m c])))

theorem V6_imgNode (c : Dev nD) : Run.V6 m c (Pipeline.arrRef spec3 1)
    = Spec.segMean (m ((c : Thread nD τ).loc main_arg1)) (m ((c : Thread nD τ).loc main_arg5)) :=
  (U6_main_v14 m c).trans (mean_imgNode m c)
theorem V6_kgNode (c : Dev nD) : Run.V6 m c (Pipeline.arrRef spec3 2)
    = Spec.segMean (m ((c : Thread nD τ).loc main_arg2)) (m ((c : Thread nD τ).loc main_arg6)) :=
  (U6_main_v29 m c).trans (mean_kgNode m c)
theorem V6_imgEdge (c : Dev nD) : Run.V6 m c (Pipeline.arrRef spec3 3)
    = Spec.segMean (m ((c : Thread nD τ).loc main_arg3)) (m ((c : Thread nD τ).loc main_arg7)) :=
  mean_imgEdge m c

/-- The exact kernel run's result array is `Spec.model` of the arguments. -/
theorem result (c : Dev nD) :
    Run.U7 m c (Proc.devRef .tc main_v50)
      = Spec.model (m ((c : Thread nD τ).loc main_arg0)) (m ((c : Thread nD τ).loc main_arg1))
          (m ((c : Thread nD τ).loc main_arg2)) (m ((c : Thread nD τ).loc main_arg3))
          (m ((c : Thread nD τ).loc main_arg5)) (m ((c : Thread nD τ).loc main_arg6))
          (m ((c : Thread nD τ).loc main_arg7)) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15))
          (m ((c : Thread nD τ).loc main_arg16)) :=
  (U7_result m c).trans ((Head.out_arr (Run.V6 m) c).trans
    (Head.head_congr (V6_q m c) (V6_imgNode m c) (V6_kgNode m c) (V6_imgEdge m c) (V6_wqe m c) (V6_bqe m c)
      (V6_wqn m c) (V6_bqn m c) (V6_w1 m c) (V6_b1 m c) (V6_w2 m c) (V6_b2 m c)))

end Cert.KernelIdeal.Value

end
-- ==== Proof.ReferenceIdeal.Run.lean ====
import proofs.«419520_j38482906972438_2_alg».proof.Proof.Gen.ReferenceIdeal
import Idealize.ShloMosaic.Lib.StableHlo.Run
import Idealize.ShloMosaic.PureOps.Ideal

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [
    nullary main_cst (constant S_ .f32 0x00000000#32),
    unary main_cst main_v0 (broadcastInDim S128x512 ![] bcast_S_S128x512),
    unary main_arg5 main_v1 (broadcastInDim S131072x1 ![0] bcast_S131072_S131072x1_0),
    ternary main_v0 main_v1 main_arg1 main_v2 ((fun x i u => Host.scatterAdd scatter_S128x512_S131072x1_S131072x512_1_0_0_1 x i u)),
    nullary main_cst_0 (constant S_ .f32 0x3F800000#32),
    unary main_cst_0 main_v3 (broadcastInDim S131072 ![] bcast_S_S131072),
    nullary main_cst_1 (constant S_ .f32 0x00000000#32),
    unary main_cst_1 main_v4 (broadcastInDim S128 ![] bcast_S_S128),
    unary main_arg5 main_v5 (broadcastInDim S131072x1 ![0] bcast_S131072_S131072x1_0),
    ternary main_v4 main_v5 main_v3 main_v6 ((fun x i u => Host.scatterAdd scatter_S128_S131072x1_S131072_n_0_0_1 x i u)),
    nullary main_cst_2 (constant S_ .f32 0x3F800000#32),
    unary main_cst_2 main_v7 (broadcastInDim S128 ![] bcast_S_S128),
    binary main_v6 main_v7 main_v8 (maximumf),
    unary main_v8 main_v9 (broadcastInDim S128x1 ![0] bcast_S128_S128x1_0),
    unary main_v9 main_v10 (broadcastInDim S128x512 ![0, 1] bcast_S128x1_S128x512_0_1),
    binary main_v2 main_v10 main_v11 (Host.divf),
    nullary main_cst_3 (constant S_ .f32 0x00000000#32),
    unary main_cst_3 main_v12 (broadcastInDim S128x512 ![] bcast_S_S128x512),
    unary main_arg6 main_v13 (broadcastInDim S131072x1 ![0] bcast_S131072_S131072x1_0),
    ternary main_v12 main_v13 main_arg2 main_v14 ((fun x i u => Host.scatterAdd scatter_S128x512_S131072x1_S131072x512_1_0_0_1 x i u)),
    nullary main_cst_4 (constant S_ .f32 0x3F800000#32),
    unary main_cst_4 main_v15 (broadcastInDim S131072 ![] bcast_S_S131072),
    nullary main_cst_5 (constant S_ .f32 0x00000000#32),
    unary main_cst_5 main_v16 (broadcastInDim S128 ![] bcast_S_S128),
    unary main_arg6 main_v17 (broadcastInDim S131072x1 ![0] bcast_S131072_S131072x1_0),
    ternary main_v16 main_v17 main_v15 main_v18 ((fun x i u => Host.scatterAdd scatter_S128_S131072x1_S131072_n_0_0_1 x i u)),
    nullary main_cst_6 (constant S_ .f32 0x3F800000#32),
    unary main_cst_6 main_v19 (broadcastInDim S128 ![] bcast_S_S128),
    binary main_v18 main_v19 main_v20 (maximumf),
    unary main_v20 main_v21 (broadcastInDim S128x1 ![0] bcast_S128_S128x1_0),
    unary main_v21 main_v22 (broadcastInDim S128x512 ![0, 1] bcast_S128x1_S128x512_0_1),
    binary main_v14 main_v22 main_v23 (Host.divf),
    nullary main_cst_7 (constant S_ .f32 0x00000000#32),
    unary main_cst_7 main_v24 (broadcastInDim S128x512 ![] bcast_S_S128x512),
    unary main_arg7 main_v25 (broadcastInDim S262144x1 ![0] bcast_S262144_S262144x1_0),
    ternary main_v24 main_v25 main_arg3 main_v26 ((fun x i u => Host.scatterAdd scatter_S128x512_S262144x1_S262144x512_1_0_0_1 x i u)),
    nullary main_cst_8 (constant S_ .f32 0x3F800000#32),
    unary main_cst_8 main_v27 (broadcastInDim S262144 ![] bcast_S_S262144),
    nullary main_cst_9 (constant S_ .f32 0x00000000#32),
    unary main_cst_9 main_v28 (broadcastInDim S128 ![] bcast_S_S128),
    unary main_arg7 main_v29 (broadcastInDim S262144x1 ![0] bcast_S262144_S262144x1_0),
    ternary main_v28 main_v29 main_v27 main_v30 ((fun x i u => Host.scatterAdd scatter_S128_S262144x1_S262144_n_0_0_1 x i u)),
    nullary main_cst_10 (constant S_ .f32 0x3F800000#32),
    unary main_cst_10 main_v31 (broadcastInDim S128 ![] bcast_S_S128),
    binary main_v30 main_v31 main_v32 (maximumf),
    unary main_v32 main_v33 (broadcastInDim S128x1 ![0] bcast_S128_S128x1_0),
    unary main_v33 main_v34 (broadcastInDim S128x512 ![0, 1] bcast_S128x1_S128x512_0_1),
    binary main_v26 main_v34 main_v35 (Host.divf),
    nullary main_cst_11 (constant S_ .f32 0x00000000#32),
    unary main_cst_11 main_v36 (broadcastInDim S128x512 ![] bcast_S_S128x512),
    unary main_arg7 main_v37 (broadcastInDim S262144x1 ![0] bcast_S262144_S262144x1_0),
    ternary main_v36 main_v37 main_arg3 main_v38 ((fun x i u => Host.scatterAdd scatter_S128x512_S262144x1_S262144x512_1_0_0_1 x i u)),
    nullary main_cst_12 (constant S_ .f32 0x3F800000#32),
    unary main_cst_12 main_v39 (broadcastInDim S262144 ![] bcast_S_S262144),
    nullary main_cst_13 (constant S_ .f32 0x00000000#32),
    unary main_cst_13 main_v40 (broadcastInDim S128 ![] bcast_S_S128),
    unary main_arg7 main_v41 (broadcastInDim S262144x1 ![0] bcast_S262144_S262144x1_0),
    ternary main_v40 main_v41 main_v39 main_v42 ((fun x i u => Host.scatterAdd scatter_S128_S262144x1_S262144_n_0_0_1 x i u)),
    nullary main_cst_14 (constant S_ .f32 0x3F800000#32),
    unary main_cst_14 main_v43 (broadcastInDim S128 ![] bcast_S_S128),
    binary main_v42 main_v43 main_v44 (maximumf),
    unary main_v44 main_v45 (broadcastInDim S128x1 ![0] bcast_S128_S128x1_0),
    unary main_v45 main_v46 (broadcastInDim S128x512 ![0, 1] bcast_S128x1_S128x512_0_1),
    binary main_v38 main_v46 main_v47 (Host.divf),
    binary main_arg0 main_arg9 main_v48 ((fun l r => Host.dotGeneral dot_S128x1024_S1024x512_S128x512_1_0_0_1_n_n none l r)),
    unary main_arg10 main_v49 (broadcastInDim S1x512 ![1] bcast_S512_S1x512_1),
    unary main_v49 main_v50 (broadcastInDim S128x512 ![0, 1] bcast_S1x512_S128x512_0_1),
    binary main_v48 main_v50 main_v51 (addf),
    binary main_arg0 main_arg11 main_v52 ((fun l r => Host.dotGeneral dot_S128x1024_S1024x512_S128x512_1_0_0_1_n_n none l r)),
    unary main_arg12 main_v53 (broadcastInDim S1x512 ![1] bcast_S512_S1x512_1),
    unary main_v53 main_v54 (broadcastInDim S128x512 ![0, 1] bcast_S1x512_S128x512_0_1),
    binary main_v52 main_v54 main_v55 (addf),
    binary main_v51 main_v35 main_v56 (addf),
    binary main_v55 main_v11 main_v57 (addf),
    binary main_v56 main_v57 main_v58 ((fun a b => concatenate S128x1024 1 [⟨S128x512, a⟩, ⟨S128x512, b⟩] concatenates_S128x512_S128x512_S128x1024_d1)),
    binary main_v51 main_v47 main_v59 (addf),
    binary main_v55 main_v23 main_v60 (addf),
    binary main_v59 main_v60 main_v61 ((fun a b => concatenate S128x1024 1 [⟨S128x512, a⟩, ⟨S128x512, b⟩] concatenates_S128x512_S128x512_S128x1024_d1)),
    binary main_v58 main_v61 main_v62 (addf),
    binary main_v62 main_arg13 main_v63 ((fun l r => Host.dotGeneral dot_S128x1024_S1024x2048_S128x2048_1_0_0_1_n_n none l r)),
    unary main_arg14 main_v64 (broadcastInDim S1x2048 ![1] bcast_S2048_S1x2048_1),
    unary main_v64 main_v65 (broadcastInDim S128x2048 ![0, 1] bcast_S1x2048_S128x2048_0_1),
    binary main_v63 main_v65 main_v66 (addf),
    TRef.nullary main_call0.cst (constant S_ .f32 0x00000000#32),
    TRef.unary main_call0.cst main_call0.v0 (broadcastInDim S128x2048 ![] bcast_S_S128x2048),
    TRef.binary (.of main_v66 : TRef sig ⟨S128x2048, .f32⟩) main_call0.v0 main_call0.v1 (cmpf .ogt),
    TRef.nullary main_call0.cst_0 (constant S_ .f32 0x00000000#32),
    TRef.unary main_call0.cst_0 main_call0.v2 (broadcastInDim S128x2048 ![] bcast_S_S128x2048),
    TRef.binary (.of main_v66 : TRef sig ⟨S128x2048, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S128x2048 ![] bcast_S_S128x2048),
    TRef.ternary main_call0.v3 main_call0.call0.v1 (.of main_v66 : TRef sig ⟨S128x2048, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S128x2048 ![] bcast_S_S128x2048),
    TRef.binary main_call0.v6 main_call0.v5 main_call0.v7 mulf,
    TRef.ternary main_call0.v1 (.of main_v66 : TRef sig ⟨S128x2048, .f32⟩) main_call0.v7 main_call0.call1.v0 select,
    binary main_v67 main_arg15 main_v68 ((fun l r => Host.dotGeneral dot_S128x2048_S2048x3129_S128x3129_1_0_0_1_n_n none l r)),
    unary main_arg16 main_v69 (broadcastInDim S1x3129 ![1] bcast_S3129_S1x3129_1),
    unary main_v69 main_v70 (broadcastInDim S128x3129 ![0, 1] bcast_S1x3129_S128x3129_0_1),
    binary main_v68 main_v70 main_v71 (addf) ]

set_option maxRecDepth 8192 in
set_option maxHeartbeats 4000000 in

/-- The program is its operations in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in

theorem ops_sub : (ops : List (HloOp τ sig (Elt F))).Forall fun op => op.bufs ⊆ tcRefs τ sig :=
  ⟨
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., binary_bufs_sub .., binary_bufs_sub .., binary_bufs_sub .., binary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..⟩

set_option maxRecDepth 8192 in

theorem ops_fresh : (ops : List (HloOp τ sig (Elt F))).Forall fun op => op.fresh = ∅ :=
  ⟨
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

abbrev written : List (Ref sig .tc) :=
  [
    main_cst, main_v0, main_v1, main_v2, main_cst_0, main_v3, main_cst_1, main_v4,
    main_v5, main_v6, main_cst_2, main_v7, main_v8, main_v9, main_v10, main_v11,
    main_cst_3, main_v12, main_v13, main_v14, main_cst_4, main_v15, main_cst_5, main_v16,
    main_v17, main_v18, main_cst_6, main_v19, main_v20, main_v21, main_v22, main_v23,
    main_cst_7, main_v24, main_v25, main_v26, main_cst_8, main_v27, main_cst_9, main_v28,
    main_v29, main_v30, main_cst_10, main_v31, main_v32, main_v33, main_v34, main_v35,
    main_cst_11, main_v36, main_v37, main_v38, main_cst_12, main_v39, main_cst_13, main_v40,
    main_v41, main_v42, main_cst_14, main_v43, main_v44, main_v45, main_v46, main_v47,
    main_v48, main_v49, main_v50, main_v51, main_v52, main_v53, main_v54, main_v55,
    main_v56, main_v57, main_v58, main_v59, main_v60, main_v61, main_v62, main_v63,
    main_v64, main_v65, main_v66, main_call0_cst, main_call0_v0, main_call0_v1, main_call0_cst_0, main_call0_v2,
    main_call0_v3, main_call0_cst_1, main_call0_call0_v0, main_call0_call0_v1, main_call0_v4, main_call0_v5, main_call0_cst_2, main_call0_v6,
    main_call0_v7, main_v67, main_v68, main_v69, main_v70, main_v71 ]

theorem sub_written {W : List (Ref sig .tc)} {op : HloOp τ sig (Elt F)} (y : Ref sig .tc)
    (hw : op.writes = {Proc.devRef .tc y} := by rfl) (hy : y ∈ W := by decide) :
    op.writes ⊆ (W.map (Proc.devRef (τ := τ) .tc)).toFinset := by
  rw [hw, Finset.singleton_subset_iff, List.mem_toFinset]
  exact List.mem_map.mpr ⟨y, hy, rfl⟩

set_option maxRecDepth 8192 in

theorem ops_writes : (ops : List (HloOp τ sig (Elt F))).Forall fun op =>
    op.writes ⊆ (written.map (Proc.devRef (τ := τ) .tc)).toFinset :=
  ⟨
    sub_written main_cst, sub_written main_v0, sub_written main_v1,
    sub_written main_v2, sub_written main_cst_0, sub_written main_v3,
    sub_written main_cst_1, sub_written main_v4, sub_written main_v5,
    sub_written main_v6, sub_written main_cst_2, sub_written main_v7,
    sub_written main_v8, sub_written main_v9, sub_written main_v10,
    sub_written main_v11, sub_written main_cst_3, sub_written main_v12,
    sub_written main_v13, sub_written main_v14, sub_written main_cst_4,
    sub_written main_v15, sub_written main_cst_5, sub_written main_v16,
    sub_written main_v17, sub_written main_v18, sub_written main_cst_6,
    sub_written main_v19, sub_written main_v20, sub_written main_v21,
    sub_written main_v22, sub_written main_v23, sub_written main_cst_7,
    sub_written main_v24, sub_written main_v25, sub_written main_v26,
    sub_written main_cst_8, sub_written main_v27, sub_written main_cst_9,
    sub_written main_v28, sub_written main_v29, sub_written main_v30,
    sub_written main_cst_10, sub_written main_v31, sub_written main_v32,
    sub_written main_v33, sub_written main_v34, sub_written main_v35,
    sub_written main_cst_11, sub_written main_v36, sub_written main_v37,
    sub_written main_v38, sub_written main_cst_12, sub_written main_v39,
    sub_written main_cst_13, sub_written main_v40, sub_written main_v41,
    sub_written main_v42, sub_written main_cst_14, sub_written main_v43,
    sub_written main_v44, sub_written main_v45, sub_written main_v46,
    sub_written main_v47, sub_written main_v48, sub_written main_v49,
    sub_written main_v50, sub_written main_v51, sub_written main_v52,
    sub_written main_v53, sub_written main_v54, sub_written main_v55,
    sub_written main_v56, sub_written main_v57, sub_written main_v58,
    sub_written main_v59, sub_written main_v60, sub_written main_v61,
    sub_written main_v62, sub_written main_v63, sub_written main_v64,
    sub_written main_v65, sub_written main_v66, sub_written main_call0_cst,
    sub_written main_call0_v0, sub_written main_call0_v1, sub_written main_call0_cst_0,
    sub_written main_call0_v2, sub_written main_call0_v3, sub_written main_call0_cst_1,
    sub_written main_call0_call0_v0, sub_written main_call0_call0_v1, sub_written main_call0_v4,
    sub_written main_call0_v5, sub_written main_call0_cst_2, sub_written main_call0_v6,
    sub_written main_call0_v7, sub_written main_v67, sub_written main_v68,
    sub_written main_v69, sub_written main_v70, sub_written main_v71⟩

theorem arg_kept (r : Ref sig .tc) (hr : r ∉ written) (V : Valuation τ sig (Elt F)) :
    after ops V (Proc.devRef .tc r) = V (Proc.devRef .tc r) :=
  after_of_writes_sub ops V ops_writes hr

/-- Every weakly fair execution ends with the result at the fold of the operations and every argument as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71) = StableHlo.after ops (fun b => m (c, b)) (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨h c main_v71,
      (h c main_arg0).trans (arg_kept main_arg0 (by decide) _),
      (h c main_arg1).trans (arg_kept main_arg1 (by decide) _),
      (h c main_arg2).trans (arg_kept main_arg2 (by decide) _),
      (h c main_arg3).trans (arg_kept main_arg3 (by decide) _),
      (h c main_arg4).trans (arg_kept main_arg4 (by decide) _),
      (h c main_arg5).trans (arg_kept main_arg5 (by decide) _),
      (h c main_arg6).trans (arg_kept main_arg6 (by decide) _),
      (h c main_arg7).trans (arg_kept main_arg7 (by decide) _),
      (h c main_arg8).trans (arg_kept main_arg8 (by decide) _),
      (h c main_arg9).trans (arg_kept main_arg9 (by decide) _),
      (h c main_arg10).trans (arg_kept main_arg10 (by decide) _),
      (h c main_arg11).trans (arg_kept main_arg11 (by decide) _),
      (h c main_arg12).trans (arg_kept main_arg12 (by decide) _),
      (h c main_arg13).trans (arg_kept main_arg13 (by decide) _),
      (h c main_arg14).trans (arg_kept main_arg14 (by decide) _),
      (h c main_arg15).trans (arg_kept main_arg15 (by decide) _),
      (h c main_arg16).trans (arg_kept main_arg16 (by decide) _)⟩)
    (run_seq scopedRefs_eq scopedSems_eq defs main (fun _ => ops) main_eq (fun _ => ops_sub) m ρ
      (fun _ => List.forall_iff_forall_mem.mp ops_fresh))

end Cert.ReferenceIdeal.Run

end
-- ==== Proof.ReferenceIdeal.Scatter.lean ====
import proofs.«419520_j38482906972438_2_alg».proof.ReferenceIdeal
import proofs.«419520_j38482906972438_2_alg».proof.Proof.Spec
import Idealize.ShloMosaic.Lib.ValueIdxRank1

noncomputable section

namespace Cert.ReferenceIdeal.Scatter

open Idealize.ShloMosaic Idealize.ShloMosaic.ValueIdx
open scoped BigOperators

theorem toInt_eq_seg (s : BitVec 32) (r : Fin 128) : s.toInt = (r.val : Int) ↔ s = BitVec.ofNat 32 r.val := by
  have hr := r.isLt
  have hs := s.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    split <;> omega

section Rows
variable {n : Nat}
  (wf : ScatterDims.WF ⟨2, ![128, 512]⟩ ⟨2, ![n, 1]⟩ ⟨2, ![n, 512]⟩ [1] [0] [0] 1)

def dims2 : ScatterDims ⟨2, ![128, 512]⟩ ⟨2, ![n, 1]⟩ ⟨2, ![n, 512]⟩ := ⟨[1], [0], [0], 1, wf⟩

theorem siIdx2 (j : (⟨2, ![n, 512]⟩ : Shape).Idx) (c : Fin (dims2 wf).scatterDimsToOperandDims.length) :
    (dims2 wf).siIdx j c = ix2 (j 0) 0 := by
  funext b
  match b with
  | ⟨0, _⟩ => rfl
  | ⟨1, _⟩ => exact Subsingleton.elim (α := Fin 1) _ _

theorem start2_0 (j : (⟨2, ![n, 512]⟩ : Shape).Idx) (idx : IVec ⟨2, ![n, 1]⟩ 32) :
    (dims2 wf).start j idx 0 = (idx (ix2 (j 0) 0)).toInt := by
  unfold ScatterDims.start
  split
  · rw [siIdx2]; rfl
  · rename_i hn
    exact absurd (List.mem_singleton.2 rfl) hn

theorem start2_1 (j : (⟨2, ![n, 512]⟩ : Shape).Idx) (idx : IVec ⟨2, ![n, 1]⟩ 32) :
    (dims2 wf).start j idx 1 = 0 := rfl

theorem window2_0 (j : (⟨2, ![n, 512]⟩ : Shape).Idx) : (dims2 wf).window j 0 = 0 := rfl
theorem window2_1 (j : (⟨2, ![n, 512]⟩ : Shape).Idx) : (dims2 wf).window j 1 = (j 1).val := rfl

theorem resultIdx2 (idx : IVec ⟨2, ![n, 1]⟩ 32) (k : Fin n) (h' : Fin 512) (r : Fin 128) (h : Fin 512) :
    (dims2 wf).resultIdx? (ix2 k h') idx = some (ix2 r h) ↔ (idx (ix2 k 0)).toInt = (r.val : Int) ∧ h' = h := by
  have hs0 : (dims2 wf).start (ix2 k h') idx 0 = (idx (ix2 k 0)).toInt := start2_0 wf (ix2 k h') idx
  have hs1 : (dims2 wf).start (ix2 k h') idx 1 = 0 := rfl
  have hw0 : (dims2 wf).window (ix2 k h') 0 = 0 := rfl
  have hw1 : (dims2 wf).window (ix2 k h') 1 = h'.val := rfl
  have hr := r.isLt
  have hh' := h'.isLt
  unfold ScatterDims.resultIdx?
  split
  · rename_i hin
    constructor
    · intro he
      have he' := Option.some.inj he
      have h0 : ((dims2 wf).start (ix2 k h') idx 0 + ((dims2 wf).window (ix2 k h') 0 : Nat)).toNat = r.val :=
        congrArg Fin.val (congrFun he' 0)
      have h1 : ((dims2 wf).start (ix2 k h') idx 1 + ((dims2 wf).window (ix2 k h') 1 : Nat)).toNat = h.val :=
        congrArg Fin.val (congrFun he' 1)
      have hin0 := (hin 0).1
      rw [hs0, hw0] at h0 hin0
      rw [hs1, hw1] at h1
      exact ⟨by omega, Fin.ext (by omega)⟩
    · rintro ⟨hk, rfl⟩
      refine congrArg some (funext fun a => ?_)
      match a with
      | ⟨0, _⟩ =>
        apply Fin.ext
        show ((dims2 wf).start (ix2 k h') idx 0 + ((dims2 wf).window (ix2 k h') 0 : Nat)).toNat = r.val
        rw [hs0, hw0]; omega
      | ⟨1, _⟩ =>
        apply Fin.ext
        show ((dims2 wf).start (ix2 k h') idx 1 + ((dims2 wf).window (ix2 k h') 1 : Nat)).toNat = h'.val
        rw [hs1, hw1]; omega
  · rename_i hin
    refine ⟨fun he => (by cases he), fun hkh => absurd (fun a => ?_) hin⟩
    obtain ⟨hk, _⟩ := hkh
    match a with
    | ⟨0, _⟩ =>
      show 0 ≤ (dims2 wf).start (ix2 k h') idx 0 + ((dims2 wf).window (ix2 k h') 0 : Nat)
        ∧ (dims2 wf).start (ix2 k h') idx 0 + ((dims2 wf).window (ix2 k h') 0 : Nat) < ((128 : Nat) : Int)
      rw [hs0, hw0]; omega
    | ⟨1, _⟩ =>
      show 0 ≤ (dims2 wf).start (ix2 k h') idx 1 + ((dims2 wf).window (ix2 k h') 1 : Nat)
        ∧ (dims2 wf).start (ix2 k h') idx 1 + ((dims2 wf).window (ix2 k h') 1 : Nat) < ((512 : Nat) : Int)
      rw [hs1, hw1]; omega

/-- Scatter-adding the rows of a matrix by a column of ids adds to row r the rows whose id is r. -/
theorem hostScatterAdd2 (x : (⟨2, ![128, 512]⟩ : Shape).Idx → EReal) (idx : IVec ⟨2, ![n, 1]⟩ 32)
    (upd : (⟨2, ![n, 512]⟩ : Shape).Idx → EReal) (r : Fin 128) (h : Fin 512) :
    Ideal.hostScatterAdd (dims2 wf) x idx upd (ix2 r h)
      = x (ix2 r h) + ∑ k : Fin n, Spec.hot (idx (ix2 k 0)) r * upd (ix2 k h) := by
  unfold Ideal.hostScatterAdd
  congr 1
  rw [Finset.sum_filter, sum_idx2]
  refine Finset.sum_congr rfl fun k _ => ?_
  unfold Spec.hot
  by_cases hk : (idx (ix2 k 0)).toInt = (r.val : Int)
  · rw [if_pos ((toInt_eq_seg _ r).1 hk), one_mul, Finset.sum_eq_single h]
    · exact if_pos ((resultIdx2 wf idx k h r h).2 ⟨hk, rfl⟩)
    · intro b _ hb
      exact if_neg fun hc => hb ((resultIdx2 wf idx k b r h).1 hc).2
    · intro hh
      exact absurd (Finset.mem_univ _) hh
  · rw [if_neg (fun hc => hk ((toInt_eq_seg _ r).2 hc)), zero_mul]
    exact Finset.sum_eq_zero fun b _ => if_neg fun hc => hk ((resultIdx2 wf idx k b r h).1 hc).1

end Rows

section Scalars
variable {n : Nat}
  (wf : ScatterDims.WF ⟨1, ![128]⟩ ⟨2, ![n, 1]⟩ ⟨1, ![n]⟩ [] [0] [0] 1)

def dims1 : ScatterDims ⟨1, ![128]⟩ ⟨2, ![n, 1]⟩ ⟨1, ![n]⟩ := ⟨[], [0], [0], 1, wf⟩

theorem siIdx1 (j : (⟨1, ![n]⟩ : Shape).Idx) (c : Fin (dims1 wf).scatterDimsToOperandDims.length) :
    (dims1 wf).siIdx j c = ix2 (j 0) 0 := by
  funext b
  match b with
  | ⟨0, _⟩ => rfl
  | ⟨1, _⟩ => exact Subsingleton.elim (α := Fin 1) _ _

theorem start1_0 (j : (⟨1, ![n]⟩ : Shape).Idx) (idx : IVec ⟨2, ![n, 1]⟩ 32) :
    (dims1 wf).start j idx 0 = (idx (ix2 (j 0) 0)).toInt := by
  unfold ScatterDims.start
  split
  · rw [siIdx1]; rfl
  · rename_i hn
    exact absurd (List.mem_singleton.2 rfl) hn

theorem window1_0 (j : (⟨1, ![n]⟩ : Shape).Idx) : (dims1 wf).window j 0 = 0 := rfl

theorem resultIdx1 (idx : IVec ⟨2, ![n, 1]⟩ 32) (k : Fin n) (r : Fin 128) :
    (dims1 wf).resultIdx? (ix1 k) idx = some (ix1 r) ↔ (idx (ix2 k 0)).toInt = (r.val : Int) := by
  have hs0 : (dims1 wf).start (ix1 k) idx 0 = (idx (ix2 k 0)).toInt := start1_0 wf (ix1 k) idx
  have hw0 : (dims1 wf).window (ix1 k) 0 = 0 := rfl
  have hr := r.isLt
  unfold ScatterDims.resultIdx?
  split
  · rename_i hin
    constructor
    · intro he
      have he' := Option.some.inj he
      have h0 : ((dims1 wf).start (ix1 k) idx 0 + ((dims1 wf).window (ix1 k) 0 : Nat)).toNat = r.val :=
        congrArg Fin.val (congrFun he' 0)
      have hin0 := (hin 0).1
      rw [hs0, hw0] at h0 hin0
      omega
    · intro hk
      refine congrArg some (funext fun a => ?_)
      match a with
      | ⟨0, _⟩ =>
        apply Fin.ext
        show ((dims1 wf).start (ix1 k) idx 0 + ((dims1 wf).window (ix1 k) 0 : Nat)).toNat = r.val
        rw [hs0, hw0]; omega
  · rename_i hin
    refine ⟨fun he => (by cases he), fun hk => absurd (fun a => ?_) hin⟩
    match a with
    | ⟨0, _⟩ =>
      show 0 ≤ (dims1 wf).start (ix1 k) idx 0 + ((dims1 wf).window (ix1 k) 0 : Nat)
        ∧ (dims1 wf).start (ix1 k) idx 0 + ((dims1 wf).window (ix1 k) 0 : Nat) < ((128 : Nat) : Int)
      rw [hs0, hw0]; omega

/-- Scatter-adding a vector by a column of ids adds to entry r the entries whose id is r. -/
theorem hostScatterAdd1 (x : (⟨1, ![128]⟩ : Shape).Idx → EReal) (idx : IVec ⟨2, ![n, 1]⟩ 32)
    (upd : (⟨1, ![n]⟩ : Shape).Idx → EReal) (r : Fin 128) :
    Ideal.hostScatterAdd (dims1 wf) x idx upd (ix1 r)
      = x (ix1 r) + ∑ k : Fin n, Spec.hot (idx (ix2 k 0)) r * upd (ix1 k) := by
  unfold Ideal.hostScatterAdd
  congr 1
  rw [Finset.sum_filter, ← Equiv.sum_comp (idxEquiv1 (n := n)).symm]
  refine Finset.sum_congr rfl fun k _ => ?_
  show (if (dims1 wf).resultIdx? (ix1 k) idx = some (ix1 r) then upd (ix1 k) else 0) = _
  unfold Spec.hot
  by_cases hk : (idx (ix2 k 0)).toInt = (r.val : Int)
  · rw [if_pos ((toInt_eq_seg _ r).1 hk), one_mul]
    exact if_pos ((resultIdx1 wf idx k r).2 hk)
  · rw [if_neg (fun hc => hk ((toInt_eq_seg _ r).2 hc)), zero_mul]
    exact if_neg fun hc => hk ((resultIdx1 wf idx k r).1 hc)

end Scalars

section Literal
variable [Facts₀]

theorem scatterAdd_rows_131072 (x : S128x512.Idx → EReal) (idx : IVec S131072x1 32) (upd : S131072x512.Idx → EReal)
    (r : Fin 128) (h : Fin 512) :
    Ideal.hostScatterAdd scatter_S128x512_S131072x1_S131072x512_1_0_0_1 x idx upd (ix2 r h)
      = x (ix2 r h) + ∑ k : Fin 131072, Spec.hot (idx (ix2 k 0)) r * upd (ix2 k h) :=
  hostScatterAdd2 _ x idx upd r h

theorem scatterAdd_ones_131072 (x : S128.Idx → EReal) (idx : IVec S131072x1 32) (upd : S131072.Idx → EReal)
    (r : Fin 128) :
    Ideal.hostScatterAdd scatter_S128_S131072x1_S131072_n_0_0_1 x idx upd (ix1 r)
      = x (ix1 r) + ∑ k : Fin 131072, Spec.hot (idx (ix2 k 0)) r * upd (ix1 k) :=
  hostScatterAdd1 _ x idx upd r

theorem scatterAdd_rows_262144 (x : S128x512.Idx → EReal) (idx : IVec S262144x1 32) (upd : S262144x512.Idx → EReal)
    (r : Fin 128) (h : Fin 512) :
    Ideal.hostScatterAdd scatter_S128x512_S262144x1_S262144x512_1_0_0_1 x idx upd (ix2 r h)
      = x (ix2 r h) + ∑ k : Fin 262144, Spec.hot (idx (ix2 k 0)) r * upd (ix2 k h) :=
  hostScatterAdd2 _ x idx upd r h

theorem scatterAdd_ones_262144 (x : S128.Idx → EReal) (idx : IVec S262144x1 32) (upd : S262144.Idx → EReal)
    (r : Fin 128) :
    Ideal.hostScatterAdd scatter_S128_S262144x1_S262144_n_0_0_1 x idx upd (ix1 r)
      = x (ix1 r) + ∑ k : Fin 262144, Spec.hot (idx (ix2 k 0)) r * upd (ix1 k) :=
  hostScatterAdd1 _ x idx upd r

end Literal

end Cert.ReferenceIdeal.Scatter

end
-- ==== Proof.ReferenceIdeal.HeadLemmas.lean ====
import proofs.«419520_j38482906972438_2_alg».proof.ReferenceIdeal
import proofs.«419520_j38482906972438_2_alg».proof.Proof.Spec
import Idealize.ShloMosaic.Lib.IdealHost
import Idealize.ShloMosaic.Lib.Pipeline.Value
import Idealize.ShloMosaic.Lib.KernelVsHost
import Idealize.ShloMosaic.Lib.StackMember

noncomputable section

namespace Cert.ReferenceIdeal.HeadLemmas

open Idealize.ShloMosaic Idealize.ShloMosaic.ValueIdx Cert.ReferenceIdeal
open scoped BigOperators

variable [Facts₀]

theorem fill_apply {T : Shape} (h : S_.BroadcastsInDim T ![]) (w : BitVec FTy.f32.bits) (j : T.Idx) :
    broadcastInDim T ![] h (constant (F := Ideal) S_ .f32 w) j = Ideal.ofBits .f32 w := by
  rw [broadcastInDim_scalar_apply]; rfl

theorem row_apply {α : Type} {b : Nat} (h : (⟨1, ![b]⟩ : Shape).BroadcastsInDim ⟨2, ![1, b]⟩ ![1])
    (v : (⟨1, ![b]⟩ : Shape).Idx → α) (z : Fin 1) (c : Fin b) :
    broadcastInDim ⟨2, ![1, b]⟩ ![1] h v (ix2 z c) = v (ix1 c) := by
  refine broadcastInDim_apply ![1] h v (ix2 z c) (ix1 c) ?_
  intro x
  match x with
  | ⟨0, _⟩ =>
    show c.val = if b = 1 then 0 else c.val
    split_ifs with hn
    · have := c.isLt; omega
    · rfl

theorem bias_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α) (r : Fin a) (c : Fin b) :
    broadcastInDim ⟨2, ![a, b]⟩ ![0, 1] h2 (broadcastInDim ⟨2, ![1, b]⟩ ![1] h1 v) (ix2 r c) = v (ix1 c) := by
  rw [broadcastInDim_oneRow_apply, row_apply]

theorem halves_apply {α : Type} (h : Shape.Concatenates [S128x512, S128x512] S128x1024 1)
    (x y : S128x512.Idx → α) (r : Fin 128) (cc : Fin 1024) :
    concatenate S128x1024 1 [⟨S128x512, x⟩, ⟨S128x512, y⟩] h (ix2 r cc)
      = if hc : cc.val < 512 then x (ix2 r ⟨cc.val, hc⟩) else y (ix2 r ⟨cc.val - 512, by have := cc.isLt; omega⟩) := by
  split_ifs with hc
  · refine concatenate_pair_apply_left (1 : Fin 2) x y h (ix2 r cc) rfl (ix2 r ⟨cc.val, hc⟩) ?_
    intro b
    match b with
    | ⟨0, _⟩ => rfl
    | ⟨1, _⟩ => rfl
  · refine concatenate_pair_apply_right (1 : Fin 2) x y h (ix2 r cc) rfl rfl (ix2 r ⟨cc.val - 512, by have := cc.isLt; omega⟩) ?_ ?_
    · intro b hb
      match b with
      | ⟨0, _⟩ => rfl
      | ⟨1, _⟩ => exact absurd rfl hb
    · show cc.val - 512 + 512 = cc.val
      omega

/-- A plain m × k by k × n product at (a, b): Σ_c A(a, c) · B(c, b). -/
theorem dot_apply {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (F := Ideal) (φ₁ := .f32) (φ₂ := .f32) (⟨[1], [0], [0], [1], [], [], w⟩ : DotDims _ _ _) none A B (ix2 a b)
      = ∑ c : Fin k, A (ix2 a c) * B (ix2 c b) :=
  StackMember.dotGeneral_plain_apply none A B a b

theorem affine_512 (x : Spec.Mat 128 1024) (w : Spec.Mat 1024 512) (b : Spec.Vect 512)
    (h1 : S512.BroadcastsInDim S1x512 ![1]) (h2 : S1x512.BroadcastsInDim S128x512 ![0, 1]) :
    addf (F := Ideal) (φ := .f32)
        (Host.dotGeneral (F := Ideal) (φ₁ := .f32) (φ₂ := .f32) dot_S128x1024_S1024x512_S128x512_1_0_0_1_n_n none x w)
        (broadcastInDim S128x512 ![0, 1] h2 (broadcastInDim S1x512 ![1] h1 b))
      = Spec.affine x w b := by
  funext j
  obtain ⟨r, c, rfl⟩ : ∃ (r : Fin 128) (c : Fin 512), j = ix2 r c := ⟨j 0, j 1, eq_ix2 j⟩
  rw [addf_apply, bias_apply]
  exact congrArg (· + b (ix1 c)) (dot_apply _ x w r c)

theorem affine_2048 (x : Spec.Mat 128 1024) (w : Spec.Mat 1024 2048) (b : Spec.Vect 2048)
    (h1 : S2048.BroadcastsInDim S1x2048 ![1]) (h2 : S1x2048.BroadcastsInDim S128x2048 ![0, 1]) :
    addf (F := Ideal) (φ := .f32)
        (Host.dotGeneral (F := Ideal) (φ₁ := .f32) (φ₂ := .f32) dot_S128x1024_S1024x2048_S128x2048_1_0_0_1_n_n none x w)
        (broadcastInDim S128x2048 ![0, 1] h2 (broadcastInDim S1x2048 ![1] h1 b))
      = Spec.affine x w b := by
  funext j
  obtain ⟨r, c, rfl⟩ : ∃ (r : Fin 128) (c : Fin 2048), j = ix2 r c := ⟨j 0, j 1, eq_ix2 j⟩
  rw [addf_apply, bias_apply]
  exact congrArg (· + b (ix1 c)) (dot_apply _ x w r c)

theorem affine_3129 (x : Spec.Mat 128 2048) (w : Spec.Mat 2048 3129) (b : Spec.Vect 3129)
    (h1 : S3129.BroadcastsInDim S1x3129 ![1]) (h2 : S1x3129.BroadcastsInDim S128x3129 ![0, 1]) :
    addf (F := Ideal) (φ := .f32)
        (Host.dotGeneral (F := Ideal) (φ₁ := .f32) (φ₂ := .f32) dot_S128x2048_S2048x3129_S128x3129_1_0_0_1_n_n none x w)
        (broadcastInDim S128x3129 ![0, 1] h2 (broadcastInDim S1x3129 ![1] h1 b))
      = Spec.affine x w b := by
  funext j
  obtain ⟨r, c, rfl⟩ : ∃ (r : Fin 128) (c : Fin 3129), j = ix2 r c := ⟨j 0, j 1, eq_ix2 j⟩
  rw [addf_apply, bias_apply]
  exact congrArg (· + b (ix1 c)) (dot_apply _ x w r c)

theorem fuse_eq (qe qn e a k : Spec.Mat 128 512) (h : Shape.Concatenates [S128x512, S128x512] S128x1024 1) :
    addf (F := Ideal) (φ := .f32)
        (concatenate S128x1024 1 [⟨S128x512, addf (F := Ideal) (φ := .f32) qe e⟩, ⟨S128x512, addf (F := Ideal) (φ := .f32) qn a⟩] h)
        (concatenate S128x1024 1 [⟨S128x512, addf (F := Ideal) (φ := .f32) qe e⟩, ⟨S128x512, addf (F := Ideal) (φ := .f32) qn k⟩] h)
      = Spec.fuse qe qn e a k := by
  funext j
  obtain ⟨r, cc, rfl⟩ : ∃ (r : Fin 128) (cc : Fin 1024), j = ix2 r cc := ⟨j 0, j 1, eq_ix2 j⟩
  rw [addf_apply, halves_apply, halves_apply]
  show _ = Spec.fuseAt qe qn e a k r cc
  unfold Spec.fuseAt
  split_ifs with hc
  · rfl
  · rfl

theorem elu_of (y z1 z2 z3 o : Spec.Mat 128 2048)
    (hz1 : ∀ j, z1 j = 0) (hz2 : ∀ j, z2 j = 0) (hz3 : ∀ j, z3 j = 0) (ho : ∀ j, o j = 1) :
    select (cmpf (F := Ideal) (φ := .f32) .ogt y z1) y
        (mulf (F := Ideal) (φ := .f32) o
          (Host.expm1 (F := Ideal) (φ := .f32) (select (cmpf (F := Ideal) (φ := .f32) .ogt y z2) z3 y)))
      = fun j => Spec.elu (y j) := by
  funext j
  show Scalar.select (Ideal.cmp .ogt (y j) (z1 j)) (y j)
      (o j * (Ideal.exp (Scalar.select (Ideal.cmp .ogt (y j) (z2 j)) (z3 j) (y j)) - 1)) = Spec.elu (y j)
  rw [hz1, hz2, ho, one_mul]
  unfold Spec.elu
  by_cases hpos : 0 < y j
  · have hb : Ideal.cmp .ogt (y j) 0 = 1#1 := by unfold Ideal.cmp; simp [hpos]
    rw [hb, select_one, if_pos hpos]
  · have hb : Ideal.cmp .ogt (y j) 0 = 0#1 := by unfold Ideal.cmp; simp [hpos]
    rw [hb, select_zero, select_zero, if_neg hpos]

/-- The reference's compare, mask, exp − 1 and select is the exponential linear unit. -/
theorem elu_eq (y : Spec.Mat 128 2048) (h : S_.BroadcastsInDim S128x2048 ![]) :
    select (cmpf (F := Ideal) (φ := .f32) .ogt y (broadcastInDim S128x2048 ![] h (constant (F := Ideal) S_ .f32 0x00000000#32))) y
        (mulf (F := Ideal) (φ := .f32) (broadcastInDim S128x2048 ![] h (constant (F := Ideal) S_ .f32 0x3F800000#32))
          (Host.expm1 (F := Ideal) (φ := .f32)
            (select (cmpf (F := Ideal) (φ := .f32) .ogt y (broadcastInDim S128x2048 ![] h (constant (F := Ideal) S_ .f32 0x00000000#32)))
              (broadcastInDim S128x2048 ![] h (id (constant (F := Ideal) S_ .f32 0x00000000#32))) y)))
      = fun j => Spec.elu (y j) :=
  elu_of y _ _ _ _
    (fun j => by rw [fill_apply, Ideal.ofBits_zero_f32])
    (fun j => by rw [fill_apply, Ideal.ofBits_zero_f32])
    (fun j => by rw [id, fill_apply, Ideal.ofBits_zero_f32])
    (fun j => by rw [fill_apply, Ideal.ofBits_one_f32])

end Cert.ReferenceIdeal.HeadLemmas

end
-- ==== Proof.ReferenceIdeal.HeadStage.lean ====
import proofs.«419520_j38482906972438_2_alg».proof.Proof.ReferenceIdeal.Run
import proofs.«419520_j38482906972438_2_alg».proof.Proof.ReferenceIdeal.HeadLemmas
import proofs.«419520_j38482906972438_2_alg».proof.Proof.Spec
import Idealize.ShloMosaic.Lib.StableHlo.Run

noncomputable section

namespace Cert.ReferenceIdeal.HeadStage

open Cert.ReferenceIdeal Cert.ReferenceIdeal.Gen Idealize.ShloMosaic Idealize.ShloMosaic.TcCoe Idealize.SL.Sem Idealize.ShloMosaic.StableHlo

variable {F : FTy → Type} [FloatOps F]

abbrev projOps : List (HloOp τ sig (Elt F)) :=
  [
    binary main_arg0 main_arg9 main_v48 ((fun l r => Host.dotGeneral dot_S128x1024_S1024x512_S128x512_1_0_0_1_n_n none l r)),
    unary main_arg10 main_v49 (broadcastInDim S1x512 ![1] bcast_S512_S1x512_1),
    unary main_v49 main_v50 (broadcastInDim S128x512 ![0, 1] bcast_S1x512_S128x512_0_1),
    binary main_v48 main_v50 main_v51 (addf),
    binary main_arg0 main_arg11 main_v52 ((fun l r => Host.dotGeneral dot_S128x1024_S1024x512_S128x512_1_0_0_1_n_n none l r)),
    unary main_arg12 main_v53 (broadcastInDim S1x512 ![1] bcast_S512_S1x512_1),
    unary main_v53 main_v54 (broadcastInDim S128x512 ![0, 1] bcast_S1x512_S128x512_0_1),
    binary main_v52 main_v54 main_v55 (addf) ]

abbrev fuseOps : List (HloOp τ sig (Elt F)) :=
  [
    binary main_v51 main_v35 main_v56 (addf),
    binary main_v55 main_v11 main_v57 (addf),
    binary main_v56 main_v57 main_v58 ((fun a b => concatenate S128x1024 1 [⟨S128x512, a⟩, ⟨S128x512, b⟩] concatenates_S128x512_S128x512_S128x1024_d1) : (⟨S128x512, .f32⟩ : BufTy).Contents (Elt F) → (⟨S128x512, .f32⟩ : BufTy).Contents (Elt F) → (⟨S128x1024, .f32⟩ : BufTy).Contents (Elt F)),
    binary main_v51 main_v47 main_v59 (addf),
    binary main_v55 main_v23 main_v60 (addf),
    binary main_v59 main_v60 main_v61 ((fun a b => concatenate S128x1024 1 [⟨S128x512, a⟩, ⟨S128x512, b⟩] concatenates_S128x512_S128x512_S128x1024_d1) : (⟨S128x512, .f32⟩ : BufTy).Contents (Elt F) → (⟨S128x512, .f32⟩ : BufTy).Contents (Elt F) → (⟨S128x1024, .f32⟩ : BufTy).Contents (Elt F)),
    binary main_v58 main_v61 main_v62 (addf) ]

abbrev hidOps : List (HloOp τ sig (Elt F)) :=
  [
    binary main_v62 main_arg13 main_v63 ((fun l r => Host.dotGeneral dot_S128x1024_S1024x2048_S128x2048_1_0_0_1_n_n none l r)),
    unary main_arg14 main_v64 (broadcastInDim S1x2048 ![1] bcast_S2048_S1x2048_1),
    unary main_v64 main_v65 (broadcastInDim S128x2048 ![0, 1] bcast_S1x2048_S128x2048_0_1),
    binary main_v63 main_v65 main_v66 (addf) ]

abbrev eluOps : List (HloOp τ sig (Elt F)) :=
  [
    nullary main_call0_cst (constant S_ .f32 0x00000000#32),
    unary main_call0_cst main_call0_v0 (broadcastInDim S128x2048 ![] bcast_S_S128x2048),
    binary main_v66 main_call0_v0 main_call0_v1 (cmpf .ogt),
    nullary main_call0_cst_0 (constant S_ .f32 0x00000000#32),
    unary main_call0_cst_0 main_call0_v2 (broadcastInDim S128x2048 ![] bcast_S_S128x2048),
    binary main_v66 main_call0_v2 main_call0_v3 (cmpf .ogt),
    nullary main_call0_cst_1 (constant S_ .f32 0x00000000#32),
    unary main_call0_cst_1 main_call0_call0_v0 (id),
    unary main_call0_call0_v0 main_call0_call0_v1 (broadcastInDim S128x2048 ![] bcast_S_S128x2048),
    ternary main_call0_v3 main_call0_call0_v1 main_v66 main_call0_v4 (select),
    unary main_call0_v4 main_call0_v5 (Host.expm1),
    nullary main_call0_cst_2 (constant S_ .f32 0x3F800000#32),
    unary main_call0_cst_2 main_call0_v6 (broadcastInDim S128x2048 ![] bcast_S_S128x2048),
    binary main_call0_v6 main_call0_v5 main_call0_v7 (mulf),
    ternary main_call0_v1 main_v66 main_call0_v7 main_v67 (select) ]

abbrev outOps : List (HloOp τ sig (Elt F)) :=
  [
    binary main_v67 main_arg15 main_v68 ((fun l r => Host.dotGeneral dot_S128x2048_S2048x3129_S128x3129_1_0_0_1_n_n none l r)),
    unary main_arg16 main_v69 (broadcastInDim S1x3129 ![1] bcast_S3129_S1x3129_1),
    unary main_v69 main_v70 (broadcastInDim S128x3129 ![0, 1] bcast_S1x3129_S128x3129_0_1),
    binary main_v68 main_v70 main_v71 (addf) ]

theorem drop_eq : (Run.ops (F := F)).drop 64 = projOps ++ (fuseOps ++ (hidOps ++ (eluOps ++ outOps))) := rfl

theorem after_app (l₁ l₂ : List (HloOp τ sig (Elt F))) (V : Valuation τ sig (Elt F)) :
    after (l₁ ++ l₂) V = after l₂ (after l₁ V) := by
  induction l₁ generalizing V with
  | nil => rfl
  | cons op l ih => exact ih _

theorem projOps_v51 (V : Valuation τ sig (Elt F)) : after projOps V (Proc.devRef .tc main_v51)
      = addf (Host.dotGeneral dot_S128x1024_S1024x512_S128x512_1_0_0_1_n_n none (V (Proc.devRef .tc main_arg0)) (V (Proc.devRef .tc main_arg9)))
          (broadcastInDim S128x512 ![0, 1] bcast_S1x512_S128x512_0_1 (broadcastInDim S1x512 ![1] bcast_S512_S1x512_1 (V (Proc.devRef .tc main_arg10)))) := by
  after_results
theorem projOps_v55 (V : Valuation τ sig (Elt F)) : after projOps V (Proc.devRef .tc main_v55)
      = addf (Host.dotGeneral dot_S128x1024_S1024x512_S128x512_1_0_0_1_n_n none (V (Proc.devRef .tc main_arg0)) (V (Proc.devRef .tc main_arg11)))
          (broadcastInDim S128x512 ![0, 1] bcast_S1x512_S128x512_0_1 (broadcastInDim S1x512 ![1] bcast_S512_S1x512_1 (V (Proc.devRef .tc main_arg12)))) := by
  after_results
theorem projOps_keeps_v35 (V : Valuation τ sig (Elt F)) : after projOps V (Proc.devRef .tc main_v35) = V (Proc.devRef .tc main_v35) := by after_results
theorem projOps_keeps_v11 (V : Valuation τ sig (Elt F)) : after projOps V (Proc.devRef .tc main_v11) = V (Proc.devRef .tc main_v11) := by after_results
theorem projOps_keeps_v47 (V : Valuation τ sig (Elt F)) : after projOps V (Proc.devRef .tc main_v47) = V (Proc.devRef .tc main_v47) := by after_results
theorem projOps_keeps_v23 (V : Valuation τ sig (Elt F)) : after projOps V (Proc.devRef .tc main_v23) = V (Proc.devRef .tc main_v23) := by after_results
theorem projOps_keeps_arg13 (V : Valuation τ sig (Elt F)) : after projOps V (Proc.devRef .tc main_arg13) = V (Proc.devRef .tc main_arg13) := by after_results
theorem projOps_keeps_arg14 (V : Valuation τ sig (Elt F)) : after projOps V (Proc.devRef .tc main_arg14) = V (Proc.devRef .tc main_arg14) := by after_results
theorem projOps_keeps_arg15 (V : Valuation τ sig (Elt F)) : after projOps V (Proc.devRef .tc main_arg15) = V (Proc.devRef .tc main_arg15) := by after_results
theorem projOps_keeps_arg16 (V : Valuation τ sig (Elt F)) : after projOps V (Proc.devRef .tc main_arg16) = V (Proc.devRef .tc main_arg16) := by after_results

theorem fuseOps_v62 (V : Valuation τ sig (Elt F)) : after fuseOps V (Proc.devRef .tc main_v62)
      = addf (concatenate S128x1024 1 [⟨S128x512, addf (V (Proc.devRef .tc main_v51)) (V (Proc.devRef .tc main_v35))⟩, ⟨S128x512, addf (V (Proc.devRef .tc main_v55)) (V (Proc.devRef .tc main_v11))⟩] concatenates_S128x512_S128x512_S128x1024_d1)
          (concatenate S128x1024 1 [⟨S128x512, addf (V (Proc.devRef .tc main_v51)) (V (Proc.devRef .tc main_v47))⟩, ⟨S128x512, addf (V (Proc.devRef .tc main_v55)) (V (Proc.devRef .tc main_v23))⟩] concatenates_S128x512_S128x512_S128x1024_d1) := by
  after_results
theorem fuseOps_keeps_arg13 (V : Valuation τ sig (Elt F)) : after fuseOps V (Proc.devRef .tc main_arg13) = V (Proc.devRef .tc main_arg13) := by after_results
theorem fuseOps_keeps_arg14 (V : Valuation τ sig (Elt F)) : after fuseOps V (Proc.devRef .tc main_arg14) = V (Proc.devRef .tc main_arg14) := by after_results
theorem fuseOps_keeps_arg15 (V : Valuation τ sig (Elt F)) : after fuseOps V (Proc.devRef .tc main_arg15) = V (Proc.devRef .tc main_arg15) := by after_results
theorem fuseOps_keeps_arg16 (V : Valuation τ sig (Elt F)) : after fuseOps V (Proc.devRef .tc main_arg16) = V (Proc.devRef .tc main_arg16) := by after_results

theorem hidOps_v66 (V : Valuation τ sig (Elt F)) : after hidOps V (Proc.devRef .tc main_v66)
      = addf (Host.dotGeneral dot_S128x1024_S1024x2048_S128x2048_1_0_0_1_n_n none (V (Proc.devRef .tc main_v62)) (V (Proc.devRef .tc main_arg13)))
          (broadcastInDim S128x2048 ![0, 1] bcast_S1x2048_S128x2048_0_1 (broadcastInDim S1x2048 ![1] bcast_S2048_S1x2048_1 (V (Proc.devRef .tc main_arg14)))) := by
  after_results
theorem hidOps_keeps_arg15 (V : Valuation τ sig (Elt F)) : after hidOps V (Proc.devRef .tc main_arg15) = V (Proc.devRef .tc main_arg15) := by after_results
theorem hidOps_keeps_arg16 (V : Valuation τ sig (Elt F)) : after hidOps V (Proc.devRef .tc main_arg16) = V (Proc.devRef .tc main_arg16) := by after_results

theorem eluOps_v67 (V : Valuation τ sig (Elt F)) : after eluOps V (Proc.devRef .tc main_v67)
      = select (cmpf .ogt (V (Proc.devRef .tc main_v66)) (broadcastInDim S128x2048 ![] bcast_S_S128x2048 (constant S_ .f32 0x00000000#32))) (V (Proc.devRef .tc main_v66))
          (mulf (broadcastInDim S128x2048 ![] bcast_S_S128x2048 (constant S_ .f32 0x3F800000#32))
            (Host.expm1 (select (cmpf .ogt (V (Proc.devRef .tc main_v66)) (broadcastInDim S128x2048 ![] bcast_S_S128x2048 (constant S_ .f32 0x00000000#32)))
              (broadcastInDim S128x2048 ![] bcast_S_S128x2048 (id (constant S_ .f32 0x00000000#32))) (V (Proc.devRef .tc main_v66))))) := by
  simp only [after_cons, after_nil]
  rfl
theorem eluOps_keeps_arg15 (V : Valuation τ sig (Elt F)) : after eluOps V (Proc.devRef .tc main_arg15) = V (Proc.devRef .tc main_arg15) := by after_results
theorem eluOps_keeps_arg16 (V : Valuation τ sig (Elt F)) : after eluOps V (Proc.devRef .tc main_arg16) = V (Proc.devRef .tc main_arg16) := by after_results

theorem outOps_v71 (V : Valuation τ sig (Elt F)) : after outOps V (Proc.devRef .tc main_v71)
      = addf (Host.dotGeneral dot_S128x2048_S2048x3129_S128x3129_1_0_0_1_n_n none (V (Proc.devRef .tc main_v67)) (V (Proc.devRef .tc main_arg15)))
          (broadcastInDim S128x3129 ![0, 1] bcast_S1x3129_S128x3129_0_1 (broadcastInDim S1x3129 ![1] bcast_S3129_S1x3129_1 (V (Proc.devRef .tc main_arg16)))) := by
  after_results

/-- From the four pooled means the remaining operations compute the specification's head. -/
theorem head_of_pools (W : Valuation τ sig (Elt Ideal)) (hK : W (Proc.devRef .tc main_v47) = W (Proc.devRef .tc main_v35)) :
    StableHlo.after ((Run.ops (F := Ideal)).drop 64) W (Proc.devRef .tc main_v71)
      = Spec.head (W (Proc.devRef .tc main_arg0)) (W (Proc.devRef .tc main_v11)) (W (Proc.devRef .tc main_v23)) (W (Proc.devRef .tc main_v35))
          (W (Proc.devRef .tc main_arg9)) (W (Proc.devRef .tc main_arg10)) (W (Proc.devRef .tc main_arg11)) (W (Proc.devRef .tc main_arg12))
          (W (Proc.devRef .tc main_arg13)) (W (Proc.devRef .tc main_arg14)) (W (Proc.devRef .tc main_arg15)) (W (Proc.devRef .tc main_arg16)) := by
  rw [drop_eq, after_app, after_app, after_app, after_app,
    outOps_v71, eluOps_v67, eluOps_keeps_arg15, eluOps_keeps_arg16,
    hidOps_v66, hidOps_keeps_arg15, hidOps_keeps_arg16,
    fuseOps_v62, fuseOps_keeps_arg13, fuseOps_keeps_arg14, fuseOps_keeps_arg15, fuseOps_keeps_arg16,
    projOps_v51, projOps_v55, projOps_keeps_v35, projOps_keeps_v11, projOps_keeps_v47, projOps_keeps_v23, projOps_keeps_arg13, projOps_keeps_arg14, projOps_keeps_arg15, projOps_keeps_arg16,
    hK]
  rw [HeadLemmas.affine_512, HeadLemmas.affine_512, HeadLemmas.fuse_eq, HeadLemmas.affine_2048, HeadLemmas.elu_eq,
    HeadLemmas.affine_3129]
  rfl

end Cert.ReferenceIdeal.HeadStage

end
-- ==== Proof.ReferenceIdeal.Value.lean ====
import proofs.«419520_j38482906972438_2_alg».proof.Proof.Gen.ReferenceIdeal
import proofs.«419520_j38482906972438_2_alg».proof.Proof.Spec
import proofs.«419520_j38482906972438_2_alg».proof.Proof.ReferenceIdeal.Scatter
import proofs.«419520_j38482906972438_2_alg».proof.Proof.ReferenceIdeal.Run
import proofs.«419520_j38482906972438_2_alg».proof.Proof.ReferenceIdeal.HeadStage
import Idealize.ShloMosaic.Lib.Pipeline.Frame
import Idealize.ShloMosaic.Lib.Pipeline.Value
import Idealize.ShloMosaic.Lib.IdealHost

noncomputable section

namespace Cert.ReferenceIdeal.RefValue

open Idealize.ShloMosaic Idealize.ShloMosaic.ValueIdx Cert.ReferenceIdeal
open scoped BigOperators

section Stages

variable [Facts₀]

theorem fill_apply {T : Shape} (h : S_.BroadcastsInDim T ![]) (w : BitVec FTy.f32.bits) (j : T.Idx) :
    broadcastInDim T ![] h (constant (F := Ideal) S_ .f32 w) j = Ideal.ofBits .f32 w := by
  rw [broadcastInDim_scalar_apply]; rfl

theorem column_apply {α : Type} {n : Nat} (h : (⟨1, ![n]⟩ : Shape).BroadcastsInDim ⟨2, ![n, 1]⟩ ![0])
    (v : (⟨1, ![n]⟩ : Shape).Idx → α) (k : Fin n) (z : Fin 1) :
    broadcastInDim ⟨2, ![n, 1]⟩ ![0] h v (ix2 k z) = v (ix1 k) := by
  refine broadcastInDim_apply ![0] h v (ix2 k z) (ix1 k) ?_
  intro a
  match a with
  | ⟨0, _⟩ =>
    show k.val = if n = 1 then 0 else k.val
    split_ifs with hn
    · have := k.isLt; omega
    · rfl

theorem spread_apply {α : Type} {a b : Nat} (h : (⟨2, ![a, 1]⟩ : Shape).BroadcastsInDim ⟨2, ![a, b]⟩ ![0, 1])
    (v : (⟨2, ![a, 1]⟩ : Shape).Idx → α) (r : Fin a) (c : Fin b) :
    broadcastInDim ⟨2, ![a, b]⟩ ![0, 1] h v (ix2 r c) = v (ix2 r 0) := by
  refine broadcastInDim_apply ![0, 1] h v (ix2 r c) (ix2 r 0) ?_
  intro x
  match x with
  | ⟨0, _⟩ =>
    show r.val = if a = 1 then 0 else r.val
    split_ifs with hn
    · have := r.isLt; omega
    · rfl
  | ⟨1, _⟩ =>
    show (0 : ℕ) = if (1 : ℕ) = 1 then 0 else c.val
    rfl

theorem div_max_one (x y : EReal) : Ideal.div x (max y 1) = x / max y 1 := by
  have hne : max y 1 ≠ 0 := (lt_of_lt_of_le zero_lt_one (le_max_right y 1)).ne'
  unfold Ideal.div
  rw [if_neg hne]
  rfl

/-- Segment sum over max(segment count, 1), broadcast along the features, is the ragged mean. -/
theorem mean_of {n : Nat} (feat : Spec.Mat n 512) (seg : Spec.Ids n)
    (sums : Spec.Mat 128 512) (cnts ones : Spec.Vect 128)
    (hs : ∀ r h, sums (ix2 r h) = Spec.segSum feat seg r h)
    (hc : ∀ r, cnts (ix1 r) = Spec.segCnt seg r) (ho : ∀ r, ones (ix1 r) = 1)
    (h1 : S128.BroadcastsInDim S128x1 ![0]) (h2 : S128x1.BroadcastsInDim S128x512 ![0, 1]) :
    Host.divf (F := Ideal) (φ := .f32) sums (broadcastInDim S128x512 ![0, 1] h2 (broadcastInDim S128x1 ![0] h1 (maximumf (F := Ideal) (φ := .f32) cnts ones)))
      = Spec.segMean feat seg := by
  funext j
  obtain ⟨r, h, rfl⟩ : ∃ (r : Fin 128) (h : Fin 512), j = ix2 r h := ⟨j 0, j 1, eq_ix2 j⟩
  rw [hostDivf_apply, spread_apply, column_apply, maximumf_apply, hs, hc, ho, div_max_one]
  rfl

theorem pool_131072 (feat : Spec.Mat 131072 512) (seg : Spec.Ids 131072)
    (hz2 : S_.BroadcastsInDim S128x512 ![]) (hcol : S131072.BroadcastsInDim S131072x1 ![0])
    (ho1 : S_.BroadcastsInDim S131072 ![]) (hz1 : S_.BroadcastsInDim S128 ![])
    (h1 : S128.BroadcastsInDim S128x1 ![0]) (h2 : S128x1.BroadcastsInDim S128x512 ![0, 1]) :
    Host.divf (F := Ideal) (φ := .f32)
        (Host.scatterAdd scatter_S128x512_S131072x1_S131072x512_1_0_0_1
          (broadcastInDim S128x512 ![] hz2 (constant (F := Ideal) S_ .f32 0x00000000#32))
          (broadcastInDim S131072x1 ![0] hcol seg) feat)
        (broadcastInDim S128x512 ![0, 1] h2 (broadcastInDim S128x1 ![0] h1
          (maximumf (F := Ideal) (φ := .f32)
            (Host.scatterAdd scatter_S128_S131072x1_S131072_n_0_0_1
              (broadcastInDim S128 ![] hz1 (constant (F := Ideal) S_ .f32 0x00000000#32))
              (broadcastInDim S131072x1 ![0] hcol seg)
              (broadcastInDim S131072 ![] ho1 (constant (F := Ideal) S_ .f32 0x3F800000#32)))
            (broadcastInDim S128 ![] hz1 (constant (F := Ideal) S_ .f32 0x3F800000#32)))))
      = Spec.segMean feat seg := by
  refine mean_of feat seg _ _ _ ?_ ?_ ?_ h1 h2
  · intro r h
    show Ideal.hostScatterAdd _ _ _ _ (ix2 r h) = _
    rw [Scatter.scatterAdd_rows_131072, fill_apply, Ideal.ofBits_zero_f32, zero_add]
    exact Finset.sum_congr rfl fun k _ => by rw [column_apply]
  · intro r
    show Ideal.hostScatterAdd _ _ _ _ (ix1 r) = _
    rw [Scatter.scatterAdd_ones_131072, fill_apply, Ideal.ofBits_zero_f32, zero_add]
    exact Finset.sum_congr rfl fun k _ => by rw [column_apply, fill_apply, Ideal.ofBits_one_f32, mul_one]
  · intro r
    rw [fill_apply, Ideal.ofBits_one_f32]

theorem pool_262144 (feat : Spec.Mat 262144 512) (seg : Spec.Ids 262144)
    (hz2 : S_.BroadcastsInDim S128x512 ![]) (hcol : S262144.BroadcastsInDim S262144x1 ![0])
    (ho1 : S_.BroadcastsInDim S262144 ![]) (hz1 : S_.BroadcastsInDim S128 ![])
    (h1 : S128.BroadcastsInDim S128x1 ![0]) (h2 : S128x1.BroadcastsInDim S128x512 ![0, 1]) :
    Host.divf (F := Ideal) (φ := .f32)
        (Host.scatterAdd scatter_S128x512_S262144x1_S262144x512_1_0_0_1
          (broadcastInDim S128x512 ![] hz2 (constant (F := Ideal) S_ .f32 0x00000000#32))
          (broadcastInDim S262144x1 ![0] hcol seg) feat)
        (broadcastInDim S128x512 ![0, 1] h2 (broadcastInDim S128x1 ![0] h1
          (maximumf (F := Ideal) (φ := .f32)
            (Host.scatterAdd scatter_S128_S262144x1_S262144_n_0_0_1
              (broadcastInDim S128 ![] hz1 (constant (F := Ideal) S_ .f32 0x00000000#32))
              (broadcastInDim S262144x1 ![0] hcol seg)
              (broadcastInDim S262144 ![] ho1 (constant (F := Ideal) S_ .f32 0x3F800000#32)))
            (broadcastInDim S128 ![] hz1 (constant (F := Ideal) S_ .f32 0x3F800000#32)))))
      = Spec.segMean feat seg := by
  refine mean_of feat seg _ _ _ ?_ ?_ ?_ h1 h2
  · intro r h
    show Ideal.hostScatterAdd _ _ _ _ (ix2 r h) = _
    rw [Scatter.scatterAdd_rows_262144, fill_apply, Ideal.ofBits_zero_f32, zero_add]
    exact Finset.sum_congr rfl fun k _ => by rw [column_apply]
  · intro r
    show Ideal.hostScatterAdd _ _ _ _ (ix1 r) = _
    rw [Scatter.scatterAdd_ones_262144, fill_apply, Ideal.ofBits_zero_f32, zero_add]
    exact Finset.sum_congr rfl fun k _ => by rw [column_apply, fill_apply, Ideal.ofBits_one_f32, mul_one]
  · intro r
    rw [fill_apply, Ideal.ofBits_one_f32]

end Stages

open Idealize.ShloMosaic.StableHlo Idealize.ShloMosaic.TcCoe Idealize.SL.Sem Cert.ReferenceIdeal.Gen

abbrev poolOps {F : FTy → Type} [FloatOps F] : List (HloOp τ sig (Elt F)) :=
  [
    nullary main_cst (constant S_ .f32 0x00000000#32),
    unary main_cst main_v0 (broadcastInDim S128x512 ![] bcast_S_S128x512),
    unary main_arg5 main_v1 (broadcastInDim S131072x1 ![0] bcast_S131072_S131072x1_0),
    ternary main_v0 main_v1 main_arg1 main_v2 ((fun x i u => Host.scatterAdd scatter_S128x512_S131072x1_S131072x512_1_0_0_1 x i u)),
    nullary main_cst_0 (constant S_ .f32 0x3F800000#32),
    unary main_cst_0 main_v3 (broadcastInDim S131072 ![] bcast_S_S131072),
    nullary main_cst_1 (constant S_ .f32 0x00000000#32),
    unary main_cst_1 main_v4 (broadcastInDim S128 ![] bcast_S_S128),
    unary main_arg5 main_v5 (broadcastInDim S131072x1 ![0] bcast_S131072_S131072x1_0),
    ternary main_v4 main_v5 main_v3 main_v6 ((fun x i u => Host.scatterAdd scatter_S128_S131072x1_S131072_n_0_0_1 x i u)),
    nullary main_cst_2 (constant S_ .f32 0x3F800000#32),
    unary main_cst_2 main_v7 (broadcastInDim S128 ![] bcast_S_S128),
    binary main_v6 main_v7 main_v8 (maximumf),
    unary main_v8 main_v9 (broadcastInDim S128x1 ![0] bcast_S128_S128x1_0),
    unary main_v9 main_v10 (broadcastInDim S128x512 ![0, 1] bcast_S128x1_S128x512_0_1),
    binary main_v2 main_v10 main_v11 (Host.divf),
    nullary main_cst_3 (constant S_ .f32 0x00000000#32),
    unary main_cst_3 main_v12 (broadcastInDim S128x512 ![] bcast_S_S128x512),
    unary main_arg6 main_v13 (broadcastInDim S131072x1 ![0] bcast_S131072_S131072x1_0),
    ternary main_v12 main_v13 main_arg2 main_v14 ((fun x i u => Host.scatterAdd scatter_S128x512_S131072x1_S131072x512_1_0_0_1 x i u)),
    nullary main_cst_4 (constant S_ .f32 0x3F800000#32),
    unary main_cst_4 main_v15 (broadcastInDim S131072 ![] bcast_S_S131072),
    nullary main_cst_5 (constant S_ .f32 0x00000000#32),
    unary main_cst_5 main_v16 (broadcastInDim S128 ![] bcast_S_S128),
    unary main_arg6 main_v17 (broadcastInDim S131072x1 ![0] bcast_S131072_S131072x1_0),
    ternary main_v16 main_v17 main_v15 main_v18 ((fun x i u => Host.scatterAdd scatter_S128_S131072x1_S131072_n_0_0_1 x i u)),
    nullary main_cst_6 (constant S_ .f32 0x3F800000#32),
    unary main_cst_6 main_v19 (broadcastInDim S128 ![] bcast_S_S128),
    binary main_v18 main_v19 main_v20 (maximumf),
    unary main_v20 main_v21 (broadcastInDim S128x1 ![0] bcast_S128_S128x1_0),
    unary main_v21 main_v22 (broadcastInDim S128x512 ![0, 1] bcast_S128x1_S128x512_0_1),
    binary main_v14 main_v22 main_v23 (Host.divf),
    nullary main_cst_7 (constant S_ .f32 0x00000000#32),
    unary main_cst_7 main_v24 (broadcastInDim S128x512 ![] bcast_S_S128x512),
    unary main_arg7 main_v25 (broadcastInDim S262144x1 ![0] bcast_S262144_S262144x1_0),
    ternary main_v24 main_v25 main_arg3 main_v26 ((fun x i u => Host.scatterAdd scatter_S128x512_S262144x1_S262144x512_1_0_0_1 x i u)),
    nullary main_cst_8 (constant S_ .f32 0x3F800000#32),
    unary main_cst_8 main_v27 (broadcastInDim S262144 ![] bcast_S_S262144),
    nullary main_cst_9 (constant S_ .f32 0x00000000#32),
    unary main_cst_9 main_v28 (broadcastInDim S128 ![] bcast_S_S128),
    unary main_arg7 main_v29 (broadcastInDim S262144x1 ![0] bcast_S262144_S262144x1_0),
    ternary main_v28 main_v29 main_v27 main_v30 ((fun x i u => Host.scatterAdd scatter_S128_S262144x1_S262144_n_0_0_1 x i u)),
    nullary main_cst_10 (constant S_ .f32 0x3F800000#32),
    unary main_cst_10 main_v31 (broadcastInDim S128 ![] bcast_S_S128),
    binary main_v30 main_v31 main_v32 (maximumf),
    unary main_v32 main_v33 (broadcastInDim S128x1 ![0] bcast_S128_S128x1_0),
    unary main_v33 main_v34 (broadcastInDim S128x512 ![0, 1] bcast_S128x1_S128x512_0_1),
    binary main_v26 main_v34 main_v35 (Host.divf),
    nullary main_cst_11 (constant S_ .f32 0x00000000#32),
    unary main_cst_11 main_v36 (broadcastInDim S128x512 ![] bcast_S_S128x512),
    unary main_arg7 main_v37 (broadcastInDim S262144x1 ![0] bcast_S262144_S262144x1_0),
    ternary main_v36 main_v37 main_arg3 main_v38 ((fun x i u => Host.scatterAdd scatter_S128x512_S262144x1_S262144x512_1_0_0_1 x i u)),
    nullary main_cst_12 (constant S_ .f32 0x3F800000#32),
    unary main_cst_12 main_v39 (broadcastInDim S262144 ![] bcast_S_S262144),
    nullary main_cst_13 (constant S_ .f32 0x00000000#32),
    unary main_cst_13 main_v40 (broadcastInDim S128 ![] bcast_S_S128),
    unary main_arg7 main_v41 (broadcastInDim S262144x1 ![0] bcast_S262144_S262144x1_0),
    ternary main_v40 main_v41 main_v39 main_v42 ((fun x i u => Host.scatterAdd scatter_S128_S262144x1_S262144_n_0_0_1 x i u)),
    nullary main_cst_14 (constant S_ .f32 0x3F800000#32),
    unary main_cst_14 main_v43 (broadcastInDim S128 ![] bcast_S_S128),
    binary main_v42 main_v43 main_v44 (maximumf),
    unary main_v44 main_v45 (broadcastInDim S128x1 ![0] bcast_S128_S128x1_0),
    unary main_v45 main_v46 (broadcastInDim S128x512 ![0, 1] bcast_S128x1_S128x512_0_1),
    binary main_v38 main_v46 main_v47 (Host.divf) ]

theorem take_ops {F : FTy → Type} [FloatOps F] : (Run.ops (F := F)).take 64 = poolOps := rfl

theorem pool_v11 (V : Valuation τ sig (Elt Ideal)) :
    after poolOps V (Proc.devRef .tc main_v11)
      = Spec.segMean (V (Proc.devRef .tc main_arg1)) (V (Proc.devRef .tc main_arg5)) := by
  after_results_simp
  exact pool_131072 _ _ _ _ _ _ _ _

theorem pool_v23 (V : Valuation τ sig (Elt Ideal)) :
    after poolOps V (Proc.devRef .tc main_v23)
      = Spec.segMean (V (Proc.devRef .tc main_arg2)) (V (Proc.devRef .tc main_arg6)) := by
  after_results_simp
  exact pool_131072 _ _ _ _ _ _ _ _

theorem pool_v35 (V : Valuation τ sig (Elt Ideal)) :
    after poolOps V (Proc.devRef .tc main_v35)
      = Spec.segMean (V (Proc.devRef .tc main_arg3)) (V (Proc.devRef .tc main_arg7)) := by
  after_results_simp
  exact pool_262144 _ _ _ _ _ _ _ _

theorem pool_v47 (V : Valuation τ sig (Elt Ideal)) :
    after poolOps V (Proc.devRef .tc main_v47)
      = Spec.segMean (V (Proc.devRef .tc main_arg3)) (V (Proc.devRef .tc main_arg7)) := by
  after_results_simp
  exact pool_262144 _ _ _ _ _ _ _ _

theorem pool_keeps (r : Ref sig .tc) (hr : r ∉ Run.written) (V : Valuation τ sig (Elt Ideal)) :
    after poolOps V (Proc.devRef .tc r) = V (Proc.devRef .tc r) := by
  rw [← take_ops]
  exact after_of_writes_sub _ V
    (List.forall_iff_forall_mem.mpr fun op hop =>
      List.forall_iff_forall_mem.mp (Run.ops_writes (F := Ideal)) op (List.mem_of_mem_take hop)) hr

/-- The exact reference's result is `Spec.model` of its arguments. -/
theorem result_eq (m : (ℓ : Loc nD τ sig) → Buf (Elt Ideal) ℓ) (c : Dev nD) :
    StableHlo.after Run.ops (fun b => m (c, b)) (Proc.devRef .tc main_v71)
      = Spec.model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg5)) (m ((c.tc : Thread nD τ).loc main_arg6))
          (m ((c.tc : Thread nD τ).loc main_arg7)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) := by
  have hsplit : after (Run.ops (F := Ideal)) (fun b => m (c, b))
      = after ((Run.ops (F := Ideal)).drop 64) (after poolOps (fun b => m (c, b))) := by
    rw [← after_append, ← take_ops, List.take_append_drop]
  rw [hsplit, HeadStage.head_of_pools _ (by rw [pool_v47, pool_v35]), pool_v11, pool_v23, pool_v35,
    pool_keeps main_arg0 (by decide), pool_keeps main_arg9 (by decide), pool_keeps main_arg10 (by decide),
    pool_keeps main_arg11 (by decide), pool_keeps main_arg12 (by decide), pool_keeps main_arg13 (by decide),
    pool_keeps main_arg14 (by decide), pool_keeps main_arg15 (by decide), pool_keeps main_arg16 (by decide)]
  rfl

end Cert.ReferenceIdeal.RefValue

end
-- ==== Proof.lean ====
import proofs.«419520_j38482906972438_2_alg».proof.Defs
import proofs.«419520_j38482906972438_2_alg».proof.Proof.Gen.Kernel
import proofs.«419520_j38482906972438_2_alg».proof.Proof.Gen.KernelIdeal
import proofs.«419520_j38482906972438_2_alg».proof.Proof.Gen.ReferenceIdeal
import proofs.«419520_j38482906972438_2_alg».proof.Proof.Gen.Pre_finite_inputs
import proofs.«419520_j38482906972438_2_alg».proof.Proof.Kernel.Pool0Frame
import proofs.«419520_j38482906972438_2_alg».proof.Proof.Kernel.Pool1Frame
import proofs.«419520_j38482906972438_2_alg».proof.Proof.Kernel.Pool2Frame
import proofs.«419520_j38482906972438_2_alg».proof.Proof.Kernel.HeadFrame
import proofs.«419520_j38482906972438_2_alg».proof.Proof.Kernel.RunLaunch
import proofs.«419520_j38482906972438_2_alg».proof.Proof.KernelIdeal.Pool0Frame
import proofs.«419520_j38482906972438_2_alg».proof.Proof.KernelIdeal.Pool1Frame
import proofs.«419520_j38482906972438_2_alg».proof.Proof.KernelIdeal.Pool2Frame
import proofs.«419520_j38482906972438_2_alg».proof.Proof.KernelIdeal.HeadFrame
import proofs.«419520_j38482906972438_2_alg».proof.Proof.KernelIdeal.RunLaunch
import proofs.«419520_j38482906972438_2_alg».proof.Proof.KernelIdeal.Value
import proofs.«419520_j38482906972438_2_alg».proof.Proof.ReferenceIdeal.Run
import proofs.«419520_j38482906972438_2_alg».proof.Proof.ReferenceIdeal.Value
import Idealize.ShloMosaic.Adequacy
import Idealize.ShloMosaic.Init

noncomputable section

namespace Cert.Proof

open Idealize.ShloMosaic Idealize.ShloMosaic.TcCoe Idealize.SL.Sem

theorem frame_words : Cert.frame_Kernel := fun m ρ _ =>
  (θ_run Cert.Kernel.defs _ _).mono (fun _ h c => (h c).2) (Cert.Kernel.Run.run_result (F := Bits) m ρ)

theorem frame_exact : Cert.frame_KernelIdeal := fun m ρ _ =>
  (θ_run Cert.KernelIdeal.defs _ _).mono (fun _ h c => (h c).2) (Cert.KernelIdeal.Run.run_result (F := Ideal) m ρ)

theorem frame_ref : Cert.frame_ReferenceIdeal := fun m ρ _ =>
  (θ_run Cert.ReferenceIdeal.defs _ _).mono (fun _ h c => (h c).2) (Cert.ReferenceIdeal.Run.run m ρ)

/-- Narrowing the one-hot matrix to bf16 and widening it back is the identity on extended reals: the rule's statement, once per pooling region. -/
theorem preserves : Cert.preserves_Kernel_KernelIdeal :=
  ⟨IdealRules.truncf_extf.statement _ _ _, IdealRules.truncf_extf.statement _ _ _, IdealRules.truncf_extf.statement _ _ _⟩

/-- Both result arrays are `Spec.model` of the kernel memory's arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Value.result m c), (h c).2⟩)
      (Cert.KernelIdeal.Run.run_result (F := Ideal) m ρ), ?_⟩
  refine (θ_run Cert.ReferenceIdeal.defs _ _).mono (fun _ h c => ⟨(h c).1.trans ?_, (h c).2⟩)
    (Cert.ReferenceIdeal.Run.run m' ρ')
  obtain ⟨e0, e1, e2, e3, e4, e5, e6, e7, e8, e9, e10, e11, e12, e13, e14, e15, e16⟩ := hagree c
  rw [Cert.ReferenceIdeal.RefValue.result_eq m' c, e0, e1, e2, e3, e5, e6, e7, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_words, frame_exact, frame_ref, preserves, algebraic⟩

end Cert.Proof

end
